-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v113)) (v1 : (c : Dev Cert.KernelIdeal.nD) → Buf (Elt Ideal) ((c.tc : Thread Cert.KernelIdeal.nD Cert.KernelIdeal.τ).loc Cert.KernelIdeal.main_v137)) (v2 : (c : Dev Cert.KernelIdeal.nD) → Buf (Elt Ideal) ((c.tc : Thread Cert.KernelIdeal.nD Cert.KernelIdeal.τ).loc Cert.KernelIdeal.main_v154)) (v3 : (c : Dev Cert.KernelIdeal.nD) → Buf (Elt Ideal) ((c.tc : Thread Cert.KernelIdeal.nD Cert.KernelIdeal.τ).loc Cert.KernelIdeal.main_v197)) (v4 : (c : Dev Cert.KernelIdeal.nD) → Buf (Elt Ideal) ((c.tc : Thread Cert.KernelIdeal.nD Cert.KernelIdeal.τ).loc Cert.KernelIdeal.main_v211)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_v137) = v1 c
          ∧ r.2.mem ((c.tc : Thread Cert.KernelIdeal.nD Cert.KernelIdeal.τ).loc Cert.KernelIdeal.main_v154) = v2 c
          ∧ r.2.mem ((c.tc : Thread Cert.KernelIdeal.nD Cert.KernelIdeal.τ).loc Cert.KernelIdeal.main_v197) = v3 c
          ∧ r.2.mem ((c.tc : Thread Cert.KernelIdeal.nD Cert.KernelIdeal.τ).loc Cert.KernelIdeal.main_v211) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_v206) = v3 c
          ∧ r.2.mem ((c.tc : Thread Cert.ReferenceIdeal.nD Cert.ReferenceIdeal.τ).loc Cert.ReferenceIdeal.main_v220) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S320000 : Shape := ⟨1, ![320000]⟩
abbrev S128x256 : Shape := ⟨2, ![128, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S512x100 : Shape := ⟨2, ![512, 100]⟩
abbrev S100 : Shape := ⟨1, ![100]⟩
abbrev S512x256 : Shape := ⟨2, ![512, 256]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000 : S_.BroadcastsInDim S320000 (![] : Fin 0 → Fin S320000.rank)
  reducesTo_S320000_S_d0 : S320000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x100 : S_.BroadcastsInDim S512x100 (![] : Fin 0 → Fin S512x100.rank)
  reducesTo_S512x100_S_d0_1 : S512x100.ReducesTo [0, 1] S_
  bcast_S_S100 : S_.BroadcastsInDim S100 (![] : Fin 0 → Fin S100.rank)
  reducesTo_S100_S_d0 : S100.ReducesTo [0] S_
  bcast_S_S512x256 : S_.BroadcastsInDim S512x256 (![] : Fin 0 → Fin S512x256.rank)
  reducesTo_S512x256_S_d0_1 : S512x256.ReducesTo [0, 1] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_

variable [Facts]

def fn_part6 {F : FTy → Type} [FloatOps F] (main_arg1 : IVec S2x320000 32) (main_v98 : IVec S_ 1) (main_v100 : IVec S2x320000 1) (main_v101 : IVec S2x320000 32) : IVec S_ 1 :=
  let main_v102 : IVec S2x320000 1 := cmpi .slt main_arg1 main_v101
  let main_v103 : IVec S2x320000 1 := andi main_v100 main_v102
  let main_c_40 : IVec S_ 1 := constantI S_ 1 1#1
  let main_v104 : IVec S_ 1 := (fun x v => Host.reduce IntOp.andi x v reducesTo_S2x320000_S_d0_1 h_S_) main_v103 main_c_40
  let main_v105 : IVec S_ 1 := andi main_v98 main_v104
  main_v105

def fn_part5 {F : FTy → Type} [FloatOps F] (main_arg1 : IVec S2x320000 32) (main_arg19 : FVec F S512x1 .f32) (main_arg20 : FVec F S1 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512x1 .f32 := Host.absf main_arg19
  let main_cst_34 : FVec F S_ .f32 := constant S_ .f32 0x7F800000#32
  let main_v90 : FVec F S512x1 .f32 := broadcastInDim S512x1 ![] bcast_S_S512x1 main_cst_34
  let main_v91 : IVec S512x1 1 := cmpf .olt main_v89 main_v90
  let main_c_35 : IVec S_ 1 := constantI S_ 1 1#1
  let main_v92 : IVec S_ 1 := (fun x v => Host.reduce IntOp.andi x v reducesTo_S512x1_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_c_38 : IVec S_ 32 := constantI S_ 32 0#32
  let main_v99 : IVec S2x320000 32 := broadcastInDim S2x320000 ![] bcast_S_S2x320000 main_c_38
  let main_v100 : IVec S2x320000 1 := cmpi .sge main_arg1 main_v99
  let main_c_39 : IVec S_ 32 := constantI S_ 32 10000#32
  let main_v101 : IVec S2x320000 32 := broadcastInDim S2x320000 ![] bcast_S_S2x320000 main_c_39
  fn_part6 (F := F) main_arg1 main_v98 main_v100 main_v101

def fn_part4 {F : FTy → Type} [FloatOps F] (main_arg1 : IVec S2x320000 32) (main_arg15 : FVec F S256x512 .f32) (main_arg16 : FVec F S512 .f32) (main_arg17 : FVec F S512x512 .f32) (main_arg18 : FVec F S512 .f32) (main_arg19 : FVec F S512x1 .f32) (main_arg20 : FVec F S1 .f32) (main_v63 : IVec S_ 1) (main_v67 : IVec S_ 1) : IVec S_ 1 :=
  let main_v68 : IVec S_ 1 := andi main_v63 main_v67
  let main_v69 : FVec F S256x512 .f32 := Host.absf main_arg15
  let main_cst_26 : FVec F S_ .f32 := constant S_ .f32 0x7F800000#32
  let main_v70 : FVec F S256x512 .f32 := broadcastInDim S256x512 ![] bcast_S_S256x512 main_cst_26
  let main_v71 : IVec S256x512 1 := cmpf .olt main_v69 main_v70
  let main_c_27 : IVec S_ 1 := constantI S_ 1 1#1
  let main_v72 : IVec S_ 1 := (fun x v => Host.reduce IntOp.andi x v reducesTo_S256x512_S_d0_1 h_S_) main_v71 main_c_27
  let main_v73 : IVec S_ 1 := andi main_v68 main_v72
  let main_v74 : FVec F S512 .f32 := Host.absf main_arg16
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x512 .f32 := Host.absf main_arg17
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg18
  let main_cst_32 : FVec F S_ .f32 := constant S_ .f32 0x7F800000#32
  fn_part5 (F := F) main_arg1 main_arg19 main_arg20 main_v83 main_v84 main_cst_32

def fn_part3 {F : FTy → Type} [FloatOps F] (main_arg1 : IVec S2x320000 32) (main_arg12 : FVec F S512 .f32) (main_arg13 : FVec F S512x256 .f32) (main_arg14 : FVec F S256 .f32) (main_arg15 : FVec F S256x512 .f32) (main_arg16 : FVec F S512 .f32) (main_arg17 : FVec F S512x512 .f32) (main_arg18 : FVec F S512 .f32) (main_arg19 : FVec F S512x1 .f32) (main_arg20 : FVec F S1 .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x256 .f32 := Host.absf main_arg13
  let main_cst_22 : FVec F S_ .f32 := constant S_ .f32 0x7F800000#32
  let main_v60 : FVec F S512x256 .f32 := broadcastInDim S512x256 ![] bcast_S_S512x256 main_cst_22
  let main_v61 : IVec S512x256 1 := cmpf .olt main_v59 main_v60
  let main_c_23 : IVec S_ 1 := constantI S_ 1 1#1
  let main_v62 : IVec S_ 1 := (fun x v => Host.reduce IntOp.andi x v reducesTo_S512x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_arg15 main_arg16 main_arg17 main_arg18 main_arg19 main_arg20 main_v63 main_v67

def fn_part2 {F : FTy → Type} [FloatOps F] (main_arg1 : IVec S2x320000 32) (main_arg8 : FVec F S512 .f32) (main_arg9 : FVec F S512x100 .f32) (main_arg10 : FVec F S100 .f32) (main_arg11 : FVec F S256x512 .f32) (main_arg12 : FVec F S512 .f32) (main_arg13 : FVec F S512x256 .f32) (main_arg14 : FVec F S256 .f32) (main_arg15 : FVec F S256x512 .f32) (main_arg16 : FVec F S512 .f32) (main_arg17 : FVec F S512x512 .f32) (main_arg18 : FVec F S512 .f32) (main_arg19 : FVec F S512x1 .f32) (main_arg20 : FVec F S1 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x100 .f32 := Host.absf main_arg9
  let main_cst_14 : FVec F S_ .f32 := constant S_ .f32 0x7F800000#32
  let main_v40 : FVec F S512x100 .f32 := broadcastInDim S512x100 ![] bcast_S_S512x100 main_cst_14
  let main_v41 : IVec S512x100 1 := cmpf .olt main_v39 main_v40
  let main_c_15 : IVec S_ 1 := constantI S_ 1 1#1
  let main_v42 : IVec S_ 1 := (fun x v => Host.reduce IntOp.andi x v reducesTo_S512x100_S_d0_1 h_S_) main_v41 main_c_15
  let main_v43 : IVec S_ 1 := andi main_v38 main_v42
  let main_v44 : FVec F S100 .f32 := Host.absf main_arg10
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S256x512 .f32 := Host.absf main_arg11
  let main_cst_18 : FVec F S_ .f32 := constant S_ .f32 0x7F800000#32
  let main_v50 : FVec F S256x512 .f32 := broadcastInDim S256x512 ![] bcast_S_S256x512 main_cst_18
  fn_part3 (F := F) main_arg1 main_arg12 main_arg13 main_arg14 main_arg15 main_arg16 main_arg17 main_arg18 main_arg19 main_arg20 main_v48 main_v49 main_v50

def fn_part1 {F : FTy → Type} [FloatOps F] (main_arg1 : IVec S2x320000 32) (main_arg5 : FVec F S256x256 .f32) (main_arg6 : FVec F S256 .f32) (main_arg7 : FVec F S256x512 .f32) (main_arg8 : FVec F S512 .f32) (main_arg9 : FVec F S512x100 .f32) (main_arg10 : FVec F S100 .f32) (main_arg11 : FVec F S256x512 .f32) (main_arg12 : FVec F S512 .f32) (main_arg13 : FVec F S512x256 .f32) (main_arg14 : FVec F S256 .f32) (main_arg15 : FVec F S256x512 .f32) (main_arg16 : FVec F S512 .f32) (main_arg17 : FVec F S512x512 .f32) (main_arg18 : FVec F S512 .f32) (main_arg19 : FVec F S512x1 .f32) (main_arg20 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x512 .f32 := Host.absf main_arg7
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_v33

def fn {F : FTy → Type} [FloatOps F] (main_arg0 : FVec F S10000x128 .f32) (main_arg1 : IVec S2x320000 32) (main_arg2 : FVec F S320000 .f32) (main_arg3 : FVec F S128x256 .f32) (main_arg4 : FVec F S256 .f32) (main_arg5 : FVec F S256x256 .f32) (main_arg6 : FVec F S256 .f32) (main_arg7 : FVec F S256x512 .f32) (main_arg8 : FVec F S512 .f32) (main_arg9 : FVec F S512x100 .f32) (main_arg10 : FVec F S100 .f32) (main_arg11 : FVec F S256x512 .f32) (main_arg12 : FVec F S512 .f32) (main_arg13 : FVec F S512x256 .f32) (main_arg14 : FVec F S256 .f32) (main_arg15 : FVec F S256x512 .f32) (main_arg16 : FVec F S512 .f32) (main_arg17 : FVec F S512x512 .f32) (main_arg18 : FVec F S512 .f32) (main_arg19 : FVec F S512x1 .f32) (main_arg20 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S10000x128 : Shape := ⟨2, ![10000, 128]⟩
abbrev S2x320000 : Shape := ⟨2, ![2, 320000]⟩
abbrev S320000 : Shape := ⟨1, ![320000]⟩
abbrev S128x256 : Shape := ⟨2, ![128, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S512x100 : Shape := ⟨2, ![512, 100]⟩
abbrev S100 : Shape := ⟨1, ![100]⟩
abbrev S512x256 : Shape := ⟨2, ![512, 256]⟩
abbrev S512x512 : Shape := ⟨2, ![512, 512]⟩
abbrev S512x1 : Shape := ⟨2, ![512, 1]⟩
abbrev S1 : Shape := ⟨1, ![1]⟩
abbrev S1x320000 : Shape := ⟨2, ![1, 320000]⟩
abbrev S_ : Shape := ⟨0, ![]⟩
abbrev S1x256 : Shape := ⟨2, ![1, 256]⟩
abbrev S10000x256 : Shape := ⟨2, ![10000, 256]⟩
abbrev S1000x128 : Shape := ⟨2, ![1000, 128]⟩
abbrev S1000x256 : Shape := ⟨2, ![1000, 256]⟩
abbrev S10000 : Shape := ⟨1, ![10000]⟩
abbrev S320000x1 : Shape := ⟨2, ![320000, 1]⟩
abbrev S320000x256 : Shape := ⟨2, ![320000, 256]⟩
abbrev S10000x1 : Shape := ⟨2, ![10000, 1]⟩
abbrev S1x512 : Shape := ⟨2, ![1, 512]⟩
abbrev S1x100 : Shape := ⟨2, ![1, 100]⟩
abbrev S10000x100 : Shape := ⟨2, ![10000, 100]⟩
abbrev S400x256 : Shape := ⟨2, ![400, 256]⟩
abbrev S400x100 : Shape := ⟨2, ![400, 100]⟩
abbrev S400x512 : Shape := ⟨2, ![400, 512]⟩
abbrev S320000x100 : Shape := ⟨2, ![320000, 100]⟩
abbrev S10000x456 : Shape := ⟨2, ![10000, 456]⟩
abbrev S100x456 : Shape := ⟨2, ![100, 456]⟩
abbrev S1000x100 : Shape := ⟨2, ![1000, 100]⟩
abbrev S1000x456 : Shape := ⟨2, ![1000, 456]⟩
abbrev S100x256 : Shape := ⟨2, ![100, 256]⟩
abbrev S100x100 : Shape := ⟨2, ![100, 100]⟩
abbrev S100x512 : Shape := ⟨2, ![100, 512]⟩
abbrev S100x1 : Shape := ⟨2, ![100, 1]⟩
abbrev S1x1 : Shape := ⟨2, ![1, 1]⟩

abbrev nBuf : Space → Nat
  | .hbm => 290
  | .vmem => 26
  | .smem => 0
  | _ => 0

abbrev hbmTy0_0 (i : Nat) : BufTy := match i % 128 with
  | 0 => ⟨S10000x128, .f32⟩
  | 1 => ⟨S2x320000, .i32⟩
  | 2 => ⟨S320000, .f32⟩
  | 3 => ⟨S128x256, .f32⟩
  | 4 => ⟨S256, .f32⟩
  | 5 => ⟨S256x256, .f32⟩
  | 6 => ⟨S256, .f32⟩
  | 7 => ⟨S256x512, .f32⟩
  | 8 => ⟨S512, .f32⟩
  | 9 => ⟨S512x100, .f32⟩
  | 10 => ⟨S100, .f32⟩
  | 11 => ⟨S256x512, .f32⟩
  | 12 => ⟨S512, .f32⟩
  | 13 => ⟨S512x256, .f32⟩
  | 14 => ⟨S256, .f32⟩
  | 15 => ⟨S256x512, .f32⟩
  | 16 => ⟨S512, .f32⟩
  | 17 => ⟨S512x512, .f32⟩
  | 18 => ⟨S512, .f32⟩
  | 19 => ⟨S512x1, .f32⟩
  | 20 => ⟨S1, .f32⟩
  | 21 => ⟨S1x320000, .i32⟩
  | 22 => ⟨S320000, .i32⟩
  | 23 => ⟨S1x320000, .i32⟩
  | 24 => ⟨S320000, .i32⟩
  | 25 => ⟨S_, .f32⟩
  | 26 => ⟨S1x256, .f32⟩
  | 27 => ⟨S10000x256, .f32⟩
  | 28 => ⟨S_, .f32⟩
  | 29 => ⟨S10000, .f32⟩
  | 30 => ⟨S320000x1, .i32⟩
  | 31 => ⟨S10000, .f32⟩
  | 32 => ⟨S_, .f32⟩
  | 33 => ⟨S10000, .f32⟩
  | 34 => ⟨S10000, .f32⟩
  | 35 => ⟨S10000, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000, .f32⟩
  | 45 => ⟨S320000, .f32⟩
  | 46 => ⟨S_, .i32⟩
  | 47 => ⟨S320000, .i32⟩
  | 48 => ⟨S320000, .i1⟩
  | 49 => ⟨S_, .i32⟩
  | 50 => ⟨S320000, .i32⟩
  | 51 => ⟨S320000, .i32⟩
  | 52 => ⟨S320000, .i32⟩
  | 53 => ⟨S320000x1, .i32⟩
  | 54 => ⟨S320000, .f32⟩
  | 55 => ⟨S320000, .f32⟩
  | 56 => ⟨S320000x1, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x256, .f32⟩
  | 66 => ⟨S320000x256, .f32⟩
  | 67 => ⟨S320000x256, .f32⟩
  | 68 => ⟨S_, .f32⟩
  | 69 => ⟨S10000x256, .f32⟩
  | 70 => ⟨S320000x1, .i32⟩
  | 71 => ⟨S10000x256, .f32⟩
  | 72 => ⟨S10000, .f32⟩
  | 73 => ⟨S10000x1, .f32⟩
  | 74 => ⟨S10000x256, .f32⟩
  | 75 => ⟨S10000x256, .f32⟩
  | 76 => ⟨S10000x256, .f32⟩
  | 77 => ⟨S1x256, .f32⟩
  | 78 => ⟨S10000x256, .f32⟩
  | 79 => ⟨S10000x256, .f32⟩
  | 80 => ⟨S_, .f32⟩
  | 81 => ⟨S10000x256, .f32⟩
  | 82 => ⟨S10000x256, .f32⟩
  | 83 => ⟨S_, .f32⟩
  | 84 => ⟨S1x256, .f32⟩
  | 85 => ⟨S10000x256, .f32⟩
  | 86 => ⟨S_, .f32⟩
  | 87 => ⟨S10000, .f32⟩
  | 88 => ⟨S320000x1, .i32⟩
  | 89 => ⟨S10000, .f32⟩
  | 90 => ⟨S_, .f32⟩
  | 91 => ⟨S10000, .f32⟩
  | 92 => ⟨S10000, .f32⟩
  | 93 => ⟨S10000, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S320000, .f32⟩
  | 103 => ⟨S320000, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S320000, .f32⟩
  | 113 => ⟨S320000, .f32⟩
  | 114 => ⟨S320000x1, .f32⟩
  | 115 => ⟨S_, .i32⟩
  | 116 => ⟨S320000, .i32⟩
  | 117 => ⟨S320000, .i1⟩
  | 118 => ⟨S_, .i32⟩
  | 119 => ⟨S320000, .i32⟩
  | 120 => ⟨S320000, .i32⟩
  | 121 => ⟨S320000, .i32⟩
  | 122 => ⟨S320000x1, .i32⟩
  | 123 => ⟨S320000x256, .f32⟩
  | 124 => ⟨S320000x256, .f32⟩
  | 125 => ⟨S320000x256, .f32⟩
  | 126 => ⟨S_, .f32⟩
  | 127 => ⟨S10000x256, .f32⟩
  | _ => ⟨S10000x128, .f32⟩

abbrev hbmTy0_1 (i : Nat) : BufTy := match i % 128 with
  | 0 => ⟨S320000x1, .i32⟩
  | 1 => ⟨S10000x256, .f32⟩
  | 2 => ⟨S10000, .f32⟩
  | 3 => ⟨S10000x1, .f32⟩
  | 4 => ⟨S10000x256, .f32⟩
  | 5 => ⟨S10000x256, .f32⟩
  | 6 => ⟨S10000x256, .f32⟩
  | 7 => ⟨S1x256, .f32⟩
  | 8 => ⟨S10000x256, .f32⟩
  | 9 => ⟨S10000x256, .f32⟩
  | 10 => ⟨S1x512, .f32⟩
  | 11 => ⟨S1x100, .f32⟩
  | 12 => ⟨S10000x100, .f32⟩
  | 13 => ⟨S_, .f32⟩
  | 14 => ⟨S100, .f32⟩
  | 15 => ⟨S_, .f32⟩
  | 16 => ⟨S100, .f32⟩
  | 17 => ⟨S100, .f32⟩
  | 18 => ⟨S1x100, .f32⟩
  | 19 => ⟨S10000x100, .f32⟩
  | 20 => ⟨S10000x100, .f32⟩
  | 21 => ⟨S10000x100, .f32⟩
  | 22 => ⟨S_, .f32⟩
  | 23 => ⟨S100, .f32⟩
  | 24 => ⟨S1x100, .f32⟩
  | 25 => ⟨S10000x100, .f32⟩
  | 26 => ⟨S10000x100, .f32⟩
  | 27 => ⟨S_, .f32⟩
  | 28 => ⟨S10000, .f32⟩
  | 29 => ⟨S10000x1, .f32⟩
  | 30 => ⟨S10000x100, .f32⟩
  | 31 => ⟨S10000x100, .i1⟩
  | 32 => ⟨S10000x100, .f32⟩
  | 33 => ⟨S320000x1, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000x100, .f32⟩
  | 43 => ⟨S320000x100, .f32⟩
  | 44 => ⟨S320000x100, .f32⟩
  | 45 => ⟨S_, .f32⟩
  | 46 => ⟨S10000x100, .f32⟩
  | 47 => ⟨S320000x1, .i32⟩
  | 48 => ⟨S10000x100, .f32⟩
  | 49 => ⟨S10000x456, .f32⟩
  | 50 => ⟨S100x456, .f32⟩
  | 51 => ⟨S100x256, .f32⟩
  | 52 => ⟨S100x100, .f32⟩
  | 53 => ⟨S100x100, .f32⟩
  | 54 => ⟨S_, .f32⟩
  | 55 => ⟨S100x100, .f32⟩
  | 56 => ⟨S100x100, .f32⟩
  | 57 => ⟨S100x100, .f32⟩
  | 58 => ⟨S100x100, .i32⟩
  | 59 => ⟨S100x100, .i32⟩
  | 60 => ⟨S_, .i32⟩
  | 61 => ⟨S100x100, .i32⟩
  | 62 => ⟨S100x100, .i32⟩
  | 63 => ⟨S100x100, .i1⟩
  | 64 => ⟨S_, .f32⟩
  | 65 => ⟨S100x100, .f32⟩
  | 66 => ⟨S100x100, .f32⟩
  | 67 => ⟨S_, .f32⟩
  | 68 => ⟨S_, .f32⟩
  | 69 => ⟨S_, .f32⟩
  | 70 => ⟨S_, .f32⟩
  | 71 => ⟨S_, .f32⟩
  | 72 => ⟨S100x100, .i32⟩
  | 73 => ⟨S100x100, .i32⟩
  | 74 => ⟨S_, .i32⟩
  | 75 => ⟨S100x100, .i32⟩
  | 76 => ⟨S100x100, .i32⟩
  | 77 => ⟨S100x100, .i1⟩
  | 78 => ⟨S100x100, .f32⟩
  | 79 => ⟨S_, .f32⟩
  | 80 => ⟨S100x100, .f32⟩
  | 81 => ⟨S100x100, .f32⟩
  | 82 => ⟨S100x100, .f32⟩
  | 83 => ⟨S10000x100, .f32⟩
  | 84 => ⟨S_, .f32⟩
  | 85 => ⟨S10000x100, .f32⟩
  | 86 => ⟨S10000x100, .f32⟩
  | 87 => ⟨S10000x100, .f32⟩
  | 88 => ⟨S10000x100, .f32⟩
  | 89 => ⟨S_, .f32⟩
  | 90 => ⟨S10000, .f32⟩
  | 91 => ⟨S_, .f32⟩
  | 92 => ⟨S_, .f32⟩
  | 93 => ⟨S_, .f32⟩
  | 94 => ⟨S_, .f32⟩
  | 95 => ⟨S100x100, .i32⟩
  | 96 => ⟨S100x100, .i32⟩
  | 97 => ⟨S_, .i32⟩
  | 98 => ⟨S100x100, .i32⟩
  | 99 => ⟨S100x100, .i32⟩
  | 100 => ⟨S100x100, .i1⟩
  | 101 => ⟨S100x100, .f32⟩
  | 102 => ⟨S100x100, .f32⟩
  | 103 => ⟨S_, .f32⟩
  | 104 => ⟨S100, .f32⟩
  | 105 => ⟨S100, .f32⟩
  | 106 => ⟨S100x512, .f32⟩
  | 107 => ⟨S100x1, .f32⟩
  | 108 => ⟨S100x100, .f32⟩
  | 109 => ⟨S100x1, .f32⟩
  | 110 => ⟨S100x512, .f32⟩
  | 111 => ⟨S100x512, .f32⟩
  | 112 => ⟨S100x512, .f32⟩
  | 113 => ⟨S100x512, .f32⟩
  | 114 => ⟨S100x512, .f32⟩
  | 115 => ⟨S1x512, .f32⟩
  | 116 => ⟨S100x512, .f32⟩
  | 117 => ⟨S100x512, .f32⟩
  | 118 => ⟨S_, .f32⟩
  | 119 => ⟨S100x512, .f32⟩
  | 120 => ⟨S100x512, .f32⟩
  | 121 => ⟨S100x100, .i32⟩
  | 122 => ⟨S100x100, .i32⟩
  | 123 => ⟨S_, .i32⟩
  | 124 => ⟨S100x100, .i32⟩
  | 125 => ⟨S100x100, .i32⟩
  | 126 => ⟨S100x100, .i1⟩
  | 127 => ⟨S100x100, .f32⟩
  | _ => ⟨S10000x128, .f32⟩

abbrev hbmTy0_2 (i : Nat) : BufTy := match i % 128 with
  | 0 => ⟨S100x100, .f32⟩
  | 1 => ⟨S_, .f32⟩
  | 2 => ⟨S100, .f32⟩
  | 3 => ⟨S100, .f32⟩
  | 4 => ⟨S100x256, .f32⟩
  | 5 => ⟨S100x1, .f32⟩
  | 6 => ⟨S100x100, .f32⟩
  | 7 => ⟨S100x1, .f32⟩
  | 8 => ⟨S100x256, .f32⟩
  | 9 => ⟨S100x256, .f32⟩
  | 10 => ⟨S100x256, .f32⟩
  | 11 => ⟨S100x256, .f32⟩
  | 12 => ⟨S100x256, .f32⟩
  | 13 => ⟨S1x256, .f32⟩
  | 14 => ⟨S100x256, .f32⟩
  | 15 => ⟨S100x256, .f32⟩
  | 16 => ⟨S100x512, .f32⟩
  | 17 => ⟨S1x512, .f32⟩
  | 18 => ⟨S100x512, .f32⟩
  | 19 => ⟨S100x512, .f32⟩
  | 20 => ⟨S_, .f32⟩
  | 21 => ⟨S100x512, .f32⟩
  | 22 => ⟨S100x512, .f32⟩
  | 23 => ⟨S100x512, .f32⟩
  | 24 => ⟨S1x512, .f32⟩
  | 25 => ⟨S100x512, .f32⟩
  | 26 => ⟨S100x512, .f32⟩
  | 27 => ⟨S_, .f32⟩
  | 28 => ⟨S100x512, .f32⟩
  | 29 => ⟨S100x512, .f32⟩
  | 30 => ⟨S100x1, .f32⟩
  | 31 => ⟨S1x1, .f32⟩
  | 32 => ⟨S100x1, .f32⟩
  | 33 => ⟨S100x1, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S256x256, .f32⟩
  | .local _ .vmem, ⟨9, _⟩ => ⟨S1x256, .f32⟩
  | .local _ .vmem, ⟨10, _⟩ => ⟨S1000x256, .f32⟩
  | .local _ .vmem, ⟨11, _⟩ => ⟨S1000x256, .f32⟩
  | .local _ .vmem, ⟨12, _⟩ => ⟨S400x256, .f32⟩
  | .local _ .vmem, ⟨13, _⟩ => ⟨S400x256, .f32⟩
  | .local _ .vmem, ⟨14, _⟩ => ⟨S256x512, .f32⟩
  | .local _ .vmem, ⟨15, _⟩ => ⟨S1x512, .f32⟩
  | .local _ .vmem, ⟨16, _⟩ => ⟨S512x100, .f32⟩
  | .local _ .vmem, ⟨17, _⟩ => ⟨S1x100, .f32⟩
  | .local _ .vmem, ⟨18, _⟩ => ⟨S400x100, .f32⟩
  | .local _ .vmem, ⟨19, _⟩ => ⟨S400x100, .f32⟩
  | .local _ .vmem, ⟨20, _⟩ => ⟨S1000x100, .f32⟩
  | .local _ .vmem, ⟨21, _⟩ => ⟨S1000x100, .f32⟩
  | .local _ .vmem, ⟨22, _⟩ => ⟨S1000x456, .f32⟩
  | .local _ .vmem, ⟨23, _⟩ => ⟨S1000x456, .f32⟩
  | .local _ .vmem, ⟨24, _⟩ => ⟨S100x456, .f32⟩
  | .local _ .vmem, ⟨25, _⟩ => ⟨S100x456, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_cst_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_3 : Ref sig .tc := ⟨.hbm, 46, rfl⟩
abbrev main_v20 : Ref sig .tc := ⟨.hbm, 47, rfl⟩
abbrev main_v21 : Ref sig .tc := ⟨.hbm, 48, rfl⟩
abbrev main_c_4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_5 : Ref sig .tc := ⟨.hbm, 57, rfl⟩
abbrev main_v29 : Ref sig .tc := ⟨.hbm, 58, rfl⟩
abbrev main_v30 : Ref sig .tc := ⟨.hbm, 59, rfl⟩
abbrev main_c_6 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call0_cst : Ref sig .tc := ⟨.hbm, 80, rfl⟩
abbrev main_call0_v0 : Ref sig .tc := ⟨.hbm, 81, rfl⟩
abbrev main_v49 : Ref sig .tc := ⟨.hbm, 82, rfl⟩
abbrev main_cst_8 : Ref sig .tc := ⟨.hbm, 83, rfl⟩
abbrev main_v50 : Ref sig .tc := ⟨.hbm, 84, rfl⟩
abbrev main_v51 : Ref sig .tc := ⟨.hbm, 85, rfl⟩
abbrev main_cst_9 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_10 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_11 : Ref sig .tc := ⟨.hbm, 94, rfl⟩
abbrev main_v58 : Ref sig .tc := ⟨.hbm, 95, rfl⟩
abbrev main_v59 : Ref sig .tc := ⟨.hbm, 96, rfl⟩
abbrev main_c_12 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_13 : Ref sig .tc := ⟨.hbm, 104, rfl⟩
abbrev main_v66 : Ref sig .tc := ⟨.hbm, 105, rfl⟩
abbrev main_v67 : Ref sig .tc := ⟨.hbm, 106, rfl⟩
abbrev main_c_14 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_15 : Ref sig .tc := ⟨.hbm, 115, rfl⟩
abbrev main_v75 : Ref sig .tc := ⟨.hbm, 116, rfl⟩
abbrev main_v76 : Ref sig .tc := ⟨.hbm, 117, rfl⟩
abbrev main_c_16 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_18 : Ref sig .tc := ⟨.hbm, 141, rfl⟩
abbrev main_v98 : Ref sig .tc := ⟨.hbm, 142, rfl⟩
abbrev main_cst_19 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_20 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_21 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_c_22 : Ref sig .tc := ⟨.hbm, 162, rfl⟩
abbrev main_v115 : Ref sig .tc := ⟨.hbm, 163, rfl⟩
abbrev main_v116 : Ref sig .tc := ⟨.hbm, 164, rfl⟩
abbrev main_c_23 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_24 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_25 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_call1_v0 : Ref sig .tc := ⟨.hbm, 186, rfl⟩
abbrev main_call1_v1 : Ref sig .tc := ⟨.hbm, 187, rfl⟩
abbrev main_call1_c : Ref sig .tc := ⟨.hbm, 188, rfl⟩
abbrev main_call1_v2 : Ref sig .tc := ⟨.hbm, 189, rfl⟩
abbrev main_call1_v3 : Ref sig .tc := ⟨.hbm, 190, rfl⟩
abbrev main_call1_v4 : Ref sig .tc := ⟨.hbm, 191, rfl⟩
abbrev main_call1_cst : Ref sig .tc := ⟨.hbm, 192, rfl⟩
abbrev main_call1_v5 : Ref sig .tc := ⟨.hbm, 193, rfl⟩
abbrev main_call1_v6 : Ref sig .tc := ⟨.hbm, 194, rfl⟩
abbrev main_call1_cst_0 : Ref sig .tc := ⟨.hbm, 195, rfl⟩
abbrev main_v135 : Ref sig .tc := ⟨.hbm, 196, rfl⟩
abbrev main_v136 : Ref sig .tc := ⟨.hbm, 197, rfl⟩
abbrev main_cst_26 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_c_27 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_cst_28 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_cst_29 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_cst_30 : Ref sig .tc := ⟨.hbm, 217, rfl⟩
abbrev main_v152 : Ref sig .tc := ⟨.hbm, 218, rfl⟩
abbrev main_cst_31 : Ref sig .tc := ⟨.hbm, 219, rfl⟩
abbrev main_v153 : Ref sig .tc := ⟨.hbm, 220, rfl⟩
abbrev main_cst_32 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_c_33 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_cst_34 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_call2_cst : Ref sig .tc := ⟨.hbm, 246, rfl⟩
abbrev main_call2_v0 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_c_35 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_cst_36 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_call3_cst : Ref sig .tc := ⟨.hbm, 276, rfl⟩
abbrev main_call3_v0 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_call4_cst : Ref sig .tc := ⟨.hbm, 283, rfl⟩
abbrev main_call4_v0 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x100 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v15 : BitVec 1 := Scalar.cmpi .eq arg0 c9_i32
  let v16 : BitVec 32 := Scalar.extui v15
  let c0_i32_8 : BitVec 32 := 0#32
  let v17 : BitVec 1 := Scalar.cmpi .ne v16 c0_i32_8
  v17

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x456 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S100x456 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S1x256 : S_.BroadcastsInDim S1x256 (![] : Fin 0 → Fin S1x256.rank)
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1000x256_S1000x256_0_0 : ∀ a, (![0, 0] : Fin 2 → Nat) a + S1000x256.size a ≤ S1000x256.size a
  h_S1000x256 : 0 < S1000x256.numel
  bcast_S_S10000 : S_.BroadcastsInDim S10000 (![] : Fin 0 → Fin S10000.rank)
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S512_S1x512 : S512.ShapeCasts S1x512
  shapeCasts_S100_S1x100 : S100.ShapeCasts S1x100
  inb_S400x256_S400x256_0_0 : ∀ a, (![0, 0] : Fin 2 → Nat) a + S400x256.size a ≤ S400x256.size a
  h_S400x256 : 0 < S400x256.numel
  shapeCasts_S400x256_S400x256 : S400x256.ShapeCasts S400x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S512x100_S512x100_0_0 : ∀ a, (![0, 0] : Fin 2 → Nat) a + S512x100.size a ≤ S512x100.size a
  h_S512x100 : 0 < S512x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S400x100 : S1x100.Broadcasts S400x100
  inb_S400x100_S400x100_0_0 : ∀ a, (![0, 0] : Fin 2 → Nat) a + S400x100.size a ≤ S400x100.size a
  h_S400x100 : 0 < S400x100.numel
  reducesTo_S10000x100_S100_d0 : S10000x100.ReducesTo [0] S100
  h_S_ : 0 < S_.numel
  bcast_S_S100 : S_.BroadcastsInDim S100 (![] : Fin 0 → Fin S100.rank)
  bcast_S100_S1x100_1 : S100.BroadcastsInDim S1x100 (![1] : Fin 1 → Fin S1x100.rank)
  bcast_S1x100_S10000x100_0_1 : S1x100.BroadcastsInDim S10000x100 (![0, 1] : Fin 2 → Fin S10000x100.rank)
  reducesTo_S10000x100_S10000_d1 : S10000x100.ReducesTo [1] S10000
  bcast_S10000x1_S10000x100_0_1 : S10000x1.BroadcastsInDim S10000x100 (![0, 1] : Fin 2 → Fin S10000x100.rank)
  bcast_S320000x1_S320000x100_0_1 : S320000x1.BroadcastsInDim S320000x100 (![0, 1] : Fin 2 → Fin S320000x100.rank)
  bcast_S_S10000x100 : S_.BroadcastsInDim S10000x100 (![] : Fin 0 → Fin S10000x100.rank)
  concatenates_S10000x256_S10000x100_S10000x100_S10000x456_d1 : Shape.Concatenates [S10000x256, S10000x100, S10000x100] S10000x456 1
  inb_S100x456_S100x456_0_0 : ∀ a, (![0, 0] : Fin 2 → Nat) a + S100x456.size a ≤ S100x456.size a
  h_S100x456 : 0 < S100x456.numel
  shapeCasts_S100x456_S100x456 : S100x456.ShapeCasts S100x456
  inb_S1000x100_S1000x100_0_0 : ∀ a, (![0, 0] : Fin 2 → Nat) a + S1000x100.size a ≤ S1000x100.size a
  h_S1000x100 : 0 < S1000x100.numel
  shapeCasts_S1000x100_S1000x100 : S1000x100.ShapeCasts S1000x100
  inb_S1000x456_S1000x456_0_0 : ∀ a, (![0, 0] : Fin 2 → Nat) a + S1000x456.size a ≤ S1000x456.size a
  h_S1000x456 : 0 < S1000x456.numel
  shapeCasts_S1000x456_S1000x456 : S1000x456.ShapeCasts S1000x456
  slices_S100x456_S100x256_0_0 : S100x456.Slices ![0, 0] S100x256
  slices_S100x456_S100x100_0_256 : S100x456.Slices ![0, 256] S100x100
  slices_S100x456_S100x100_0_356 : S100x456.Slices ![0, 356] S100x100
  bcast_S_S100x100 : S_.BroadcastsInDim S100x100 (![] : Fin 0 → Fin S100x100.rank)
  reducesTo_S100x100_S_d0_1 : S100x100.ReducesTo [0, 1] S_
  reducesTo_S10000_S_d0 : S10000.ReducesTo [0] S_
  reducesTo_S100x100_S100_d0 : S100x100.ReducesTo [0] S100
  bcast_S100_S100x1_0 : S100.BroadcastsInDim S100x1 (![0] : Fin 1 → Fin S100x1.rank)
  transposes_S100x100_S100x100_1_0 : S100x100.Transposes [1, 0] S100x100
  bcast_S100x1_S100x512_0_1 : S100x1.BroadcastsInDim S100x512 (![0, 1] : Fin 2 → Fin S100x512.rank)
  bcast_S512_S1x512_1 : S512.BroadcastsInDim S1x512 (![1] : Fin 1 → Fin S1x512.rank)
  bcast_S1x512_S100x512_0_1 : S1x512.BroadcastsInDim S100x512 (![0, 1] : Fin 2 → Fin S100x512.rank)
  bcast_S_S100x512 : S_.BroadcastsInDim S100x512 (![] : Fin 0 → Fin S100x512.rank)
  bcast_S100x1_S100x256_0_1 : S100x1.BroadcastsInDim S100x256 (![0, 1] : Fin 2 → Fin S100x256.rank)
  bcast_S1x256_S100x256_0_1 : S1x256.BroadcastsInDim S100x256 (![0, 1] : Fin 2 → Fin S100x256.rank)
  bcast_S1_S1x1_1 : S1.BroadcastsInDim S1x1 (![1] : Fin 1 → Fin S1x1.rank)
  bcast_S1x1_S100x1_0_1 : S1x1.BroadcastsInDim S100x1 (![0, 1] : Fin 2 → Fin S100x1.rank)
  dot_S1000x128_S128x256_S1000x256_1_0_0_1_n_n_wf : DotDims.WF S1000x128 S128x256 S1000x256 [1] [0] [0] [1] [] []
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S1000x256_S256x256_S1000x256_1_0_0_1_n_n_wf : DotDims.WF S1000x256 S256x256 S1000x256 [1] [0] [0] [1] [] []
  dot_S400x256_S256x512_S400x512_1_0_0_1_n_n_wf : DotDims.WF S400x256 S256x512 S400x512 [1] [0] [0] [1] [] []
  dot_S400x512_S512x100_S400x100_1_0_0_1_n_n_wf : DotDims.WF S400x512 S512x100 S400x100 [1] [0] [0] [1] [] []
  gather_S10000x100_S320000x1_S320000x100_1_0_n_n_0_1_1100_wf : GatherDims.WF S10000x100 S320000x1 S320000x100 [1] [0] [] [0] [] 1 ![1, 100]
  scatter_S10000x100_S320000x1_S320000x100_1_0_0_1_wf : ScatterDims.WF S10000x100 S320000x1 S320000x100 [1] [0] [0] 1
  dot_S1000x100_S1000x456_S100x456_0_0_1_1_n_n_wf : DotDims.WF S1000x100 S1000x456 S100x456 [0] [0] [1] [1] [] []
  dot_S100x256_S256x512_S100x512_1_0_0_1_n_n_wf : DotDims.WF S100x256 S256x512 S100x512 [1] [0] [0] [1] [] []
  dot_S100x100_S100x512_S100x512_1_0_0_1_n_n_wf : DotDims.WF S100x100 S100x512 S100x512 [1] [0] [0] [1] [] []
  dot_S100x512_S512x256_S100x256_1_0_0_1_n_n_wf : DotDims.WF S100x512 S512x256 S100x256 [1] [0] [0] [1] [] []
  dot_S100x100_S100x256_S100x256_1_0_0_1_n_n_wf : DotDims.WF S100x100 S100x256 S100x256 [1] [0] [0] [1] [] []
  dot_S100x512_S512x512_S100x512_1_0_0_1_n_n_wf : DotDims.WF S100x512 S512x512 S100x512 [1] [0] [0] [1] [] []
  dot_S100x512_S512x1_S100x1_1_0_0_1_n_n_wf : DotDims.WF S100x512 S512x1 S100x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S10000x256.size a
  hwx1_3 : ∀ i : grid1.Coords, EltTy.bits .f32 = 32 ∨ (Rect.block (s := S10000x256) S1000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x256.size a ≤ S10000x256.size a
  hwx2_0 : ∀ i : grid2.Coords, EltTy.bits .f32 = 32 ∨ (Rect.block (s := S10000x256) S400x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x512.size a ≤ S256x512.size a
  hwx2_1 : ∀ i : grid2.Coords, EltTy.bits .f32 = 32 ∨ (Rect.block (s := S256x512) S256x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x100.size a ≤ S512x100.size a
  hwx2_3 : ∀ i : grid2.Coords, EltTy.bits .f32 = 32 ∨ (Rect.block (s := S512x100) S512x100.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x100.size a ≤ S1x100.size a
  hwx2_4 : ∀ i : grid2.Coords, EltTy.bits .f32 = 32 ∨ (Rect.block (s := S1x100) S1x100.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x100.size a ≤ S10000x100.size a
  hwx2_5 : ∀ i : grid2.Coords, EltTy.bits .f32 = 32 ∨ (Rect.block (s := S10000x100) S400x100.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x100.size a ≤ S10000x100.size a
  hwx3_0 : ∀ i : grid3.Coords, EltTy.bits .f32 = 32 ∨ (Rect.block (s := S10000x100) S1000x100.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x456.size a ≤ S10000x456.size a
  hwx3_1 : ∀ i : grid3.Coords, EltTy.bits .f32 = 32 ∨ (Rect.block (s := S10000x456) S1000x456.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S100x456.size a ≤ S100x456.size a
  hwx3_2 : ∀ i : grid3.Coords, EltTy.bits .f32 = 32 ∨ (Rect.block (s := S100x456) S100x456.size (cc3_transform_2 i) (hinb3_2 i)).WholeWords (EltTy.packing .f32)

variable [Facts₀]

def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S400x256_S256x512_S400x512_1_0_0_1_n_n : DotDims S400x256 S256x512 S400x512 where
  lhsContracting := [1]
  rhsContracting := [0]
  lhsNonContracting := [0]
  rhsNonContracting := [1]
  lhsBatch := []
  rhsBatch := []
  wf := dot_S400x256_S256x512_S400x512_1_0_0_1_n_n_wf
def dot_S400x512_S512x100_S400x100_1_0_0_1_n_n : DotDims S400x512 S512x100 S400x100 where
  lhsContracting := [1]
  rhsContracting := [0]
  lhsNonContracting := [0]
  rhsNonContracting := [1]
  lhsBatch := []
  rhsBatch := []
  wf := dot_S400x512_S512x100_S400x100_1_0_0_1_n_n_wf
def gather_S10000x100_S320000x1_S320000x100_1_0_n_n_0_1_1100 : GatherDims S10000x100 S320000x1 S320000x100 where
  offsetDims := [1]
  collapsedSliceDims := [0]
  operandBatchingDims := []
  startIndicesBatchingDims := []
  startIndexMap := [0]
  indexVectorDim := 1
  sliceSizes := ![1, 100]
  wf := gather_S10000x100_S320000x1_S320000x100_1_0_n_n_0_1_1100_wf
def scatter_S10000x100_S320000x1_S320000x100_1_0_0_1 : ScatterDims S10000x100 S320000x1 S320000x100 where
  updateWindowDims := [1]
  insertedWindowDims := [0]
  scatterDimsToOperandDims := [0]
  indexVectorDim := 1
  wf := scatter_S10000x100_S320000x1_S320000x100_1_0_0_1_wf
def dot_S1000x100_S1000x456_S100x456_0_0_1_1_n_n : DotDims S1000x100 S1000x456 S100x456 where
  lhsContracting := [0]
  rhsContracting := [0]
  lhsNonContracting := [1]
  rhsNonContracting := [1]
  lhsBatch := []
  rhsBatch := []
  wf := dot_S1000x100_S1000x456_S100x456_0_0_1_1_n_n_wf
def dot_S100x256_S256x512_S100x512_1_0_0_1_n_n : DotDims S100x256 S256x512 S100x512 where
  lhsContracting := [1]
  rhsContracting := [0]
  lhsNonContracting := [0]
  rhsNonContracting := [1]
  lhsBatch := []
  rhsBatch := []
  wf := dot_S100x256_S256x512_S100x512_1_0_0_1_n_n_wf
def dot_S100x100_S100x512_S100x512_1_0_0_1_n_n : DotDims S100x100 S100x512 S100x512 where
  lhsContracting := [1]
  rhsContracting := [0]
  lhsNonContracting := [0]
  rhsNonContracting := [1]
  lhsBatch := []
  rhsBatch := []
  wf := dot_S100x100_S100x512_S100x512_1_0_0_1_n_n_wf
def dot_S100x512_S512x256_S100x256_1_0_0_1_n_n : DotDims S100x512 S512x256 S100x256 where
  lhsContracting := [1]
  rhsContracting := [0]
  lhsNonContracting := [0]
  rhsNonContracting := [1]
  lhsBatch := []
  rhsBatch := []
  wf := dot_S100x512_S512x256_S100x256_1_0_0_1_n_n_wf
def dot_S100x100_S100x256_S100x256_1_0_0_1_n_n : DotDims S100x100 S100x256 S100x256 where
  lhsContracting := [1]
  rhsContracting := [0]
  lhsNonContracting := [0]
  rhsNonContracting := [1]
  lhsBatch := []
  rhsBatch := []
  wf := dot_S100x100_S100x256_S100x256_1_0_0_1_n_n_wf
def dot_S100x512_S512x512_S100x512_1_0_0_1_n_n : DotDims S100x512 S512x512 S100x512 where
  lhsContracting := [1]
  rhsContracting := [0]
  lhsNonContracting := [0]
  rhsNonContracting := [1]
  lhsBatch := []
  rhsBatch := []
  wf := dot_S100x512_S512x512_S100x512_1_0_0_1_n_n_wf
def dot_S100x512_S512x1_S100x1_1_0_0_1_n_n : DotDims S100x512 S512x1 S100x1 where
  lhsContracting := [1]
  rhsContracting := [0]
  lhsNonContracting := [0]
  rhsNonContracting := [1]
  lhsBatch := []
  rhsBatch := []
  wf := dot_S100x512_S512x1_S100x1_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v94) S400x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v95) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S512x100.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v96) S1x100.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v97) S400x100.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v113) S1000x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v127) S1000x456.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v128) S100x456.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S10000x128 : Shape := ⟨2, ![10000, 128]⟩
abbrev S2x320000 : Shape := ⟨2, ![2, 320000]⟩
abbrev S320000 : Shape := ⟨1, ![320000]⟩
abbrev S128x256 : Shape := ⟨2, ![128, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S512x100 : Shape := ⟨2, ![512, 100]⟩
abbrev S100 : Shape := ⟨1, ![100]⟩
abbrev S512x256 : Shape := ⟨2, ![512, 256]⟩
abbrev S512x512 : Shape := ⟨2, ![512, 512]⟩
abbrev S512x1 : Shape := ⟨2, ![512, 1]⟩
abbrev S1 : Shape := ⟨1, ![1]⟩
abbrev S1x320000 : Shape := ⟨2, ![1, 320000]⟩
abbrev S10000x256 : Shape := ⟨2, ![10000, 256]⟩
abbrev S_ : Shape := ⟨0, ![]⟩
abbrev S10000 : Shape := ⟨1, ![10000]⟩
abbrev S320000x1 : Shape := ⟨2, ![320000, 1]⟩
abbrev S320000x256 : Shape := ⟨2, ![320000, 256]⟩
abbrev S10000x1 : Shape := ⟨2, ![10000, 1]⟩
abbrev S1x256 : Shape := ⟨2, ![1, 256]⟩
abbrev S10000x512 : Shape := ⟨2, ![10000, 512]⟩
abbrev S1x512 : Shape := ⟨2, ![1, 512]⟩
abbrev S10000x100 : Shape := ⟨2, ![10000, 100]⟩
abbrev S1x100 : Shape := ⟨2, ![1, 100]⟩
abbrev S10000x10000 : Shape := ⟨2, ![10000, 10000]⟩
abbrev S320000x2 : Shape := ⟨2, ![320000, 2]⟩
abbrev S100x10000 : Shape := ⟨2, ![100, 10000]⟩
abbrev S100x256 : Shape := ⟨2, ![100, 256]⟩
abbrev S100x100 : Shape := ⟨2, ![100, 100]⟩
abbrev S100x512 : Shape := ⟨2, ![100, 512]⟩
abbrev S100x1 : Shape := ⟨2, ![100, 1]⟩
abbrev S1x1 : Shape := ⟨2, ![1, 1]⟩

abbrev nBuf : Space → Nat
  | .hbm => 301
  | .vmem => 0
  | .smem => 0
  | _ => 0

abbrev hbmTy0_0 (i : Nat) : BufTy := match i % 128 with
  | 0 => ⟨S10000x128, .f32⟩
  | 1 => ⟨S2x320000, .i32⟩
  | 2 => ⟨S320000, .f32⟩
  | 3 => ⟨S128x256, .f32⟩
  | 4 => ⟨S256, .f32⟩
  | 5 => ⟨S256x256, .f32⟩
  | 6 => ⟨S256, .f32⟩
  | 7 => ⟨S256x512, .f32⟩
  | 8 => ⟨S512, .f32⟩
  | 9 => ⟨S512x100, .f32⟩
  | 10 => ⟨S100, .f32⟩
  | 11 => ⟨S256x512, .f32⟩
  | 12 => ⟨S512, .f32⟩
  | 13 => ⟨S512x256, .f32⟩
  | 14 => ⟨S256, .f32⟩
  | 15 => ⟨S256x512, .f32⟩
  | 16 => ⟨S512, .f32⟩
  | 17 => ⟨S512x512, .f32⟩
  | 18 => ⟨S512, .f32⟩
  | 19 => ⟨S512x1, .f32⟩
  | 20 => ⟨S1, .f32⟩
  | 21 => ⟨S1x320000, .i32⟩
  | 22 => ⟨S320000, .i32⟩
  | 23 => ⟨S1x320000, .i32⟩
  | 24 => ⟨S320000, .i32⟩
  | 25 => ⟨S10000x256, .f32⟩
  | 26 => ⟨S_, .f32⟩
  | 27 => ⟨S10000, .f32⟩
  | 28 => ⟨S320000x1, .i32⟩
  | 29 => ⟨S10000, .f32⟩
  | 30 => ⟨S_, .f32⟩
  | 31 => ⟨S10000, .f32⟩
  | 32 => ⟨S10000, .f32⟩
  | 33 => ⟨S10000, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000, .f32⟩
  | 43 => ⟨S320000, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000, .f32⟩
  | 53 => ⟨S320000, .f32⟩
  | 54 => ⟨S320000x1, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x256, .f32⟩
  | 64 => ⟨S320000x256, .f32⟩
  | 65 => ⟨S320000x256, .f32⟩
  | 66 => ⟨S_, .f32⟩
  | 67 => ⟨S10000x256, .f32⟩
  | 68 => ⟨S320000x1, .i32⟩
  | 69 => ⟨S10000x256, .f32⟩
  | 70 => ⟨S10000, .f32⟩
  | 71 => ⟨S10000x1, .f32⟩
  | 72 => ⟨S10000x256, .f32⟩
  | 73 => ⟨S10000x256, .f32⟩
  | 74 => ⟨S10000x256, .f32⟩
  | 75 => ⟨S1x256, .f32⟩
  | 76 => ⟨S10000x256, .f32⟩
  | 77 => ⟨S10000x256, .f32⟩
  | 78 => ⟨S_, .f32⟩
  | 79 => ⟨S10000x256, .f32⟩
  | 80 => ⟨S10000x256, .f32⟩
  | 81 => ⟨S10000x256, .f32⟩
  | 82 => ⟨S_, .f32⟩
  | 83 => ⟨S10000, .f32⟩
  | 84 => ⟨S320000x1, .i32⟩
  | 85 => ⟨S10000, .f32⟩
  | 86 => ⟨S_, .f32⟩
  | 87 => ⟨S10000, .f32⟩
  | 88 => ⟨S10000, .f32⟩
  | 89 => ⟨S10000, .f32⟩
  | 90 => ⟨S_, .i32⟩
  | 91 => ⟨S320000, .i32⟩
  | 92 => ⟨S320000, .i1⟩
  | 93 => ⟨S_, .i32⟩
  | 94 => ⟨S320000, .i32⟩
  | 95 => ⟨S320000, .i32⟩
  | 96 => ⟨S320000, .i32⟩
  | 97 => ⟨S320000x1, .i32⟩
  | 98 => ⟨S320000, .f32⟩
  | 99 => ⟨S320000, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S320000, .f32⟩
  | 109 => ⟨S320000, .f32⟩
  | 110 => ⟨S320000x1, .f32⟩
  | 111 => ⟨S_, .i32⟩
  | 112 => ⟨S320000, .i32⟩
  | 113 => ⟨S320000, .i1⟩
  | 114 => ⟨S_, .i32⟩
  | 115 => ⟨S320000, .i32⟩
  | 116 => ⟨S320000, .i32⟩
  | 117 => ⟨S320000, .i32⟩
  | 118 => ⟨S320000x1, .i32⟩
  | 119 => ⟨S320000x256, .f32⟩
  | 120 => ⟨S320000x256, .f32⟩
  | 121 => ⟨S320000x256, .f32⟩
  | 122 => ⟨S_, .f32⟩
  | 123 => ⟨S10000x256, .f32⟩
  | 124 => ⟨S320000x1, .i32⟩
  | 125 => ⟨S10000x256, .f32⟩
  | 126 => ⟨S10000, .f32⟩
  | 127 => ⟨S10000x1, .f32⟩
  | _ => ⟨S10000x128, .f32⟩

abbrev hbmTy0_1 (i : Nat) : BufTy := match i % 128 with
  | 0 => ⟨S10000x256, .f32⟩
  | 1 => ⟨S10000x256, .f32⟩
  | 2 => ⟨S10000x256, .f32⟩
  | 3 => ⟨S1x256, .f32⟩
  | 4 => ⟨S10000x256, .f32⟩
  | 5 => ⟨S10000x256, .f32⟩
  | 6 => ⟨S10000x512, .f32⟩
  | 7 => ⟨S1x512, .f32⟩
  | 8 => ⟨S10000x512, .f32⟩
  | 9 => ⟨S10000x512, .f32⟩
  | 10 => ⟨S_, .f32⟩
  | 11 => ⟨S10000x512, .f32⟩
  | 12 => ⟨S10000x512, .f32⟩
  | 13 => ⟨S10000x100, .f32⟩
  | 14 => ⟨S1x100, .f32⟩
  | 15 => ⟨S10000x100, .f32⟩
  | 16 => ⟨S10000x100, .f32⟩
  | 17 => ⟨S_, .f32⟩
  | 18 => ⟨S100, .f32⟩
  | 19 => ⟨S_, .f32⟩
  | 20 => ⟨S100, .f32⟩
  | 21 => ⟨S100, .f32⟩
  | 22 => ⟨S1x100, .f32⟩
  | 23 => ⟨S10000x100, .f32⟩
  | 24 => ⟨S10000x100, .f32⟩
  | 25 => ⟨S10000x100, .f32⟩
  | 26 => ⟨S_, .f32⟩
  | 27 => ⟨S100, .f32⟩
  | 28 => ⟨S1x100, .f32⟩
  | 29 => ⟨S10000x100, .f32⟩
  | 30 => ⟨S10000x100, .f32⟩
  | 31 => ⟨S_, .f32⟩
  | 32 => ⟨S10000, .f32⟩
  | 33 => ⟨S10000x1, .f32⟩
  | 34 => ⟨S10000x100, .f32⟩
  | 35 => ⟨S10000x100, .i1⟩
  | 36 => ⟨S10000x100, .f32⟩
  | 37 => ⟨S_, .f32⟩
  | 38 => ⟨S10000x10000, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S_, .i32⟩
  | 47 => ⟨S320000, .i32⟩
  | 48 => ⟨S320000, .i1⟩
  | 49 => ⟨S_, .i32⟩
  | 50 => ⟨S320000, .i32⟩
  | 51 => ⟨S320000, .i32⟩
  | 52 => ⟨S320000, .i32⟩
  | 53 => ⟨S320000x1, .i32⟩
  | 54 => ⟨S320000x1, .i32⟩
  | 55 => ⟨S320000x2, .i32⟩
  | 56 => ⟨S10000x10000, .f32⟩
  | 57 => ⟨S100x10000, .f32⟩
  | 58 => ⟨S100x256, .f32⟩
  | 59 => ⟨S100x10000, .f32⟩
  | 60 => ⟨S100x10000, .f32⟩
  | 61 => ⟨S100x100, .f32⟩
  | 62 => ⟨S100x10000, .f32⟩
  | 63 => ⟨S100x100, .f32⟩
  | 64 => ⟨S_, .f32⟩
  | 65 => ⟨S100x100, .f32⟩
  | 66 => ⟨S100x100, .f32⟩
  | 67 => ⟨S100x100, .f32⟩
  | 68 => ⟨S100x100, .i32⟩
  | 69 => ⟨S100x100, .i32⟩
  | 70 => ⟨S_, .i32⟩
  | 71 => ⟨S100x100, .i32⟩
  | 72 => ⟨S100x100, .i32⟩
  | 73 => ⟨S100x100, .i1⟩
  | 74 => ⟨S_, .f32⟩
  | 75 => ⟨S100x100, .f32⟩
  | 76 => ⟨S100x100, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S100x100, .i32⟩
  | 84 => ⟨S100x100, .i32⟩
  | 85 => ⟨S_, .i32⟩
  | 86 => ⟨S100x100, .i32⟩
  | 87 => ⟨S100x100, .i32⟩
  | 88 => ⟨S100x100, .i1⟩
  | 89 => ⟨S100x100, .f32⟩
  | 90 => ⟨S_, .f32⟩
  | 91 => ⟨S100x100, .f32⟩
  | 92 => ⟨S100x100, .f32⟩
  | 93 => ⟨S100x100, .f32⟩
  | 94 => ⟨S10000x100, .f32⟩
  | 95 => ⟨S_, .f32⟩
  | 96 => ⟨S10000x100, .f32⟩
  | 97 => ⟨S10000x100, .f32⟩
  | 98 => ⟨S10000x100, .f32⟩
  | 99 => ⟨S10000x100, .f32⟩
  | 100 => ⟨S_, .f32⟩
  | 101 => ⟨S10000, .f32⟩
  | 102 => ⟨S_, .f32⟩
  | 103 => ⟨S_, .f32⟩
  | 104 => ⟨S_, .f32⟩
  | 105 => ⟨S_, .f32⟩
  | 106 => ⟨S100x100, .i32⟩
  | 107 => ⟨S100x100, .i32⟩
  | 108 => ⟨S_, .i32⟩
  | 109 => ⟨S100x100, .i32⟩
  | 110 => ⟨S100x100, .i32⟩
  | 111 => ⟨S100x100, .i1⟩
  | 112 => ⟨S100x100, .f32⟩
  | 113 => ⟨S100x100, .f32⟩
  | 114 => ⟨S_, .f32⟩
  | 115 => ⟨S100, .f32⟩
  | 116 => ⟨S100, .f32⟩
  | 117 => ⟨S100x512, .f32⟩
  | 118 => ⟨S100x1, .f32⟩
  | 119 => ⟨S100x100, .f32⟩
  | 120 => ⟨S100x1, .f32⟩
  | 121 => ⟨S100x512, .f32⟩
  | 122 => ⟨S100x512, .f32⟩
  | 123 => ⟨S100x512, .f32⟩
  | 124 => ⟨S100x512, .f32⟩
  | 125 => ⟨S100x512, .f32⟩
  | 126 => ⟨S1x512, .f32⟩
  | 127 => ⟨S100x512, .f32⟩
  | _ => ⟨S10000x128, .f32⟩

abbrev hbmTy0_2 (i : Nat) : BufTy := match i % 128 with
  | 0 => ⟨S100x512, .f32⟩
  | 1 => ⟨S_, .f32⟩
  | 2 => ⟨S100x512, .f32⟩
  | 3 => ⟨S100x512, .f32⟩
  | 4 => ⟨S100x100, .i32⟩
  | 5 => ⟨S100x100, .i32⟩
  | 6 => ⟨S_, .i32⟩
  | 7 => ⟨S100x100, .i32⟩
  | 8 => ⟨S100x100, .i32⟩
  | 9 => ⟨S100x100, .i1⟩
  | 10 => ⟨S100x100, .f32⟩
  | 11 => ⟨S100x100, .f32⟩
  | 12 => ⟨S_, .f32⟩
  | 13 => ⟨S100, .f32⟩
  | 14 => ⟨S100, .f32⟩
  | 15 => ⟨S100x256, .f32⟩
  | 16 => ⟨S100x1, .f32⟩
  | 17 => ⟨S100x100, .f32⟩
  | 18 => ⟨S100x1, .f32⟩
  | 19 => ⟨S100x256, .f32⟩
  | 20 => ⟨S100x256, .f32⟩
  | 21 => ⟨S100x256, .f32⟩
  | 22 => ⟨S100x256, .f32⟩
  | 23 => ⟨S100x256, .f32⟩
  | 24 => ⟨S1x256, .f32⟩
  | 25 => ⟨S100x256, .f32⟩
  | 26 => ⟨S100x256, .f32⟩
  | 27 => ⟨S100x512, .f32⟩
  | 28 => ⟨S1x512, .f32⟩
  | 29 => ⟨S100x512, .f32⟩
  | 30 => ⟨S100x512, .f32⟩
  | 31 => ⟨S_, .f32⟩
  | 32 => ⟨S100x512, .f32⟩
  | 33 => ⟨S100x512, .f32⟩
  | 34 => ⟨S100x512, .f32⟩
  | 35 => ⟨S1x512, .f32⟩
  | 36 => ⟨S100x512, .f32⟩
  | 37 => ⟨S100x512, .f32⟩
  | 38 => ⟨S_, .f32⟩
  | 39 => ⟨S100x512, .f32⟩
  | 40 => ⟨S100x512, .f32⟩
  | 41 => ⟨S100x1, .f32⟩
  | 42 => ⟨S1x1, .f32⟩
  | 43 => ⟨S100x1, .f32⟩
  | 44 => ⟨S100x1, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c : Ref sig .tc := ⟨.hbm, 34, rfl⟩
abbrev main_v11 : Ref sig .tc := ⟨.hbm, 35, rfl⟩
abbrev main_v12 : Ref sig .tc := ⟨.hbm, 36, rfl⟩
abbrev main_c_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_2 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_4 : Ref sig .tc := ⟨.hbm, 55, rfl⟩
abbrev main_v28 : Ref sig .tc := ⟨.hbm, 56, rfl⟩
abbrev main_v29 : Ref sig .tc := ⟨.hbm, 57, rfl⟩
abbrev main_c_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call0_cst : Ref sig .tc := ⟨.hbm, 78, rfl⟩
abbrev main_call0_v0 : Ref sig .tc := ⟨.hbm, 79, rfl⟩
abbrev main_v48 : Ref sig .tc := ⟨.hbm, 80, rfl⟩
abbrev main_v49 : Ref sig .tc := ⟨.hbm, 81, rfl⟩
abbrev main_cst_7 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_8 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_9 : Ref sig .tc := ⟨.hbm, 90, rfl⟩
abbrev main_v56 : Ref sig .tc := ⟨.hbm, 91, rfl⟩
abbrev main_v57 : Ref sig .tc := ⟨.hbm, 92, rfl⟩
abbrev main_c_10 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_11 : Ref sig .tc := ⟨.hbm, 100, rfl⟩
abbrev main_v64 : Ref sig .tc := ⟨.hbm, 101, rfl⟩
abbrev main_v65 : Ref sig .tc := ⟨.hbm, 102, rfl⟩
abbrev main_c_12 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_13 : Ref sig .tc := ⟨.hbm, 111, rfl⟩
abbrev main_v73 : Ref sig .tc := ⟨.hbm, 112, rfl⟩
abbrev main_v74 : Ref sig .tc := ⟨.hbm, 113, rfl⟩
abbrev main_c_14 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_15 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_call1_cst : Ref sig .tc := ⟨.hbm, 138, rfl⟩
abbrev main_call1_v0 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_16 : Ref sig .tc := ⟨.hbm, 145, rfl⟩
abbrev main_v102 : Ref sig .tc := ⟨.hbm, 146, rfl⟩
abbrev main_cst_17 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_18 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_19 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_20 : Ref sig .tc := ⟨.hbm, 165, rfl⟩
abbrev main_v118 : Ref sig .tc := ⟨.hbm, 166, rfl⟩
abbrev main_c_21 : Ref sig .tc := ⟨.hbm, 167, rfl⟩
abbrev main_v119 : Ref sig .tc := ⟨.hbm, 168, rfl⟩
abbrev main_v120 : Ref sig .tc := ⟨.hbm, 169, rfl⟩
abbrev main_c_22 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_c_23 : Ref sig .tc := ⟨.hbm, 174, rfl⟩
abbrev main_v124 : Ref sig .tc := ⟨.hbm, 175, rfl⟩
abbrev main_v125 : Ref sig .tc := ⟨.hbm, 176, rfl⟩
abbrev main_c_24 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_25 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_call2_v0 : Ref sig .tc := ⟨.hbm, 196, rfl⟩
abbrev main_call2_v1 : Ref sig .tc := ⟨.hbm, 197, rfl⟩
abbrev main_call2_c : Ref sig .tc := ⟨.hbm, 198, rfl⟩
abbrev main_call2_v2 : Ref sig .tc := ⟨.hbm, 199, rfl⟩
abbrev main_call2_v3 : Ref sig .tc := ⟨.hbm, 200, rfl⟩
abbrev main_call2_v4 : Ref sig .tc := ⟨.hbm, 201, rfl⟩
abbrev main_call2_cst : Ref sig .tc := ⟨.hbm, 202, rfl⟩
abbrev main_call2_v5 : Ref sig .tc := ⟨.hbm, 203, rfl⟩
abbrev main_call2_v6 : Ref sig .tc := ⟨.hbm, 204, rfl⟩
abbrev main_call2_cst_0 : Ref sig .tc := ⟨.hbm, 205, rfl⟩
abbrev main_v143 : Ref sig .tc := ⟨.hbm, 206, rfl⟩
abbrev main_v144 : Ref sig .tc := ⟨.hbm, 207, rfl⟩
abbrev main_cst_26 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_c_27 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_cst_28 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_cst_29 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_cst_30 : Ref sig .tc := ⟨.hbm, 228, rfl⟩
abbrev main_v161 : Ref sig .tc := ⟨.hbm, 229, rfl⟩
abbrev main_cst_31 : Ref sig .tc := ⟨.hbm, 230, rfl⟩
abbrev main_v162 : Ref sig .tc := ⟨.hbm, 231, rfl⟩
abbrev main_cst_32 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_c_33 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_cst_34 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_call3_cst : Ref sig .tc := ⟨.hbm, 257, rfl⟩
abbrev main_call3_v0 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_c_35 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_cst_36 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_call4_cst : Ref sig .tc := ⟨.hbm, 287, rfl⟩
abbrev main_call4_v0 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_call5_cst : Ref sig .tc := ⟨.hbm, 294, rfl⟩
abbrev main_call5_v0 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S100_S1x100_1 : S100.BroadcastsInDim S1x100 (![1] : Fin 1 → Fin S1x100.rank)
  bcast_S1x100_S10000x100_0_1 : S1x100.BroadcastsInDim S10000x100 (![0, 1] : Fin 2 → Fin S10000x100.rank)
  reducesTo_S10000x100_S100_d0 : S10000x100.ReducesTo [0] S100
  h_S_ : 0 < S_.numel
  bcast_S_S100 : S_.BroadcastsInDim S100 (![] : Fin 0 → Fin S100.rank)
  reducesTo_S10000x100_S10000_d1 : S10000x100.ReducesTo [1] S10000
  bcast_S10000x1_S10000x100_0_1 : S10000x1.BroadcastsInDim S10000x100 (![0, 1] : Fin 2 → Fin S10000x100.rank)
  bcast_S_S10000x10000 : S_.BroadcastsInDim S10000x10000 (![] : Fin 0 → Fin S10000x10000.rank)
  concatenates_S320000x1_S320000x1_S320000x2_d1 : Shape.Concatenates [S320000x1, S320000x1] S320000x2 1
  transposes_S10000x100_S100x10000_1_0 : S10000x100.Transposes [1, 0] S100x10000
  bcast_S_S100x100 : S_.BroadcastsInDim S100x100 (![] : Fin 0 → Fin S100x100.rank)
  reducesTo_S100x100_S_d0_1 : S100x100.ReducesTo [0, 1] S_
  bcast_S_S10000x100 : S_.BroadcastsInDim S10000x100 (![] : Fin 0 → Fin S10000x100.rank)
  reducesTo_S10000_S_d0 : S10000.ReducesTo [0] S_
  reducesTo_S100x100_S100_d0 : S100x100.ReducesTo [0] S100
  bcast_S100_S100x1_0 : S100.BroadcastsInDim S100x1 (![0] : Fin 1 → Fin S100x1.rank)
  transposes_S100x100_S100x100_1_0 : S100x100.Transposes [1, 0] S100x100
  bcast_S100x1_S100x512_0_1 : S100x1.BroadcastsInDim S100x512 (![0, 1] : Fin 2 → Fin S100x512.rank)
  bcast_S1x512_S100x512_0_1 : S1x512.BroadcastsInDim S100x512 (![0, 1] : Fin 2 → Fin S100x512.rank)
  bcast_S_S100x512 : S_.BroadcastsInDim S100x512 (![] : Fin 0 → Fin S100x512.rank)
  bcast_S100x1_S100x256_0_1 : S100x1.BroadcastsInDim S100x256 (![0, 1] : Fin 2 → Fin S100x256.rank)
  bcast_S1x256_S100x256_0_1 : S1x256.BroadcastsInDim S100x256 (![0, 1] : Fin 2 → Fin S100x256.rank)
  bcast_S1_S1x1_1 : S1.BroadcastsInDim S1x1 (![1] : Fin 1 → Fin S1x1.rank)
  bcast_S1x1_S100x1_0_1 : S1x1.BroadcastsInDim S100x1 (![0, 1] : Fin 2 → Fin S100x1.rank)
  dot_S10000x128_S128x256_S10000x256_1_0_0_1_n_n_wf : DotDims.WF S10000x128 S128x256 S10000x256 [1] [0] [0] [1] [] []
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []
  dot_S10000x256_S256x512_S10000x512_1_0_0_1_n_n_wf : DotDims.WF S10000x256 S256x512 S10000x512 [1] [0] [0] [1] [] []
  dot_S10000x512_S512x100_S10000x100_1_0_0_1_n_n_wf : DotDims.WF S10000x512 S512x100 S10000x100 [1] [0] [0] [1] [] []
  scatter_S10000x10000_S320000x2_S320000_n_01_01_1_wf : ScatterDims.WF S10000x10000 S320000x2 S320000 [] [0, 1] [0, 1] 1
  dot_S100x10000_S10000x256_S100x256_1_0_0_1_n_n_wf : DotDims.WF S100x10000 S10000x256 S100x256 [1] [0] [0] [1] [] []
  dot_S100x10000_S10000x10000_S100x10000_1_0_0_1_n_n_wf : DotDims.WF S100x10000 S10000x10000 S100x10000 [1] [0] [0] [1] [] []
  dot_S100x10000_S10000x100_S100x100_1_0_0_1_n_n_wf : DotDims.WF S100x10000 S10000x100 S100x100 [1] [0] [0] [1] [] []
  dot_S100x256_S256x512_S100x512_1_0_0_1_n_n_wf : DotDims.WF S100x256 S256x512 S100x512 [1] [0] [0] [1] [] []
  dot_S100x100_S100x512_S100x512_1_0_0_1_n_n_wf : DotDims.WF S100x100 S100x512 S100x512 [1] [0] [0] [1] [] []
  dot_S100x512_S512x256_S100x256_1_0_0_1_n_n_wf : DotDims.WF S100x512 S512x256 S100x256 [1] [0] [0] [1] [] []
  dot_S100x100_S100x256_S100x256_1_0_0_1_n_n_wf : DotDims.WF S100x100 S100x256 S100x256 [1] [0] [0] [1] [] []
  dot_S100x512_S512x512_S100x512_1_0_0_1_n_n_wf : DotDims.WF S100x512 S512x512 S100x512 [1] [0] [0] [1] [] []
  dot_S100x512_S512x1_S100x1_1_0_0_1_n_n_wf : DotDims.WF S100x512 S512x1 S100x1 [1] [0] [0] [1] [] []

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def dot_S10000x512_S512x100_S10000x100_1_0_0_1_n_n : DotDims S10000x512 S512x100 S10000x100 where
  lhsContracting := [1]
  rhsContracting := [0]
  lhsNonContracting := [0]
  rhsNonContracting := [1]
  lhsBatch := []
  rhsBatch := []
  wf := dot_S10000x512_S512x100_S10000x100_1_0_0_1_n_n_wf
def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def dot_S100x10000_S10000x256_S100x256_1_0_0_1_n_n : DotDims S100x10000 S10000x256 S100x256 where
  lhsContracting := [1]
  rhsContracting := [0]
  lhsNonContracting := [0]
  rhsNonContracting := [1]
  lhsBatch := []
  rhsBatch := []
  wf := dot_S100x10000_S10000x256_S100x256_1_0_0_1_n_n_wf
def dot_S100x10000_S10000x10000_S100x10000_1_0_0_1_n_n : DotDims S100x10000 S10000x10000 S100x10000 where
  lhsContracting := [1]
  rhsContracting := [0]
  lhsNonContracting := [0]
  rhsNonContracting := [1]
  lhsBatch := []
  rhsBatch := []
  wf := dot_S100x10000_S10000x10000_S100x10000_1_0_0_1_n_n_wf
def dot_S100x10000_S10000x100_S100x100_1_0_0_1_n_n : DotDims S100x10000 S10000x100 S100x100 where
  lhsContracting := [1]
  rhsContracting := [0]
  lhsNonContracting := [0]
  rhsNonContracting := [1]
  lhsBatch := []
  rhsBatch := []
  wf := dot_S100x10000_S10000x100_S100x100_1_0_0_1_n_n_wf
def dot_S100x256_S256x512_S100x512_1_0_0_1_n_n : DotDims S100x256 S256x512 S100x512 where
  lhsContracting := [1]
  rhsContracting := [0]
  lhsNonContracting := [0]
  rhsNonContracting := [1]
  lhsBatch := []
  rhsBatch := []
  wf := dot_S100x256_S256x512_S100x512_1_0_0_1_n_n_wf
def dot_S100x100_S100x512_S100x512_1_0_0_1_n_n : DotDims S100x100 S100x512 S100x512 where
  lhsContracting := [1]
  rhsContracting := [0]
  lhsNonContracting := [0]
  rhsNonContracting := [1]
  lhsBatch := []
  rhsBatch := []
  wf := dot_S100x100_S100x512_S100x512_1_0_0_1_n_n_wf
def dot_S100x512_S512x256_S100x256_1_0_0_1_n_n : DotDims S100x512 S512x256 S100x256 where
  lhsContracting := [1]
  rhsContracting := [0]
  lhsNonContracting := [0]
  rhsNonContracting := [1]
  lhsBatch := []
  rhsBatch := []
  wf := dot_S100x512_S512x256_S100x256_1_0_0_1_n_n_wf
def dot_S100x100_S100x256_S100x256_1_0_0_1_n_n : DotDims S100x100 S100x256 S100x256 where
  lhsContracting := [1]
  rhsContracting := [0]
  lhsNonContracting := [0]
  rhsNonContracting := [1]
  lhsBatch := []
  rhsBatch := []
  wf := dot_S100x100_S100x256_S100x256_1_0_0_1_n_n_wf
def dot_S100x512_S512x512_S100x512_1_0_0_1_n_n : DotDims S100x512 S512x512 S100x512 where
  lhsContracting := [1]
  rhsContracting := [0]
  lhsNonContracting := [0]
  rhsNonContracting := [1]
  lhsBatch := []
  rhsBatch := []
  wf := dot_S100x512_S512x512_S100x512_1_0_0_1_n_n_wf
def dot_S100x512_S512x1_S100x1_1_0_0_1_n_n : DotDims S100x512 S512x1 S100x1 where
  lhsContracting := [1]
  rhsContracting := [0]
  lhsNonContracting := [0]
  rhsNonContracting := [1]
  lhsBatch := []
  rhsBatch := []
  wf := dot_S100x512_S512x1_S100x1_1_0_0_1_n_n_wf

class Facts : Prop extends Facts₀ where

variable [Facts]
-- ==== Proof.KI.Reg0.lean ====
import proofs.«415211_j35837207118569_3_alg».proof.Proof.Gen.KernelIdeal.Launch
import proofs.«415211_j35837207118569_3_alg».proof.Proof.Gen.KernelIdeal.Skeleton
import proofs.«415211_j35837207118569_3_alg».proof.Proof.Gen.KernelIdeal.Points
import Idealize.ShloMosaic.Lib.Pipeline.FrameBody
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1000x128 := Rect.unit (s := S1000x128) ![0, 0] S1000x128.size inb_S1000x128_S1000x128_0_0
abbrev r0_1 : Rect S128x256 := Rect.unit (s := S128x256) ![0, 0] S128x256.size inb_S128x256_S128x256_0_0
abbrev r0_3 : Rect S1000x256 := Rect.unit (s := S1000x256) ![0, 0] S1000x256.size inb_S1000x256_S1000x256_0_0

def out0_3 (x0 : Vec F S1000x128 .f32) (x1 : Vec F S128x256 .f32) (x2 : Vec F S1x256 .f32) : Vec F S1000x256 .f32 :=
  View.canon [⟨r0_3, k0_pay1 (View.ld x0 r0_0) (View.ld x1 r0_1)⟩]

theorem cover0_3 (p0 : Vec F S1000x256 .f32) (y : S1000x256.Idx) :
    ∃ pc ∈ ([⟨r0_3, p0⟩] : List (View.Piece (Elt F) S1000x256 .f32)), y ∈ pc.1.set :=
  View.cover_of_tiled [⟨r0_3, p0⟩] S1000x256.size (by rfl) y

set_option maxHeartbeats 1000000 in

theorem sound_kernel0 (c : Dev nD) (E : Set ℕ) (i : grid0.Coords) (arg1 : Memref sig .tc .vmem S1000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S1000x256 .f32) (harg4 : arg4.IsWhole)
    (x0 : Vec F S1000x128 .f32) (x1 : Vec F S128x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KI

end
-- ==== Proof.KI.Reg1.lean ====
import proofs.«415211_j35837207118569_3_alg».proof.Proof.Gen.KernelIdeal.Launch
import proofs.«415211_j35837207118569_3_alg».proof.Proof.Gen.KernelIdeal.Skeleton
import proofs.«415211_j35837207118569_3_alg».proof.Proof.Gen.KernelIdeal.Points
import Idealize.ShloMosaic.Lib.Pipeline.FrameBody
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1000x256 := Rect.unit (s := S1000x256) ![0, 0] S1000x256.size inb_S1000x256_S1000x256_0_0
abbrev r1_1 : Rect S256x256 := Rect.unit (s := S256x256) ![0, 0] S256x256.size inb_S256x256_S256x256_0_0
abbrev r1_3 : Rect S1000x256 := Rect.unit (s := S1000x256) ![0, 0] S1000x256.size inb_S1000x256_S1000x256_0_0

def out1_3 (x0 : Vec F S1000x256 .f32) (x1 : Vec F S256x256 .f32) (x2 : Vec F S1x256 .f32) : Vec F S1000x256 .f32 :=
  View.canon [⟨r1_3, k1_pay1 (View.ld x0 r1_0) (View.ld x1 r1_1)⟩]

theorem cover1_3 (p0 : Vec F S1000x256 .f32) (y : S1000x256.Idx) :
    ∃ pc ∈ ([⟨r1_3, p0⟩] : List (View.Piece (Elt F) S1000x256 .f32)), y ∈ pc.1.set :=
  View.cover_of_tiled [⟨r1_3, p0⟩] S1000x256.size (by rfl) y

set_option maxHeartbeats 1000000 in

theorem sound_kernel1 (c : Dev nD) (E : Set ℕ) (i : grid1.Coords) (arg1 : Memref sig .tc .vmem S1000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1000x256 .f32) (harg4 : arg4.IsWhole)
    (x0 : Vec F S1000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KI

end
-- ==== Proof.KI.Reg2.lean ====
import proofs.«415211_j35837207118569_3_alg».proof.Proof.Gen.KernelIdeal.Launch
import proofs.«415211_j35837207118569_3_alg».proof.Proof.Gen.KernelIdeal.Skeleton
import proofs.«415211_j35837207118569_3_alg».proof.Proof.Gen.KernelIdeal.Points
import Idealize.ShloMosaic.Lib.Pipeline.FrameBody
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S400x256 := Rect.unit (s := S400x256) ![0, 0] S400x256.size inb_S400x256_S400x256_0_0
abbrev r2_1 : Rect S256x512 := Rect.unit (s := S256x512) ![0, 0] S256x512.size inb_S256x512_S256x512_0_0
abbrev r2_2 : Rect S1x512 := Rect.unit (s := S1x512) ![0, 0] S1x512.size inb_S1x512_S1x512_0_0
abbrev r2_3 : Rect S512x100 := Rect.unit (s := S512x100) ![0, 0] S512x100.size inb_S512x100_S512x100_0_0
abbrev r2_4 : Rect S1x100 := Rect.unit (s := S1x100) ![0, 0] S1x100.size inb_S1x100_S1x100_0_0
abbrev r2_5 : Rect S400x100 := Rect.unit (s := S400x100) ![0, 0] S400x100.size inb_S400x100_S400x100_0_0

def out2_5 (x0 : Vec F S400x256 .f32) (x1 : Vec F S256x512 .f32) (x2 : Vec F S1x512 .f32) (x3 : Vec F S512x100 .f32) (x4 : Vec F S1x100 .f32) : Vec F S400x100 .f32 :=
  View.canon [⟨r2_5, k2_pay1 (View.ld x0 r2_0) (View.ld x1 r2_1) (View.ld x2 r2_2) (View.ld x3 r2_3) (View.ld x4 r2_4)⟩]

theorem cover2_5 (p0 : Vec F S400x100 .f32) (y : S400x100.Idx) :
    ∃ pc ∈ ([⟨r2_5, p0⟩] : List (View.Piece (Elt F) S400x100 .f32)), y ∈ pc.1.set :=
  View.cover_of_tiled [⟨r2_5, p0⟩] S400x100.size (by rfl) y

set_option maxHeartbeats 1000000 in

theorem sound_kernel2 (c : Dev nD) (E : Set ℕ) (i : grid2.Coords) (arg1 : Memref sig .tc .vmem S400x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S512x100 .f32) (harg4 : arg4.IsWhole) (arg5 : Memref sig .tc .vmem S1x100 .f32) (harg5 : arg5.IsWhole) (arg6 : Memref sig .tc .vmem S400x100 .f32) (harg6 : arg6.IsWhole)
    (x0 : Vec F S400x256 .f32) (x1 : Vec F S256x512 .f32) (x2 : Vec F S1x512 .f32) (x3 : Vec F S512x100 .f32) (x4 : Vec F S1x100 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__assign_mlp_kernel i arg1 harg1 arg2 harg2 arg3 harg3 arg4 harg4 arg5 harg5 arg6 harg6) K := by
  simp only [cc2__assign_mlp_kernel_eq_skeleton]; unfold cc2__assign_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KI

end
-- ==== Proof.KI.Reg3Runs.lean ====
import proofs.«415211_j35837207118569_3_alg».proof.Proof.Gen.KernelIdeal.Launch
import proofs.«415211_j35837207118569_3_alg».proof.Proof.Gen.KernelIdeal.Skeleton
import proofs.«415211_j35837207118569_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

end Region3

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)

abbrev cond3_1 (i : grid3.Coords) : Prop := k3_cond2 i = 1#1
theorem hcond3_1 : ∀ t : Fin cfg3.N, cond3_1 (grid3.coords t) ↔ t.val % 10 = 9 :=
  (by decide +kernel : ∀ t : Fin grid3.N, cond3_1 (grid3.coords t) ↔ t.val % 10 = 9)

theorem liveAt3_0 : ∀ t : Fin cfg3.N, cfg3.idle 0 (grid3.coords t) = false := by decide +kernel
theorem liveAt3_1 : ∀ t : Fin cfg3.N, cfg3.idle 1 (grid3.coords t) = false := by decide +kernel

theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel

theorem liveAt3_2 : ∀ t : Fin cfg3.N, cond3_1 (grid3.coords t) → cfg3.idle 2 (grid3.coords t) = false := by decide +kernel

abbrev VO3_2 : View sig .tc .vmem S100x456 .f32 := (Memref.whole cc3_stg2_0 : Memref sig .tc .vmem S100x456 .f32).view
abbrev ms3_0 (t : Fin cfg3.N) : Memref sig .tc .vmem S1000x100 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1000x456 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S100x456 .f32 := win3_2.stage (cfg3.slots t 2)
abbrev hs3_2 (t : Fin cfg3.N) : (ms3_2 t).IsWhole := hstage3_2 ((cfg3.slots t 2).cast nbuf3_2)

abbrev scM3_0 : Memref sig .tc .vmem S100x456 .f32 := Memref.whole cc3_scratch0
abbrev VS3_0 : View sig .tc .vmem S100x456 .f32 := scM3_0.view

theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [scM3_0, owns_whole]; try rfl

end Cert.KI

end
-- ==== Proof.KI.Reg3RunA.lean ====
import proofs.«415211_j35837207118569_3_alg».proof.Proof.KI.Reg3Runs

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun3_A (c : Dev nD) (i : grid3.Coords) (arg1 : Memref sig .tc .vmem S1000x100 .f32) (harg1 : arg1.IsWhole) (arg2 : Memref sig .tc .vmem S1000x456 .f32) (harg2 : arg2.IsWhole) (arg3 : Memref sig .tc .vmem S100x456 .f32) (harg3 : arg3.IsWhole) (arg4 : Memref sig .tc .vmem S100x456 .f32) (harg4 : arg4.IsWhole) (hc0 : cond3_0 i) (hc1 : ¬cond3_1 i)
    (x0 : Vec F S1000x100 .f32) (x1 : Vec F S1000x456 .f32) :
    { LS0 : List (View.Piece (Elt F) S100x456 .f32) //
      ∀ (xi2 : Vec F S100x456 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__matmul_atb_kernel i arg1 harg1 arg2 harg2 arg3 harg3 arg4 harg4) K } := by
  refine ⟨?_, fun xi2 E K => ?run⟩
  case run =>
    simp only [cc3__matmul_atb_kernel_eq_skeleton]; unfold cc3__matmul_atb_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KI

end
-- ==== Proof.KI.Reg3RunB.lean ====
import proofs.«415211_j35837207118569_3_alg».proof.Proof.KI.Reg3RunA

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun3_B (c : Dev nD) (i : grid3.Coords) (arg1 : Memref sig .tc .vmem S1000x100 .f32) (harg1 : arg1.IsWhole) (arg2 : Memref sig .tc .vmem S1000x456 .f32) (harg2 : arg2.IsWhole) (arg3 : Memref sig .tc .vmem S100x456 .f32) (harg3 : arg3.IsWhole) (arg4 : Memref sig .tc .vmem S100x456 .f32) (harg4 : arg4.IsWhole) (hc0 : ¬cond3_0 i) (hc1 : ¬cond3_1 i)
    (x0 : Vec F S1000x100 .f32) (x1 : Vec F S1000x456 .f32) (xs0 : Vec F S100x456 .f32) :
    { LS0 : List (View.Piece (Elt F) S100x456 .f32) //
      ∀ (xi2 : Vec F S100x456 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__matmul_atb_kernel i arg1 harg1 arg2 harg2 arg3 harg3 arg4 harg4) K } := by
  refine ⟨?_, fun xi2 E K => ?run⟩
  case run =>
    simp only [cc3__matmul_atb_kernel_eq_skeleton]; unfold cc3__matmul_atb_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KI

end
-- ==== Proof.KI.Reg3RunC.lean ====
import proofs.«415211_j35837207118569_3_alg».proof.Proof.KI.Reg3RunB

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun3_C (c : Dev nD) (i : grid3.Coords) (arg1 : Memref sig .tc .vmem S1000x100 .f32) (harg1 : arg1.IsWhole) (arg2 : Memref sig .tc .vmem S1000x456 .f32) (harg2 : arg2.IsWhole) (arg3 : Memref sig .tc .vmem S100x456 .f32) (harg3 : arg3.IsWhole) (arg4 : Memref sig .tc .vmem S100x456 .f32) (harg4 : arg4.IsWhole) (hc0 : ¬cond3_0 i) (hc1 : cond3_1 i)
    (x0 : Vec F S1000x100 .f32) (x1 : Vec F S1000x456 .f32) (xs0 : Vec F S100x456 .f32) :
    Σ' (L2 : List (View.Piece (Elt F) S100x456 .f32)), { LS0 : List (View.Piece (Elt F) S100x456 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc3__matmul_atb_kernel i arg1 harg1 arg2 harg2 arg3 harg3 arg4 harg4) K } := by
  refine ⟨?_, ?_, fun E K => ?run⟩
  case run =>
    simp only [cc3__matmul_atb_kernel_eq_skeleton]; unfold cc3__matmul_atb_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KI

end
-- ==== Proof.KI.Reg3Frame.lean ====
import proofs.«415211_j35837207118569_3_alg».proof.Proof.KI.Reg3RunC

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pieces
variable (c : Dev nD) (i : grid3.Coords) (arg1 : Memref sig .tc .vmem S1000x100 .f32) (harg1 : arg1.IsWhole) (arg2 : Memref sig .tc .vmem S1000x456 .f32) (harg2 : arg2.IsWhole) (arg3 : Memref sig .tc .vmem S100x456 .f32) (harg3 : arg3.IsWhole) (arg4 : Memref sig .tc .vmem S100x456 .f32) (harg4 : arg4.IsWhole)

theorem scover3_A (hc0 : cond3_0 i) (hc1 : ¬cond3_1 i)
    (x0 : Vec F S1000x100 .f32) (x1 : Vec F S1000x456 .f32) (y : S100x456.Idx) :
    ∃ pc ∈ (kernelRun3_A c i arg1 harg1 arg2 harg2 arg3 harg3 arg4 harg4 hc0 hc1 x0 x1).1, y ∈ pc.1.set :=
  View.cover_of_tiledL (kernelRun3_A c i arg1 harg1 arg2 harg2 arg3 harg3 arg4 harg4 hc0 hc1 x0 x1).1 S100x456.size (by sl_kernel_rfl) y

def sout3_A (hc0 : cond3_0 i) (hc1 : ¬cond3_1 i)
    (x0 : Vec F S1000x100 .f32) (x1 : Vec F S1000x456 .f32) : Vec F S100x456 .f32 :=
  VS3_0.read (Elt F) (VS3_0.writes (Elt F) VS3_0.junk (kernelRun3_A c i arg1 harg1 arg2 harg2 arg3 harg3 arg4 harg4 hc0 hc1 x0 x1).1)

theorem scover3_B (hc0 : ¬cond3_0 i) (hc1 : ¬cond3_1 i)
    (x0 : Vec F S1000x100 .f32) (x1 : Vec F S1000x456 .f32) (xs0 : Vec F S100x456 .f32) (y : S100x456.Idx) :
    ∃ pc ∈ (kernelRun3_B c i arg1 harg1 arg2 harg2 arg3 harg3 arg4 harg4 hc0 hc1 x0 x1 xs0).1, y ∈ pc.1.set :=
  View.cover_of_tiledL (kernelRun3_B c i arg1 harg1 arg2 harg2 arg3 harg3 arg4 harg4 hc0 hc1 x0 x1 xs0).1 S100x456.size (by sl_kernel_rfl) y

def sout3_B (hc0 : ¬cond3_0 i) (hc1 : ¬cond3_1 i)
    (x0 : Vec F S1000x100 .f32) (x1 : Vec F S1000x456 .f32) (xs0 : Vec F S100x456 .f32) : Vec F S100x456 .f32 :=
  VS3_0.read (Elt F) (VS3_0.writes (Elt F) VS3_0.junk (kernelRun3_B c i arg1 harg1 arg2 harg2 arg3 harg3 arg4 harg4 hc0 hc1 x0 x1 xs0).1)

theorem cover3_C (hc0 : ¬cond3_0 i) (hc1 : cond3_1 i)
    (x0 : Vec F S1000x100 .f32) (x1 : Vec F S1000x456 .f32) (xs0 : Vec F S100x456 .f32) (y : S100x456.Idx) :
    ∃ pc ∈ (kernelRun3_C c i arg1 harg1 arg2 harg2 arg3 harg3 arg4 harg4 hc0 hc1 x0 x1 xs0).1, y ∈ pc.1.set :=
  View.cover_of_tiledL (kernelRun3_C c i arg1 harg1 arg2 harg2 arg3 harg3 arg4 harg4 hc0 hc1 x0 x1 xs0).1 S100x456.size (by sl_kernel_rfl) y

def out3_C (hc0 : ¬cond3_0 i) (hc1 : cond3_1 i)
    (x0 : Vec F S1000x100 .f32) (x1 : Vec F S1000x456 .f32) (xs0 : Vec F S100x456 .f32) : Vec F S100x456 .f32 :=
  VO3_2.read (Elt F) (VO3_2.writes (Elt F) VO3_2.junk (kernelRun3_C c i arg1 harg1 arg2 harg2 arg3 harg3 arg4 harg4 hc0 hc1 x0 x1 xs0).1)

theorem scover3_C (hc0 : ¬cond3_0 i) (hc1 : cond3_1 i)
    (x0 : Vec F S1000x100 .f32) (x1 : Vec F S1000x456 .f32) (xs0 : Vec F S100x456 .f32) (y : S100x456.Idx) :
    ∃ pc ∈ (kernelRun3_C c i arg1 harg1 arg2 harg2 arg3 harg3 arg4 harg4 hc0 hc1 x0 x1 xs0).2.1, y ∈ pc.1.set :=
  View.cover_of_tiledL (kernelRun3_C c i arg1 harg1 arg2 harg2 arg3 harg3 arg4 harg4 hc0 hc1 x0 x1 xs0).2.1 S100x456.size (by sl_kernel_rfl) y

def sout3_C (hc0 : ¬cond3_0 i) (hc1 : cond3_1 i)
    (x0 : Vec F S1000x100 .f32) (x1 : Vec F S1000x456 .f32) (xs0 : Vec F S100x456 .f32) : Vec F S100x456 .f32 :=
  VS3_0.read (Elt F) (VS3_0.writes (Elt F) VS3_0.junk (kernelRun3_C c i arg1 harg1 arg2 harg2 arg3 harg3 arg4 harg4 hc0 hc1 x0 x1 xs0).2.1)

end Pieces

theorem reg3_zero_mod_ne9 : ¬(0 : ℕ) % 10 = 9 := by decide

section Region3
variable (V : (c : Dev nD) → (b : Ref sig .tc) → Buf (Elt F) ((c : Thread nD τ).loc b))

def sout3A_at (c : Dev nD) (t : Fin cfg3.N) (h0 : t.val % 10 = 0) (h1 : ¬t.val % 10 = 9) : Vec F S100x456 .f32 :=
  sout3_A c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)

def sout3B_at (c : Dev nD) (t : Fin cfg3.N) (h0 : ¬t.val % 10 = 0) (h1 : ¬t.val % 10 = 9) (xs0 : Vec F S100x456 .f32) : Vec F S100x456 .f32 :=
  sout3_B c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) xs0

def out3C_at (c : Dev nD) (t : Fin cfg3.N) (h0 : ¬t.val % 10 = 0) (h1 : t.val % 10 = 9) (xs0 : Vec F S100x456 .f32) : Vec F S100x456 .f32 :=
  out3_C c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) xs0

def sout3C_at (c : Dev nD) (t : Fin cfg3.N) (h0 : ¬t.val % 10 = 0) (h1 : t.val % 10 = 9) (xs0 : Vec F S100x456 .f32) : Vec F S100x456 .f32 :=
  sout3_C c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) xs0

def outsAt3 (c : Dev nD) : (n : ℕ) → n < cfg3.N → Vec F S100x456 .f32 × Vec F S100x456 .f32
  | 0, hn => (sout3A_at V c ⟨0, hn⟩ (Nat.zero_mod _) reg3_zero_mod_ne9, sout3A_at V c ⟨0, hn⟩ (Nat.zero_mod _) reg3_zero_mod_ne9)
  | n + 1, hn =>
    have h0 : ¬(n + 1) % 10 = 0 := by have hN : n + 1 < 10 := lt_of_lt_of_eq hn (show cfg3.N = 10 from N_3); omega
    if h1 : (n + 1) % 10 = 9 then
      (out3C_at V c ⟨n + 1, hn⟩ h0 h1 (outsAt3 c n (Nat.lt_of_succ_lt hn)).2, sout3C_at V c ⟨n + 1, hn⟩ h0 h1 (outsAt3 c n (Nat.lt_of_succ_lt hn)).2)
    else
      (sout3B_at V c ⟨n + 1, hn⟩ h0 h1 (outsAt3 c n (Nat.lt_of_succ_lt hn)).2, sout3B_at V c ⟨n + 1, hn⟩ h0 h1 (outsAt3 c n (Nat.lt_of_succ_lt hn)).2)

theorem outsAt3_A (c : Dev nD) (t : Fin cfg3.N) (h0 : t.val % 10 = 0) (h1 : ¬t.val % 10 = 9) :
    outsAt3 V c t.val t.isLt = (sout3A_at V c t h0 h1, sout3A_at V c t h0 h1) := by
  obtain ⟨n, hn⟩ := t
  cases n with
  | zero => exact rfl
  | succ n => exact (by exfalso; have hN : n + 1 < 10 := lt_of_lt_of_eq hn (show cfg3.N = 10 from N_3); (try dsimp only at h0); omega)

theorem outsAt3_B (c : Dev nD) (t : Fin cfg3.N) (h0 : ¬t.val % 10 = 0) (h1 : ¬t.val % 10 = 9) :
    outsAt3 V c t.val t.isLt = (sout3B_at V c t h0 h1 (outsAt3 V c (t.val - 1) (Nat.lt_of_le_of_lt (Nat.sub_le _ _) t.isLt)).2, sout3B_at V c t h0 h1 (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem outsAt3_C (c : Dev nD) (t : Fin cfg3.N) (h0 : ¬t.val % 10 = 0) (h1 : t.val % 10 = 9) :
    outsAt3 V c t.val t.isLt = (out3C_at V c t h0 h1 (outsAt3 V c (t.val - 1) (Nat.lt_of_le_of_lt (Nat.sub_le _ _) t.isLt)).2, sout3C_at V c t h0 h1 (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := rfl

theorem owed_eq3 (c : Dev nD) (t) : (dat3 V c).owed t = 0 := rfl

theorem recorded_eq3 (c : Dev nD) (t) : (dat3 V c).recorded t = Set.univ := rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2_outs (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h1 : t.val % 10 = 9
  · have h0 : ¬t.val % 10 = 0 := by omega
    have hz : t.val ≠ 0 := by omega
    rw [show (dat3 V c).leavesExact 2 t = owns (c : Thread nD τ) (ms3_2 t) fullShare ((dat3 V c).after 2 t) from by
      unfold Dat.leavesExact; rw [liveAt3_2 t ((hcond3_1 t).mpr h1)], after3_2_outs]
    rw [outsAt3_C V c t h0 h1]
    unfold out3C_at sout3C_at out3_C sout3_C; (try dsimp only)
    rw [PhiS3_castSucc V c t, PhiS3_pos V c _ _ hz]
    iintro ⟨⟨⟨HS0, Hrest⟩, Hg⟩, Ho, ⟨%d0, H0⟩, ⟨%d1, H1⟩, ⟨%d2, H2⟩⟩
    iapply ((kernelRun3_C c (grid3.coords t) _ _ _ _ _ _ _ _ (fun h => h0 ((hcond3_0 t).mp h)) ((hcond3_1 t).mpr h1) (iblk3 V c 0 t) (iblk3 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover3_C c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover3_C c _ _ _ _ _ _ _ _ _ _ _ _ _ _)
  · rw [Dat.leavesExact_idle (dat3 V c) 2 t (idleAt3_2 t (fun h => h1 ((hcond3_1 t).mp h))) (noFlush3_2 t (fun h => h1 ((hcond3_1 t).mp h)))]
    by_cases h0 : t.val % 10 = 0
    · have hz : t.val = 0 := by omega
      rw [outsAt3_A V c t h0 h1]
      unfold sout3A_at sout3_A; (try dsimp only)
      rw [PhiS3_castSucc V c t, PhiS3_zero V c _ _ hz, PhiA3_eq]
      iintro ⟨⟨⟨HS0, Hrest⟩, Hg⟩, Ho, ⟨%d0, H0⟩, ⟨%d1, H1⟩, ⟨%d2, H2⟩⟩
      iapply ((kernelRun3_A c (grid3.coords t) _ _ _ _ _ _ _ _ ((hcond3_0 t).mpr h0) (fun h => h1 ((hcond3_1 t).mp h)) (iblk3 V c 0 t) (iblk3 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_A c _ _ _ _ _ _ _ _ _ _ _ _ _)
          iexact Hrest
        iexact Hg
      isplitl [Ho]; · iexact Ho
      isplitl [H0]; · iexact H0
      isplitl [H1]; · iexact H1
      iexists _; iexact H2
    · have hz : t.val ≠ 0 := by omega
      rw [outsAt3_B V c t h0 h1]
      unfold sout3B_at sout3_B; (try dsimp only)
      rw [PhiS3_castSucc V c t, PhiS3_pos V c _ _ hz]
      iintro ⟨⟨⟨HS0, Hrest⟩, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B c _ _ _ _ _ _ _ _ _ _ _ _ _ _)
          iexact Hrest
        iexact Hg
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body3 V c t

theorem phi3_first (c : Dev nD) : (dat3 V c).Φ 0 = Pipeline.ΦA spec3 c := by
  rw [show (dat3 V c).Φ 0 = PhiS3 V c 0 (Nat.zero_le _) from rfl, PhiS3_zero V c 0 _ rfl]

theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hrest⟩, Hg⟩
  isplitl [HS0 Hrest]
  · isplitl [HS0]
    · iexists _; iexact HS0
    iexact Hrest
  iexact Hg

theorem phi3_last (c : Dev nD) : (dat3 V c).Φ (Fin.last cfg3.N) ⊢ Pipeline.ΦA spec3 c :=
  Phi3_out V c _ (by rw [Fin.val_last]; have : cfg3.N = 10 := N_3; omega)

end Region3

end Cert.KI

end
-- ==== Proof.KI.Reg3.lean ====
import proofs.«415211_j35837207118569_3_alg».proof.Proof.KI.Reg3Frame
import Idealize.ShloMosaic.Lib.Pipeline.Value

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem reg3_zeros2 : (![0, 0] : Fin 2 → Nat) = fun _ => 0 := funext fun a => by fin_cases a <;> rfl

theorem sout3_A_eq (c : Dev nD) (i : grid3.Coords) (arg1 : Memref sig .tc .vmem S1000x100 .f32) (harg1 : arg1.IsWhole) (arg2 : Memref sig .tc .vmem S1000x456 .f32) (harg2 : arg2.IsWhole) (arg3 : Memref sig .tc .vmem S100x456 .f32) (harg3 : arg3.IsWhole) (arg4 : Memref sig .tc .vmem S100x456 .f32) (harg4 : arg4.IsWhole) (hc0 : cond3_0 i) (hc1 : ¬cond3_1 i)
    (x0 : Vec F S1000x100 .f32) (x1 : Vec F S1000x456 .f32) :
    sout3_A c i arg1 harg1 arg2 harg2 arg3 harg3 arg4 harg4 hc0 hc1 x0 x1 = k3_pay2 x0 x1 (k3_pay1 (F := F)) := by
  unfold sout3_A
  rw [View.read_writes_eq_canon _ _ _ (scover3_A c i arg1 harg1 arg2 harg2 arg3 harg3 arg4 harg4 hc0 hc1 x0 x1)]
  unfold kernelRun3_A
  dsimp only
  try sl_unfold_words
  rw [View.canon_cons_unit_zero reg3_zeros2]
  simp only [View.readAt_eq_ld, harg1.read_unread, harg2.read_unread, View.ld_unit_zero (S := S1000x100) reg3_zeros2, View.ld_unit_zero (S := S1000x456) reg3_zeros2, View.readCov_unit_zero (S := S100x456) _ reg3_zeros2]

theorem sout3_B_eq (c : Dev nD) (i : grid3.Coords) (arg1 : Memref sig .tc .vmem S1000x100 .f32) (harg1 : arg1.IsWhole) (arg2 : Memref sig .tc .vmem S1000x456 .f32) (harg2 : arg2.IsWhole) (arg3 : Memref sig .tc .vmem S100x456 .f32) (harg3 : arg3.IsWhole) (arg4 : Memref sig .tc .vmem S100x456 .f32) (harg4 : arg4.IsWhole) (hc0 : ¬cond3_0 i) (hc1 : ¬cond3_1 i)
    (x0 : Vec F S1000x100 .f32) (x1 : Vec F S1000x456 .f32) (xs0 : Vec F S100x456 .f32) :
    sout3_B c i arg1 harg1 arg2 harg2 arg3 harg3 arg4 harg4 hc0 hc1 x0 x1 xs0 = k3_pay2 x0 x1 xs0 := by
  unfold sout3_B
  rw [View.read_writes_eq_canon _ _ _ (scover3_B c i arg1 harg1 arg2 harg2 arg3 harg3 arg4 harg4 hc0 hc1 x0 x1 xs0)]
  unfold kernelRun3_B
  dsimp only
  try sl_unfold_words
  rw [View.canon_unit_zero reg3_zeros2]
  simp only [View.readAt_eq_ld, harg1.read_unread, harg2.read_unread, harg4.read_unread, View.ld_unit_zero (S := S1000x100) reg3_zeros2, View.ld_unit_zero (S := S1000x456) reg3_zeros2, View.ld_unit_zero (S := S100x456) reg3_zeros2]

theorem sout3_C_eq (c : Dev nD) (i : grid3.Coords) (arg1 : Memref sig .tc .vmem S1000x100 .f32) (harg1 : arg1.IsWhole) (arg2 : Memref sig .tc .vmem S1000x456 .f32) (harg2 : arg2.IsWhole) (arg3 : Memref sig .tc .vmem S100x456 .f32) (harg3 : arg3.IsWhole) (arg4 : Memref sig .tc .vmem S100x456 .f32) (harg4 : arg4.IsWhole) (hc0 : ¬cond3_0 i) (hc1 : cond3_1 i)
    (x0 : Vec F S1000x100 .f32) (x1 : Vec F S1000x456 .f32) (xs0 : Vec F S100x456 .f32) :
    sout3_C c i arg1 harg1 arg2 harg2 arg3 harg3 arg4 harg4 hc0 hc1 x0 x1 xs0 = k3_pay2 x0 x1 xs0 := by
  unfold sout3_C
  rw [View.read_writes_eq_canon _ _ _ (scover3_C c i arg1 harg1 arg2 harg2 arg3 harg3 arg4 harg4 hc0 hc1 x0 x1 xs0)]
  unfold kernelRun3_C
  dsimp only
  try sl_unfold_words
  rw [View.canon_unit_zero reg3_zeros2]
  simp only [View.readAt_eq_ld, harg1.read_unread, harg2.read_unread, harg4.read_unread, View.ld_unit_zero (S := S1000x100) reg3_zeros2, View.ld_unit_zero (S := S1000x456) reg3_zeros2, View.ld_unit_zero (S := S100x456) reg3_zeros2]

theorem out3_C_eq (c : Dev nD) (i : grid3.Coords) (arg1 : Memref sig .tc .vmem S1000x100 .f32) (harg1 : arg1.IsWhole) (arg2 : Memref sig .tc .vmem S1000x456 .f32) (harg2 : arg2.IsWhole) (arg3 : Memref sig .tc .vmem S100x456 .f32) (harg3 : arg3.IsWhole) (arg4 : Memref sig .tc .vmem S100x456 .f32) (harg4 : arg4.IsWhole) (hc0 : ¬cond3_0 i) (hc1 : cond3_1 i)
    (x0 : Vec F S1000x100 .f32) (x1 : Vec F S1000x456 .f32) (xs0 : Vec F S100x456 .f32) :
    out3_C c i arg1 harg1 arg2 harg2 arg3 harg3 arg4 harg4 hc0 hc1 x0 x1 xs0 = k3_pay2 x0 x1 xs0 := by
  unfold out3_C
  rw [View.read_writes_eq_canon _ _ _ (cover3_C c i arg1 harg1 arg2 harg2 arg3 harg3 arg4 harg4 hc0 hc1 x0 x1 xs0)]
  unfold kernelRun3_C
  dsimp only
  try sl_unfold_words
  rw [View.canon_unit_zero reg3_zeros2, View.readCov_unit_zero (S := S100x456) _ reg3_zeros2]
  simp only [View.readAt_eq_ld, harg1.read_unread, harg2.read_unread, harg4.read_unread, View.ld_unit_zero (S := S1000x100) reg3_zeros2, View.ld_unit_zero (S := S1000x456) reg3_zeros2, View.ld_unit_zero (S := S100x456) reg3_zeros2]

section Region3
variable (V : (c : Dev nD) → (b : Ref sig .tc) → Buf (Elt F) ((c : Thread nD τ).loc b))

def acc3 (c : Dev nD) (n : ℕ) (h : n < cfg3.N) : Vec F S100x456 .f32 := (outsAt3 V c n h).2

theorem acc3_zero (c : Dev nD) (h : 0 < cfg3.N) :
    acc3 V c 0 h = k3_pay2 (iblk3 V c 0 ⟨0, h⟩) (iblk3 V c 1 ⟨0, h⟩) (k3_pay1 (F := F)) := by
  unfold acc3
  rw [outsAt3_A V c ⟨0, h⟩ (Nat.zero_mod _) reg3_zero_mod_ne9]
  dsimp only
  unfold sout3A_at
  rw [sout3_A_eq]

theorem acc3_succ (c : Dev nD) (n : ℕ) (h : n + 1 < cfg3.N) :
    acc3 V c (n + 1) h = k3_pay2 (iblk3 V c 0 ⟨n + 1, h⟩) (iblk3 V c 1 ⟨n + 1, h⟩) (acc3 V c n (Nat.lt_of_succ_lt h)) := by
  have hN : n + 1 < 10 := lt_of_lt_of_eq h (show cfg3.N = 10 from N_3)
  have h0 : ¬(n + 1) % 10 = 0 := by omega
  unfold acc3
  by_cases h1 : (n + 1) % 10 = 9
  · rw [outsAt3_C V c ⟨n + 1, h⟩ h0 h1]
    dsimp only
    unfold sout3C_at
    rw [sout3_C_eq]
    rfl
  · rw [outsAt3_B V c ⟨n + 1, h⟩ h0 h1]
    dsimp only
    unfold sout3B_at
    rw [sout3_B_eq]
    rfl

theorem after3_2 (c : Dev nD) (t : Fin cfg3.N) (h9 : t.val % 10 = 9) : (dat3 V c).after 2 t = acc3 V c t.val t.isLt := by
  have hN : t.val < 10 := lt_of_lt_of_eq t.isLt (show cfg3.N = 10 from N_3)
  have h0 : ¬t.val % 10 = 0 := by omega
  rw [after3_2_outs]
  unfold acc3
  rw [outsAt3_C V c t h0 h9]
  dsimp only
  unfold out3C_at sout3C_at
  rw [out3_C_eq, sout3_C_eq]

end Region3

end Cert.KI

end
-- ==== Proof.KI.Assemble.lean ====
import proofs.«415211_j35837207118569_3_alg».proof.Defs
import proofs.«415211_j35837207118569_3_alg».proof.Proof.Gen.KernelIdeal
import proofs.«415211_j35837207118569_3_alg».proof.Proof.Gen.Pre_finite_inputs
import proofs.«415211_j35837207118569_3_alg».proof.Proof.Gen.KernelIdeal.Regions
import proofs.«415211_j35837207118569_3_alg».proof.Proof.KI.Reg0
import proofs.«415211_j35837207118569_3_alg».proof.Proof.KI.Reg1
import proofs.«415211_j35837207118569_3_alg».proof.Proof.KI.Reg2
import proofs.«415211_j35837207118569_3_alg».proof.Proof.KI.Reg3
import Idealize.ShloMosaic.Lib.Pipeline.RegionsLoop

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev VR (W : Dev nD → Valuation τ sig (Elt F)) : (c : Dev nD) → (b : Ref sig .tc) → Buf (Elt F) ((c : Thread nD τ).loc b) :=
  fun c b => W c b

def x5 (c : Dev nD) : Buf (Elt F) ((c : Thread nD τ).loc main_v5) := (dat0 (VR (V1 m)) c).arrAt 3 cfg0.N

def O1 : Outs (F := F) := fun _ r c => Function.update (fun r : Ref sig .tc => m ((c : Thread nD τ).loc r)) main_v5 (x5 m c) r

def x51 (c : Dev nD) : Buf (Elt F) ((c : Thread nD τ).loc main_v51) := (dat1 (VR (V5 m (O1 m))) c).arrAt 3 cfg1.N

def O2 : Outs (F := F) := fun J r c => Function.update (fun r : Ref sig .tc => O1 m J r c) main_v51 (x51 m c) r

def x97 (c : Dev nD) : Buf (Elt F) ((c : Thread nD τ).loc main_v97) := (dat2 (VR (V7 m (O2 m))) c).arrAt 5 cfg2.N

def O3 : Outs (F := F) := fun J r c => Function.update (fun r : Ref sig .tc => O2 m J r c) main_v97 (x97 m c) r

def x128 (c : Dev nD) : Buf (Elt F) ((c : Thread nD τ).loc main_v128) := (dat3 (VR (V9 m (O3 m))) c).arrAt 2 cfg3.N

def outs : Outs (F := F) := fun J r c => Function.update (fun r : Ref sig .tc => O3 m J r c) main_v128 (x128 m c) r

theorem outs_at_v5 (J : ℕ) (c : Dev nD) : outs m J main_v5 c = x5 m c := by
  unfold outs O3 O2 O1
  rw [Function.update_of_ne (by decide), Function.update_of_ne (by decide), Function.update_of_ne (by decide), Function.update_self]
theorem O1_at_v5 (J : ℕ) (c : Dev nD) : O1 m J main_v5 c = x5 m c := by
  unfold O1; rw [Function.update_self]
theorem outs_at_v51 (J : ℕ) (c : Dev nD) : outs m J main_v51 c = x51 m c := by
  unfold outs O3 O2
  rw [Function.update_of_ne (by decide), Function.update_of_ne (by decide), Function.update_self]
theorem O2_at_v5 (J : ℕ) (c : Dev nD) : O2 m J main_v5 c = x5 m c := by
  unfold O2; rw [Function.update_of_ne (by decide)]; exact O1_at_v5 m J c
theorem O2_at_v51 (J : ℕ) (c : Dev nD) : O2 m J main_v51 c = x51 m c := by
  unfold O2; rw [Function.update_self]
theorem outs_at_v97 (J : ℕ) (c : Dev nD) : outs m J main_v97 c = x97 m c := by
  unfold outs O3
  rw [Function.update_of_ne (by decide), Function.update_self]
theorem O3_at_v5 (J : ℕ) (c : Dev nD) : O3 m J main_v5 c = x5 m c := by
  unfold O3; rw [Function.update_of_ne (by decide)]; exact O2_at_v5 m J c
theorem O3_at_v51 (J : ℕ) (c : Dev nD) : O3 m J main_v51 c = x51 m c := by
  unfold O3; rw [Function.update_of_ne (by decide)]; exact O2_at_v51 m J c
theorem O3_at_v97 (J : ℕ) (c : Dev nD) : O3 m J main_v97 c = x97 m c := by
  unfold O3; rw [Function.update_self]
theorem outs_at_v128 (J : ℕ) (c : Dev nD) : outs m J main_v128 c = x128 m c := by
  unfold outs; rw [Function.update_self]

theorem V2_congr (o o' : Outs (F := F)) (c : Dev nD) (h2 : o 2 main_v5 c = o' 2 main_v5 c) : V2 m o c = V2 m o' c := by
  unfold V2; rw [h2]
theorem V5_congr (o o' : Outs (F := F)) (c : Dev nD) (h2 : o 2 main_v5 c = o' 2 main_v5 c) : V5 m o c = V5 m o' c := by
  unfold V5 V4 V3; rw [V2_congr m o o' c h2]
theorem V6_congr (o o' : Outs (F := F)) (c : Dev nD) (h2 : o 2 main_v5 c = o' 2 main_v5 c) (h6 : o 6 main_v51 c = o' 6 main_v51 c) :
    V6 m o c = V6 m o' c := by
  unfold V6; rw [V5_congr m o o' c h2, h6]
theorem V7_congr (o o' : Outs (F := F)) (c : Dev nD) (h2 : o 2 main_v5 c = o' 2 main_v5 c) (h6 : o 6 main_v51 c = o' 6 main_v51 c) :
    V7 m o c = V7 m o' c := by
  unfold V7; rw [V6_congr m o o' c h2 h6]
theorem V8_congr (o o' : Outs (F := F)) (c : Dev nD) (h2 : o 2 main_v5 c = o' 2 main_v5 c) (h6 : o 6 main_v51 c = o' 6 main_v51 c)
    (h8 : o 8 main_v97 c = o' 8 main_v97 c) : V8 m o c = V8 m o' c := by
  unfold V8; rw [V7_congr m o o' c h2 h6, h8]
theorem V9_congr (o o' : Outs (F := F)) (c : Dev nD) (h2 : o 2 main_v5 c = o' 2 main_v5 c) (h6 : o 6 main_v51 c = o' 6 main_v51 c)
    (h8 : o 8 main_v97 c = o' 8 main_v97 c) : V9 m o c = V9 m o' c := by
  unfold V9; rw [V8_congr m o o' c h2 h6 h8]

theorem V5_outs : V5 m (outs m) = V5 m (O1 m) :=
  funext fun c => V5_congr m _ _ c ((outs_at_v5 m 2 c).trans (O1_at_v5 m 2 c).symm)
theorem V7_outs : V7 m (outs m) = V7 m (O2 m) :=
  funext fun c => V7_congr m _ _ c ((outs_at_v5 m 2 c).trans (O2_at_v5 m 2 c).symm) ((outs_at_v51 m 6 c).trans (O2_at_v51 m 6 c).symm)
theorem V9_outs : V9 m (outs m) = V9 m (O3 m) :=
  funext fun c => V9_congr m _ _ c ((outs_at_v5 m 2 c).trans (O3_at_v5 m 2 c).symm) ((outs_at_v51 m 6 c).trans (O3_at_v51 m 6 c).symm)
    ((outs_at_v97 m 8 c).trans (O3_at_v97 m 8 c).symm)

theorem outs_v5 (c : Dev nD) : V2 m (outs m) c main_v5 = (dat0 (VR (V1 m)) c).arrAt 3 cfg0.N := by
  unfold V2; rw [Function.update_self, outs_at_v5]; rfl
theorem outs_v51 (c : Dev nD) : V6 m (outs m) c main_v51 = (dat1 (VR (V5 m (outs m))) c).arrAt 3 cfg1.N := by
  rw [V5_outs]; unfold V6; rw [Function.update_self, outs_at_v51]; rfl
theorem outs_v97 (c : Dev nD) : V8 m (outs m) c main_v97 = (dat2 (VR (V7 m (outs m))) c).arrAt 5 cfg2.N := by
  rw [V7_outs]; unfold V8; rw [Function.update_self, outs_at_v97]; rfl
theorem outs_v128 (c : Dev nD) : V10 m (outs m) c main_v128 = (dat3 (VR (V9 m (outs m))) c).arrAt 2 cfg3.N := by
  rw [V9_outs]; unfold V10; rw [Function.update_self, outs_at_v128]; rfl

def pdats : (p : Fin 4) → (c : Dev nD) → Dat τ (Elt F) Unit ℕ (UR sig nD τ) ℕ (cfgs p) c
  | ⟨0, _⟩ => fun c => dat0 (VR (V1 m)) c
  | ⟨1, _⟩ => fun c => dat1 (VR (V5 m (outs m))) c
  | ⟨2, _⟩ => fun c => dat2 (VR (V7 m (outs m))) c
  | ⟨3, _⟩ => fun c => dat3 (VR (V9 m (outs m))) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 5 → Dev nD → sProp 𝕄 := fun _ c => R c

set_option backward.isDefEq.respectTransparency.types false in
-- one record serves the four regions: they differ only in the contents held before and after
def regOf (p : Fin 4) (lf : Pipeline.LaunchFacts (nD := nD) (τ := τ) cfgs p) (Vi Vo : Dev nD → Valuation τ sig (Elt F))
    (hbody : ∀ c, Pipeline.BodyObligation (pdats m p c) (defs₀ (F := F)) Variants.none () Set.univ)
    (hq : ∀ c w, (pdats m p c).q w = fullShare) (howed : ∀ c t, (pdats m p c).owed t = 0)
    (hrec : ∀ c, (pdats m p c).recorded 0 = Set.univ)
    (hA : ∀ c w, (pdats m p c).A w = VR Vi c (Pipeline.arrRef (Pipeline.pin (pcfgs (F := F)) adm p).spec w))
    (hΦ0 : ∀ c, (pdats m p c).Φ 0 = Pipeline.ΦA (Pipeline.pin (pcfgs (F := F)) adm p).spec c)
    (hΦN : ∀ c, (pdats m p c).Φ (Fin.last _) ⊢ Pipeline.ΦA (Pipeline.pin (pcfgs (F := F)) adm p).spec c)
    (hK : (pcfgs (F := F) p).pre.K = 0)
    (hF : ∀ c w, (pdats m p c).arrAt w (Pipeline.pin (pcfgs (F := F)) adm p).N = VR Vo c (Pipeline.arrRef (Pipeline.pin (pcfgs (F := F)) adm p).spec w))
    (hrest : ∀ c b, b ∉ Finset.univ.image (Pipeline.arrRef (Pipeline.pin (pcfgs (F := F)) adm p).spec) → VR Vo c b = VR Vi c b) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (VR Vi c)
  hentry c := by
    haveI : IsEmpty (Fin (pcfgs (F := F) p).pre.K) := by rw [hK]; infer_instance
    rw [Pipeline.ownSems0_none]
    have hsplit := Pipeline.arrays_of_unscopedBufs (p := p) (pcfgs (F := F)) adm (pdats m) lf.win lf.arr_whole c
      ((pdats m p c).share_full (hq c)) (VR Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]
    · unfold Pipeline.Dat.owesAt Pipeline.owesWithin Pipeline.Dat.bound
      rw [hrec c, howed c 0]
      icases HO with ⟨%W, HO⟩; iexists W; isplitr; · ipureintro; exact fun _ _ => Or.inl trivial
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    refine (hΦN c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (VR Vi c) (VR Vo c) ((pdats m p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c _]
    icases HO with ⟨%W, -, HO⟩; iexists W; iexact HO

theorem hF0 (c : Dev nD) : ∀ w : Fin cfg0.W, (dat0 (VR (V1 m)) c).arrAt w cfg0.N = VR (V2 m (outs m)) c (Pipeline.arrRef spec0 w)
  | ⟨0, _⟩ => ((dat0 (VR (V1 m)) c).arrAt_in 0 rfl _).trans ((A_eq0 (VR (V1 m)) c 0).trans (V2_of m (outs m) c (Pipeline.arrRef spec0 0) (by decide)).symm)
  | ⟨1, _⟩ => ((dat0 (VR (V1 m)) c).arrAt_in 1 rfl _).trans ((A_eq0 (VR (V1 m)) c 1).trans (V2_of m (outs m) c (Pipeline.arrRef spec0 1) (by decide)).symm)
  | ⟨2, _⟩ => ((dat0 (VR (V1 m)) c).arrAt_in 2 rfl _).trans ((A_eq0 (VR (V1 m)) c 2).trans (V2_of m (outs m) c (Pipeline.arrRef spec0 2) (by decide)).symm)
  | ⟨3, _⟩ => (outs_v5 m c).symm
  | ⟨_ + 4, h⟩ => absurd h (Nat.not_lt.2 (Nat.le_add_left _ _))

theorem hrest0 (c : Dev nD) : ∀ b, b ∉ Finset.univ.image (Pipeline.arrRef spec0) → VR (V2 m (outs m)) c b = VR (V1 m) c b :=
  fun b hb => V2_of m (outs m) c b fun h => hb (by
    rw [List.mem_singleton.mp h]; exact Finset.mem_image.mpr ⟨3, Finset.mem_univ _, rfl⟩)

def reg0 : RegionSeg (pcfgs (F := F)) adm (pdats m) () defs₀ 𝒱₀ L lv 0 :=
  regOf m 0 launch0 (V1 m) (V2 m (outs m)) (body_obligation0 (VR (V1 m))) (fun _ _ => rfl) (fun _ _ => rfl) (fun _ => rfl)
    (A_eq0 (VR (V1 m))) (fun _ => rfl) (fun _ => .rfl) rfl (hF0 m) (hrest0 m)

theorem hF1 (c : Dev nD) : ∀ w : Fin cfg1.W, (dat1 (VR (V5 m (outs m))) c).arrAt w cfg1.N = VR (V6 m (outs m)) c (Pipeline.arrRef spec1 w)
  | ⟨0, _⟩ => ((dat1 (VR (V5 m (outs m))) c).arrAt_in 0 rfl _).trans ((A_eq1 (VR (V5 m (outs m))) c 0).trans (V6_of m (outs m) c (Pipeline.arrRef spec1 0) (by decide)).symm)
  | ⟨1, _⟩ => ((dat1 (VR (V5 m (outs m))) c).arrAt_in 1 rfl _).trans ((A_eq1 (VR (V5 m (outs m))) c 1).trans (V6_of m (outs m) c (Pipeline.arrRef spec1 1) (by decide)).symm)
  | ⟨2, _⟩ => ((dat1 (VR (V5 m (outs m))) c).arrAt_in 2 rfl _).trans ((A_eq1 (VR (V5 m (outs m))) c 2).trans (V6_of m (outs m) c (Pipeline.arrRef spec1 2) (by decide)).symm)
  | ⟨3, _⟩ => (outs_v51 m c).symm
  | ⟨_ + 4, h⟩ => absurd h (Nat.not_lt.2 (Nat.le_add_left _ _))

theorem hrest1 (c : Dev nD) : ∀ b, b ∉ Finset.univ.image (Pipeline.arrRef spec1) → VR (V6 m (outs m)) c b = VR (V5 m (outs m)) c b :=
  fun b hb => V6_of m (outs m) c b fun h => hb (by
    rw [List.mem_singleton.mp h]; exact Finset.mem_image.mpr ⟨3, Finset.mem_univ _, rfl⟩)

def reg1 : RegionSeg (pcfgs (F := F)) adm (pdats m) () defs₀ 𝒱₀ L lv 1 :=
  regOf m 1 launch1 (V5 m (outs m)) (V6 m (outs m)) (body_obligation1 (VR (V5 m (outs m)))) (fun _ _ => rfl) (fun _ _ => rfl) (fun _ => rfl)
    (A_eq1 (VR (V5 m (outs m)))) (fun _ => rfl) (fun _ => .rfl) rfl (hF1 m) (hrest1 m)

theorem hF2 (c : Dev nD) : ∀ w : Fin cfg2.W, (dat2 (VR (V7 m (outs m))) c).arrAt w cfg2.N = VR (V8 m (outs m)) c (Pipeline.arrRef spec2 w)
  | ⟨0, _⟩ => ((dat2 (VR (V7 m (outs m))) c).arrAt_in 0 rfl _).trans ((A_eq2 (VR (V7 m (outs m))) c 0).trans (V8_of m (outs m) c (Pipeline.arrRef spec2 0) (by decide)).symm)
  | ⟨1, _⟩ => ((dat2 (VR (V7 m (outs m))) c).arrAt_in 1 rfl _).trans ((A_eq2 (VR (V7 m (outs m))) c 1).trans (V8_of m (outs m) c (Pipeline.arrRef spec2 1) (by decide)).symm)
  | ⟨2, _⟩ => ((dat2 (VR (V7 m (outs m))) c).arrAt_in 2 rfl _).trans ((A_eq2 (VR (V7 m (outs m))) c 2).trans (V8_of m (outs m) c (Pipeline.arrRef spec2 2) (by decide)).symm)
  | ⟨3, _⟩ => ((dat2 (VR (V7 m (outs m))) c).arrAt_in 3 rfl _).trans ((A_eq2 (VR (V7 m (outs m))) c 3).trans (V8_of m (outs m) c (Pipeline.arrRef spec2 3) (by decide)).symm)
  | ⟨4, _⟩ => ((dat2 (VR (V7 m (outs m))) c).arrAt_in 4 rfl _).trans ((A_eq2 (VR (V7 m (outs m))) c 4).trans (V8_of m (outs m) c (Pipeline.arrRef spec2 4) (by decide)).symm)
  | ⟨5, _⟩ => (outs_v97 m c).symm
  | ⟨_ + 6, h⟩ => absurd h (Nat.not_lt.2 (Nat.le_add_left _ _))

theorem hrest2 (c : Dev nD) : ∀ b, b ∉ Finset.univ.image (Pipeline.arrRef spec2) → VR (V8 m (outs m)) c b = VR (V7 m (outs m)) c b :=
  fun b hb => V8_of m (outs m) c b fun h => hb (by
    rw [List.mem_singleton.mp h]; exact Finset.mem_image.mpr ⟨5, Finset.mem_univ _, rfl⟩)

def reg2 : RegionSeg (pcfgs (F := F)) adm (pdats m) () defs₀ 𝒱₀ L lv 2 :=
  regOf m 2 launch2 (V7 m (outs m)) (V8 m (outs m)) (body_obligation2 (VR (V7 m (outs m)))) (fun _ _ => rfl) (fun _ _ => rfl) (fun _ => rfl)
    (A_eq2 (VR (V7 m (outs m)))) (fun _ => rfl) (fun _ => .rfl) rfl (hF2 m) (hrest2 m)

theorem hF3 (c : Dev nD) : ∀ w : Fin cfg3.W, (dat3 (VR (V9 m (outs m))) c).arrAt w cfg3.N = VR (V10 m (outs m)) c (Pipeline.arrRef spec3 w)
  | ⟨0, _⟩ => ((dat3 (VR (V9 m (outs m))) c).arrAt_in 0 rfl _).trans ((A_eq3 (VR (V9 m (outs m))) c 0).trans (V10_of m (outs m) c (Pipeline.arrRef spec3 0) (by decide)).symm)
  | ⟨1, _⟩ => ((dat3 (VR (V9 m (outs m))) c).arrAt_in 1 rfl _).trans ((A_eq3 (VR (V9 m (outs m))) c 1).trans (V10_of m (outs m) c (Pipeline.arrRef spec3 1) (by decide)).symm)
  | ⟨2, _⟩ => (outs_v128 m c).symm
  | ⟨_ + 3, h⟩ => absurd h (Nat.not_lt.2 (Nat.le_add_left _ _))

theorem hrest3 (c : Dev nD) : ∀ b, b ∉ Finset.univ.image (Pipeline.arrRef spec3) → VR (V10 m (outs m)) c b = VR (V9 m (outs m)) c b :=
  fun b hb => V10_of m (outs m) c b fun h => hb (by
    rw [List.mem_singleton.mp h]; exact Finset.mem_image.mpr ⟨2, Finset.mem_univ _, rfl⟩)

def reg3 : RegionSeg (pcfgs (F := F)) adm (pdats m) () defs₀ 𝒱₀ L lv 3 :=
  regOf m 3 launch3 (V9 m (outs m)) (V10 m (outs m)) (body_obligation3 (VR (V9 m (outs m)))) (q_eq3 (VR (V9 m (outs m)))) (owed_eq3 (VR (V9 m (outs m)))) (fun c => recorded_eq3 (VR (V9 m (outs m))) c 0)
    (A_eq3 (VR (V9 m (outs m)))) (phi3_first (VR (V9 m (outs m)))) (phi3_last (VR (V9 m (outs m)))) rfl (hF3 m) (hrest3 m)

theorem hu₀ : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE4 (c : Dev nD) : E (F := F) 4 c ⊢ (iprop(∃ W, owes (c : Thread nD τ) (0 : CellTallies nD τ sig Unit) W) : sProp 𝕄) := by
  iintro ⟨-, H⟩; iexact H

theorem frame : @Cert.frame_KernelIdeal Cert.KernelIdeal.Gen.facts Cert.Pre_finite_inputs.Gen.facts := fun m ρ _ =>
  frame_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ) hE4
    (reg0 m) (fun _ => .rfl) (fun _ => .rfl) (reg1 m) (fun _ => .rfl) (fun _ => .rfl)
    (reg2 m) (fun _ => .rfl) (fun _ => .rfl) (reg3 m) (fun _ => .rfl) (fun _ => .rfl)

end Cert.KI

end
-- ==== Proof.RI.Ops.lean ====
import proofs.«415211_j35837207118569_3_alg».proof.Proof.Gen.ReferenceIdeal
import Idealize.ShloMosaic.Lib.StableHlo.Run

set_option maxRecDepth 8192

noncomputable section

namespace Cert.RI

open Cert.ReferenceIdeal Cert.ReferenceIdeal.Gen Idealize.ShloMosaic Idealize.ShloMosaic.TcCoe Idealize.SL.Sem

variable {F : FTy → Type} [FloatOps F]

abbrev ropsA : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000 ]
theorem ropsA_sub : (ropsA : List (HloOp τ sig (Elt F))).Forall fun op => op.bufs ⊆ StableHlo.tcRefs τ sig := by
  simp only [List.Forall]
  repeat' apply And.intro
  all_goals simp only [StableHlo.nullary_bufs_sub, StableHlo.unary_bufs_sub, StableHlo.binary_bufs_sub, StableHlo.ternary_bufs_sub, StableHlo.reshape_bufs_sub]
theorem ropsA_fresh : (ropsA : List (HloOp τ sig (Elt F))).Forall fun op => op.fresh = ∅ := by
  simp only [List.Forall]; repeat' constructor
abbrev ropsA_W : List (Ref sig .tc) := [main_v0, main_v1, main_v2, main_v3]
theorem ropsA_writes : (ropsA : List (HloOp τ sig (Elt F))).Forall fun op => op.writes ⊆ (ropsA_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

abbrev ropsB : List (HloOp τ sig (Elt F)) :=
  [ StableHlo.binary main_arg0 main_arg3 main_v4 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)) ]
theorem ropsB_sub : (ropsB : List (HloOp τ sig (Elt F))).Forall fun op => op.bufs ⊆ StableHlo.tcRefs τ sig := by
  simp only [List.Forall]
  repeat' apply And.intro
  all_goals simp only [StableHlo.nullary_bufs_sub, StableHlo.unary_bufs_sub, StableHlo.binary_bufs_sub, StableHlo.ternary_bufs_sub, StableHlo.reshape_bufs_sub]
theorem ropsB_fresh : (ropsB : List (HloOp τ sig (Elt F))).Forall fun op => op.fresh = ∅ := by
  simp only [List.Forall]; repeat' constructor
abbrev ropsB_W : List (Ref sig .tc) := [main_v4]
theorem ropsB_writes : (ropsB : List (HloOp τ sig (Elt F))).Forall fun op => op.writes ⊆ (ropsB_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

abbrev ropsC : List (HloOp τ sig (Elt F)) :=
  ( StableHlo.nullary main_cst (constant S_ .f32 0x00000000#32)
  :: StableHlo.unary main_cst main_v5 (broadcastInDim S10000 ![] bcast_S_S10000 : (⟨S_, .f32⟩ : BufTy).Contents (Elt F) → (⟨S10000, .f32⟩ : BufTy).Contents (Elt F))
  :: StableHlo.unary main_v3 main_v6 (broadcastInDim S320000x1 ![0] bcast_S320000_S320000x1_0 : (⟨S320000, .i32⟩ : BufTy).Contents (Elt F) → (⟨S320000x1, .i32⟩ : BufTy).Contents (Elt F))
  :: StableHlo.ternary main_v5 main_v6 main_arg2 main_v7 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F))
  :: StableHlo.nullary main_cst_0 (constant S_ .f32 0x3F800000#32)
  :: StableHlo.unary main_cst_0 main_v8 (broadcastInDim S10000 ![] bcast_S_S10000 : (⟨S_, .f32⟩ : BufTy).Contents (Elt F) → (⟨S10000, .f32⟩ : BufTy).Contents (Elt F))
  :: StableHlo.binary main_v7 main_v8 main_v9 (addf : (⟨S10000, .f32⟩ : BufTy).Contents (Elt F) → (⟨S10000, .f32⟩ : BufTy).Contents (Elt F) → (⟨S10000, .f32⟩ : BufTy).Contents (Elt F))
  :: StableHlo.unary main_v9 main_v10 (Host.rsqrt : (⟨S10000, .f32⟩ : BufTy).Contents (Elt F) → (⟨S10000, .f32⟩ : BufTy).Contents (Elt F))
  :: StableHlo.nullary main_c (constantI S_ 32 0#32)
  :: StableHlo.unary main_c main_v11 (broadcastInDim S320000 ![] bcast_S_S320000 : (⟨S_, .i32⟩ : BufTy).Contents (Elt F) → (⟨S320000, .i32⟩ : BufTy).Contents (Elt F))
  :: StableHlo.binary main_v1 main_v11 main_v12 (cmpi .slt : (⟨S320000, .i32⟩ : BufTy).Contents (Elt F) → (⟨S320000, .i32⟩ : BufTy).Contents (Elt F) → (⟨S320000, .i1⟩ : BufTy).Contents (Elt F))
  :: StableHlo.nullary main_c_1 (constantI S_ 32 10000#32)
  :: StableHlo.unary main_c_1 main_v13 (broadcastInDim S320000 ![] bcast_S_S320000 : (⟨S_, .i32⟩ : BufTy).Contents (Elt F) → (⟨S320000, .i32⟩ : BufTy).Contents (Elt F))
  :: StableHlo.binary main_v1 main_v13 main_v14 (addi : (⟨S320000, .i32⟩ : BufTy).Contents (Elt F) → (⟨S320000, .i32⟩ : BufTy).Contents (Elt F) → (⟨S320000, .i32⟩ : BufTy).Contents (Elt F))
  :: StableHlo.ternary main_v12 main_v14 main_v1 main_v15 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: StableHlo.unary main_v15 main_v16 (broadcastInDim S320000x1 ![0] bcast_S320000_S320000x1_0 : (⟨S320000, .i32⟩ : BufTy).Contents (Elt F) → (⟨S320000x1, .i32⟩ : BufTy).Contents (Elt F))
  :: StableHlo.binary main_v10 main_v16 main_v17 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F))
  :: StableHlo.binary main_v17 main_arg2 main_v18 (mulf : (⟨S320000, .f32⟩ : BufTy).Contents (Elt F) → (⟨S320000, .f32⟩ : BufTy).Contents (Elt F) → (⟨S320000, .f32⟩ : BufTy).Contents (Elt F))
  :: StableHlo.nullary main_c_2 (constantI S_ 32 0#32)
  :: StableHlo.unary main_c_2 main_v19 (broadcastInDim S320000 ![] bcast_S_S320000 : (⟨S_, .i32⟩ : BufTy).Contents (Elt F) → (⟨S320000, .i32⟩ : BufTy).Contents (Elt F))
  :: StableHlo.binary main_v3 main_v19 main_v20 (cmpi .slt : (⟨S320000, .i32⟩ : BufTy).Contents (Elt F) → (⟨S320000, .i32⟩ : BufTy).Contents (Elt F) → (⟨S320000, .i1⟩ : BufTy).Contents (Elt F))
  :: StableHlo.nullary main_c_3 (constantI S_ 32 10000#32)
  :: StableHlo.unary main_c_3 main_v21 (broadcastInDim S320000 ![] bcast_S_S320000 : (⟨S_, .i32⟩ : BufTy).Contents (Elt F) → (⟨S320000, .i32⟩ : BufTy).Contents (Elt F))
  :: StableHlo.binary main_v3 main_v21 main_v22 (addi : (⟨S320000, .i32⟩ : BufTy).Contents (Elt F) → (⟨S320000, .i32⟩ : BufTy).Contents (Elt F) → (⟨S320000, .i32⟩ : BufTy).Contents (Elt F))
  :: StableHlo.ternary main_v20 main_v22 main_v3 main_v23 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: StableHlo.unary main_v23 main_v24 (broadcastInDim S320000x1 ![0] bcast_S320000_S320000x1_0 : (⟨S320000, .i32⟩ : BufTy).Contents (Elt F) → (⟨S320000x1, .i32⟩ : BufTy).Contents (Elt F))
  :: StableHlo.binary main_v10 main_v24 main_v25 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F))
  :: StableHlo.binary main_v18 main_v25 main_v26 (mulf : (⟨S320000, .f32⟩ : BufTy).Contents (Elt F) → (⟨S320000, .f32⟩ : BufTy).Contents (Elt F) → (⟨S320000, .f32⟩ : BufTy).Contents (Elt F))
  :: StableHlo.unary main_v26 main_v27 (broadcastInDim S320000x1 ![0] bcast_S320000_S320000x1_0 : (⟨S320000, .f32⟩ : BufTy).Contents (Elt F) → (⟨S320000x1, .f32⟩ : BufTy).Contents (Elt F))
  :: StableHlo.nullary main_c_4 (constantI S_ 32 0#32)
  :: StableHlo.unary main_c_4 main_v28 (broadcastInDim S320000 ![] bcast_S_S320000 : (⟨S_, .i32⟩ : BufTy).Contents (Elt F) → (⟨S320000, .i32⟩ : BufTy).Contents (Elt F))
  :: StableHlo.binary main_v1 main_v28 main_v29 (cmpi .slt : (⟨S320000, .i32⟩ : BufTy).Contents (Elt F) → (⟨S320000, .i32⟩ : BufTy).Contents (Elt F) → (⟨S320000, .i1⟩ : BufTy).Contents (Elt F))
  :: StableHlo.nullary main_c_5 (constantI S_ 32 10000#32)
  :: StableHlo.unary main_c_5 main_v30 (broadcastInDim S320000 ![] bcast_S_S320000 : (⟨S_, .i32⟩ : BufTy).Contents (Elt F) → (⟨S320000, .i32⟩ : BufTy).Contents (Elt F))
  :: StableHlo.binary main_v1 main_v30 main_v31 (addi : (⟨S320000, .i32⟩ : BufTy).Contents (Elt F) → (⟨S320000, .i32⟩ : BufTy).Contents (Elt F) → (⟨S320000, .i32⟩ : BufTy).Contents (Elt F))
  :: StableHlo.ternary main_v29 main_v31 main_v1 main_v32 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: StableHlo.unary main_v32 main_v33 (broadcastInDim S320000x1 ![0] bcast_S320000_S320000x1_0 : (⟨S320000, .i32⟩ : BufTy).Contents (Elt F) → (⟨S320000x1, .i32⟩ : BufTy).Contents (Elt F))
  :: StableHlo.binary main_v4 main_v33 main_v34 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F))
  :: StableHlo.unary main_v27 main_v35 (broadcastInDim S320000x256 ![0, 1] bcast_S320000x1_S320000x256_0_1 : (⟨S320000x1, .f32⟩ : BufTy).Contents (Elt F) → (⟨S320000x256, .f32⟩ : BufTy).Contents (Elt F))
  :: StableHlo.binary main_v35 main_v34 main_v36 (mulf : (⟨S320000x256, .f32⟩ : BufTy).Contents (Elt F) → (⟨S320000x256, .f32⟩ : BufTy).Contents (Elt F) → (⟨S320000x256, .f32⟩ : BufTy).Contents (Elt F))
  :: StableHlo.nullary main_cst_6 (constant S_ .f32 0x00000000#32)
  :: StableHlo.unary main_cst_6 main_v37 (broadcastInDim S10000x256 ![] bcast_S_S10000x256 : (⟨S_, .f32⟩ : BufTy).Contents (Elt F) → (⟨S10000x256, .f32⟩ : BufTy).Contents (Elt F))
  :: StableHlo.unary main_v3 main_v38 (broadcastInDim S320000x1 ![0] bcast_S320000_S320000x1_0 : (⟨S320000, .i32⟩ : BufTy).Contents (Elt F) → (⟨S320000x1, .i32⟩ : BufTy).Contents (Elt F))
  :: StableHlo.ternary main_v37 main_v38 main_v36 main_v39 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F))
  :: StableHlo.binary main_v10 main_v10 main_v40 (mulf : (⟨S10000, .f32⟩ : BufTy).Contents (Elt F) → (⟨S10000, .f32⟩ : BufTy).Contents (Elt F) → (⟨S10000, .f32⟩ : BufTy).Contents (Elt F))
  :: StableHlo.unary main_v40 main_v41 (broadcastInDim S10000x1 ![0] bcast_S10000_S10000x1_0 : (⟨S10000, .f32⟩ : BufTy).Contents (Elt F) → (⟨S10000x1, .f32⟩ : BufTy).Contents (Elt F))
  :: StableHlo.unary main_v41 main_v42 (broadcastInDim S10000x256 ![0, 1] bcast_S10000x1_S10000x256_0_1 : (⟨S10000x1, .f32⟩ : BufTy).Contents (Elt F) → (⟨S10000x256, .f32⟩ : BufTy).Contents (Elt F))
  :: StableHlo.binary main_v42 main_v4 main_v43 (mulf : (⟨S10000x256, .f32⟩ : BufTy).Contents (Elt F) → (⟨S10000x256, .f32⟩ : BufTy).Contents (Elt F) → (⟨S10000x256, .f32⟩ : BufTy).Contents (Elt F))
  :: StableHlo.binary main_v39 main_v43 main_v44 (addf : (⟨S10000x256, .f32⟩ : BufTy).Contents (Elt F) → (⟨S10000x256, .f32⟩ : BufTy).Contents (Elt F) → (⟨S10000x256, .f32⟩ : BufTy).Contents (Elt F))
  :: StableHlo.unary main_arg4 main_v45 (broadcastInDim S1x256 ![1] bcast_S256_S1x256_1 : (⟨S256, .f32⟩ : BufTy).Contents (Elt F) → (⟨S1x256, .f32⟩ : BufTy).Contents (Elt F))
  :: StableHlo.unary main_v45 main_v46 (broadcastInDim S10000x256 ![0, 1] bcast_S1x256_S10000x256_0_1 : (⟨S1x256, .f32⟩ : BufTy).Contents (Elt F) → (⟨S10000x256, .f32⟩ : BufTy).Contents (Elt F))
  :: StableHlo.binary main_v44 main_v46 main_v47 (addf : (⟨S10000x256, .f32⟩ : BufTy).Contents (Elt F) → (⟨S10000x256, .f32⟩ : BufTy).Contents (Elt F) → (⟨S10000x256, .f32⟩ : BufTy).Contents (Elt F))
  :: StableHlo.nullary main_call0_cst (constant S_ .f32 0x00000000#32)
  :: StableHlo.unary main_call0_cst main_call0_v0 ((broadcastInDim S10000x256 ![] bcast_S_S10000x256) : (⟨S_, .f32⟩ : BufTy).Contents (Elt F) → (⟨S10000x256, .f32⟩ : BufTy).Contents (Elt F))
  :: StableHlo.binary main_v47 main_call0_v0 main_v48 (maximumf : (⟨S10000x256, .f32⟩ : BufTy).Contents (Elt F) → (⟨S10000x256, .f32⟩ : BufTy).Contents (Elt F) → (⟨S10000x256, .f32⟩ : BufTy).Contents (Elt F))
  :: [] )
theorem ropsC_sub : (ropsC : List (HloOp τ sig (Elt F))).Forall fun op => op.bufs ⊆ StableHlo.tcRefs τ sig := by
  simp only [List.Forall]
  repeat' apply And.intro
  all_goals simp only [StableHlo.nullary_bufs_sub, StableHlo.unary_bufs_sub, StableHlo.binary_bufs_sub, StableHlo.ternary_bufs_sub, StableHlo.reshape_bufs_sub]
theorem ropsC_fresh : (ropsC : List (HloOp τ sig (Elt F))).Forall fun op => op.fresh = ∅ := by
  simp only [List.Forall]; repeat' constructor
abbrev ropsC_W : List (Ref sig .tc) := [main_cst, main_v5, main_v6, main_v7, main_cst_0, main_v8, main_v9, main_v10, main_c, main_v11, main_v12, main_c_1, main_v13, main_v14, main_v15, main_v16, main_v17, main_v18, main_c_2, main_v19, main_v20, main_c_3, main_v21, main_v22, main_v23, main_v24, main_v25, main_v26, main_v27, main_c_4, main_v28, main_v29, main_c_5, main_v30, main_v31, main_v32, main_v33, main_v34, main_v35, main_v36, main_cst_6, main_v37, main_v38, main_v39, main_v40, main_v41, main_v42, main_v43, main_v44, main_v45, main_v46, main_v47, main_call0_cst, main_call0_v0, main_v48]
theorem ropsC_writes : (ropsC : List (HloOp τ sig (Elt F))).Forall fun op => op.writes ⊆ (ropsC_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

abbrev ropsD : List (HloOp τ sig (Elt F)) :=
  [ StableHlo.binary main_v48 main_arg5 main_v49 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) ]
theorem ropsD_sub : (ropsD : List (HloOp τ sig (Elt F))).Forall fun op => op.bufs ⊆ StableHlo.tcRefs τ sig := by
  simp only [List.Forall]
  repeat' apply And.intro
  all_goals simp only [StableHlo.nullary_bufs_sub, StableHlo.unary_bufs_sub, StableHlo.binary_bufs_sub, StableHlo.ternary_bufs_sub, StableHlo.reshape_bufs_sub]
theorem ropsD_fresh : (ropsD : List (HloOp τ sig (Elt F))).Forall fun op => op.fresh = ∅ := by
  simp only [List.Forall]; repeat' constructor
abbrev ropsD_W : List (Ref sig .tc) := [main_v49]
theorem ropsD_writes : (ropsD : List (HloOp τ sig (Elt F))).Forall fun op => op.writes ⊆ (ropsD_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

abbrev ropsE_0 : List (HloOp τ sig (Elt F)) :=
  [ StableHlo.nullary main_cst_7 (constant S_ .f32 0x00000000#32) ]
theorem ropsE_0_sub : (ropsE_0 : List (HloOp τ sig (Elt F))).Forall fun op => op.bufs ⊆ StableHlo.tcRefs τ sig := by
  simp only [List.Forall]
  repeat' apply And.intro
  all_goals simp only [StableHlo.nullary_bufs_sub, StableHlo.unary_bufs_sub, StableHlo.binary_bufs_sub, StableHlo.ternary_bufs_sub, StableHlo.reshape_bufs_sub]
theorem ropsE_0_fresh : (ropsE_0 : List (HloOp τ sig (Elt F))).Forall fun op => op.fresh = ∅ := by
  simp only [List.Forall]; repeat' constructor
abbrev ropsE_0_W : List (Ref sig .tc) := [main_cst_7]
theorem ropsE_0_writes : (ropsE_0 : List (HloOp τ sig (Elt F))).Forall fun op => op.writes ⊆ (ropsE_0_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

abbrev ropsE_1 : List (HloOp τ sig (Elt F)) :=
  ( StableHlo.unary main_cst_7 main_v50 (broadcastInDim S10000 ![] bcast_S_S10000 : (⟨S_, .f32⟩ : BufTy).Contents (Elt F) → (⟨S10000, .f32⟩ : BufTy).Contents (Elt F))
  :: StableHlo.unary main_v3 main_v51 (broadcastInDim S320000x1 ![0] bcast_S320000_S320000x1_0 : (⟨S320000, .i32⟩ : BufTy).Contents (Elt F) → (⟨S320000x1, .i32⟩ : BufTy).Contents (Elt F))
  :: StableHlo.ternary main_v50 main_v51 main_arg2 main_v52 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F))
  :: StableHlo.nullary main_cst_8 (constant S_ .f32 0x3F800000#32)
  :: StableHlo.unary main_cst_8 main_v53 (broadcastInDim S10000 ![] bcast_S_S10000 : (⟨S_, .f32⟩ : BufTy).Contents (Elt F) → (⟨S10000, .f32⟩ : BufTy).Contents (Elt F))
  :: StableHlo.binary main_v52 main_v53 main_v54 (addf : (⟨S10000, .f32⟩ : BufTy).Contents (Elt F) → (⟨S10000, .f32⟩ : BufTy).Contents (Elt F) → (⟨S10000, .f32⟩ : BufTy).Contents (Elt F))
  :: StableHlo.unary main_v54 main_v55 (Host.rsqrt : (⟨S10000, .f32⟩ : BufTy).Contents (Elt F) → (⟨S10000, .f32⟩ : BufTy).Contents (Elt F))
  :: StableHlo.nullary main_c_9 (constantI S_ 32 0#32)
  :: StableHlo.unary main_c_9 main_v56 (broadcastInDim S320000 ![] bcast_S_S320000 : (⟨S_, .i32⟩ : BufTy).Contents (Elt F) → (⟨S320000, .i32⟩ : BufTy).Contents (Elt F))
  :: StableHlo.binary main_v1 main_v56 main_v57 (cmpi .slt : (⟨S320000, .i32⟩ : BufTy).Contents (Elt F) → (⟨S320000, .i32⟩ : BufTy).Contents (Elt F) → (⟨S320000, .i1⟩ : BufTy).Contents (Elt F))
  :: StableHlo.nullary main_c_10 (constantI S_ 32 10000#32)
  :: StableHlo.unary main_c_10 main_v58 (broadcastInDim S320000 ![] bcast_S_S320000 : (⟨S_, .i32⟩ : BufTy).Contents (Elt F) → (⟨S320000, .i32⟩ : BufTy).Contents (Elt F))
  :: StableHlo.binary main_v1 main_v58 main_v59 (addi : (⟨S320000, .i32⟩ : BufTy).Contents (Elt F) → (⟨S320000, .i32⟩ : BufTy).Contents (Elt F) → (⟨S320000, .i32⟩ : BufTy).Contents (Elt F))
  :: StableHlo.ternary main_v57 main_v59 main_v1 main_v60 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: StableHlo.unary main_v60 main_v61 (broadcastInDim S320000x1 ![0] bcast_S320000_S320000x1_0 : (⟨S320000, .i32⟩ : BufTy).Contents (Elt F) → (⟨S320000x1, .i32⟩ : BufTy).Contents (Elt F))
  :: StableHlo.binary main_v55 main_v61 main_v62 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F))
  :: StableHlo.binary main_v62 main_arg2 main_v63 (mulf : (⟨S320000, .f32⟩ : BufTy).Contents (Elt F) → (⟨S320000, .f32⟩ : BufTy).Contents (Elt F) → (⟨S320000, .f32⟩ : BufTy).Contents (Elt F))
  :: StableHlo.nullary main_c_11 (constantI S_ 32 0#32)
  :: StableHlo.unary main_c_11 main_v64 (broadcastInDim S320000 ![] bcast_S_S320000 : (⟨S_, .i32⟩ : BufTy).Contents (Elt F) → (⟨S320000, .i32⟩ : BufTy).Contents (Elt F))
  :: StableHlo.binary main_v3 main_v64 main_v65 (cmpi .slt : (⟨S320000, .i32⟩ : BufTy).Contents (Elt F) → (⟨S320000, .i32⟩ : BufTy).Contents (Elt F) → (⟨S320000, .i1⟩ : BufTy).Contents (Elt F))
  :: StableHlo.nullary main_c_12 (constantI S_ 32 10000#32)
  :: StableHlo.unary main_c_12 main_v66 (broadcastInDim S320000 ![] bcast_S_S320000 : (⟨S_, .i32⟩ : BufTy).Contents (Elt F) → (⟨S320000, .i32⟩ : BufTy).Contents (Elt F))
  :: StableHlo.binary main_v3 main_v66 main_v67 (addi : (⟨S320000, .i32⟩ : BufTy).Contents (Elt F) → (⟨S320000, .i32⟩ : BufTy).Contents (Elt F) → (⟨S320000, .i32⟩ : BufTy).Contents (Elt F))
  :: StableHlo.ternary main_v65 main_v67 main_v3 main_v68 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: StableHlo.unary main_v68 main_v69 (broadcastInDim S320000x1 ![0] bcast_S320000_S320000x1_0 : (⟨S320000, .i32⟩ : BufTy).Contents (Elt F) → (⟨S320000x1, .i32⟩ : BufTy).Contents (Elt F))
  :: StableHlo.binary main_v55 main_v69 main_v70 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F))
  :: StableHlo.binary main_v63 main_v70 main_v71 (mulf : (⟨S320000, .f32⟩ : BufTy).Contents (Elt F) → (⟨S320000, .f32⟩ : BufTy).Contents (Elt F) → (⟨S320000, .f32⟩ : BufTy).Contents (Elt F))
  :: StableHlo.unary main_v71 main_v72 (broadcastInDim S320000x1 ![0] bcast_S320000_S320000x1_0 : (⟨S320000, .f32⟩ : BufTy).Contents (Elt F) → (⟨S320000x1, .f32⟩ : BufTy).Contents (Elt F))
  :: StableHlo.nullary main_c_13 (constantI S_ 32 0#32)
  :: StableHlo.unary main_c_13 main_v73 (broadcastInDim S320000 ![] bcast_S_S320000 : (⟨S_, .i32⟩ : BufTy).Contents (Elt F) → (⟨S320000, .i32⟩ : BufTy).Contents (Elt F))
  :: StableHlo.binary main_v1 main_v73 main_v74 (cmpi .slt : (⟨S320000, .i32⟩ : BufTy).Contents (Elt F) → (⟨S320000, .i32⟩ : BufTy).Contents (Elt F) → (⟨S320000, .i1⟩ : BufTy).Contents (Elt F))
  :: StableHlo.nullary main_c_14 (constantI S_ 32 10000#32)
  :: StableHlo.unary main_c_14 main_v75 (broadcastInDim S320000 ![] bcast_S_S320000 : (⟨S_, .i32⟩ : BufTy).Contents (Elt F) → (⟨S320000, .i32⟩ : BufTy).Contents (Elt F))
  :: StableHlo.binary main_v1 main_v75 main_v76 (addi : (⟨S320000, .i32⟩ : BufTy).Contents (Elt F) → (⟨S320000, .i32⟩ : BufTy).Contents (Elt F) → (⟨S320000, .i32⟩ : BufTy).Contents (Elt F))
  :: StableHlo.ternary main_v74 main_v76 main_v1 main_v77 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: StableHlo.unary main_v77 main_v78 (broadcastInDim S320000x1 ![0] bcast_S320000_S320000x1_0 : (⟨S320000, .i32⟩ : BufTy).Contents (Elt F) → (⟨S320000x1, .i32⟩ : BufTy).Contents (Elt F))
  :: StableHlo.binary main_v49 main_v78 main_v79 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F))
  :: StableHlo.unary main_v72 main_v80 (broadcastInDim S320000x256 ![0, 1] bcast_S320000x1_S320000x256_0_1 : (⟨S320000x1, .f32⟩ : BufTy).Contents (Elt F) → (⟨S320000x256, .f32⟩ : BufTy).Contents (Elt F))
  :: StableHlo.binary main_v80 main_v79 main_v81 (mulf : (⟨S320000x256, .f32⟩ : BufTy).Contents (Elt F) → (⟨S320000x256, .f32⟩ : BufTy).Contents (Elt F) → (⟨S320000x256, .f32⟩ : BufTy).Contents (Elt F))
  :: StableHlo.nullary main_cst_15 (constant S_ .f32 0x00000000#32)
  :: StableHlo.unary main_cst_15 main_v82 (broadcastInDim S10000x256 ![] bcast_S_S10000x256 : (⟨S_, .f32⟩ : BufTy).Contents (Elt F) → (⟨S10000x256, .f32⟩ : BufTy).Contents (Elt F))
  :: StableHlo.unary main_v3 main_v83 (broadcastInDim S320000x1 ![0] bcast_S320000_S320000x1_0 : (⟨S320000, .i32⟩ : BufTy).Contents (Elt F) → (⟨S320000x1, .i32⟩ : BufTy).Contents (Elt F))
  :: StableHlo.ternary main_v82 main_v83 main_v81 main_v84 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F))
  :: StableHlo.binary main_v55 main_v55 main_v85 (mulf : (⟨S10000, .f32⟩ : BufTy).Contents (Elt F) → (⟨S10000, .f32⟩ : BufTy).Contents (Elt F) → (⟨S10000, .f32⟩ : BufTy).Contents (Elt F))
  :: StableHlo.unary main_v85 main_v86 (broadcastInDim S10000x1 ![0] bcast_S10000_S10000x1_0 : (⟨S10000, .f32⟩ : BufTy).Contents (Elt F) → (⟨S10000x1, .f32⟩ : BufTy).Contents (Elt F))
  :: StableHlo.unary main_v86 main_v87 (broadcastInDim S10000x256 ![0, 1] bcast_S10000x1_S10000x256_0_1 : (⟨S10000x1, .f32⟩ : BufTy).Contents (Elt F) → (⟨S10000x256, .f32⟩ : BufTy).Contents (Elt F))
  :: StableHlo.binary main_v87 main_v49 main_v88 (mulf : (⟨S10000x256, .f32⟩ : BufTy).Contents (Elt F) → (⟨S10000x256, .f32⟩ : BufTy).Contents (Elt F) → (⟨S10000x256, .f32⟩ : BufTy).Contents (Elt F))
  :: StableHlo.binary main_v84 main_v88 main_v89 (addf : (⟨S10000x256, .f32⟩ : BufTy).Contents (Elt F) → (⟨S10000x256, .f32⟩ : BufTy).Contents (Elt F) → (⟨S10000x256, .f32⟩ : BufTy).Contents (Elt F))
  :: StableHlo.unary main_arg6 main_v90 (broadcastInDim S1x256 ![1] bcast_S256_S1x256_1 : (⟨S256, .f32⟩ : BufTy).Contents (Elt F) → (⟨S1x256, .f32⟩ : BufTy).Contents (Elt F))
  :: StableHlo.unary main_v90 main_v91 (broadcastInDim S10000x256 ![0, 1] bcast_S1x256_S10000x256_0_1 : (⟨S1x256, .f32⟩ : BufTy).Contents (Elt F) → (⟨S10000x256, .f32⟩ : BufTy).Contents (Elt F))
  :: StableHlo.binary main_v89 main_v91 main_v92 (addf : (⟨S10000x256, .f32⟩ : BufTy).Contents (Elt F) → (⟨S10000x256, .f32⟩ : BufTy).Contents (Elt F) → (⟨S10000x256, .f32⟩ : BufTy).Contents (Elt F))
  :: [] )
theorem ropsE_1_sub : (ropsE_1 : List (HloOp τ sig (Elt F))).Forall fun op => op.bufs ⊆ StableHlo.tcRefs τ sig := by
  simp only [List.Forall]
  repeat' apply And.intro
  all_goals simp only [StableHlo.nullary_bufs_sub, StableHlo.unary_bufs_sub, StableHlo.binary_bufs_sub, StableHlo.ternary_bufs_sub, StableHlo.reshape_bufs_sub]
theorem ropsE_1_fresh : (ropsE_1 : List (HloOp τ sig (Elt F))).Forall fun op => op.fresh = ∅ := by
  simp only [List.Forall]; repeat' constructor
abbrev ropsE_1_W : List (Ref sig .tc) := [main_v50, main_v51, main_v52, main_cst_8, main_v53, main_v54, main_v55, main_c_9, main_v56, main_v57, main_c_10, main_v58, main_v59, main_v60, main_v61, main_v62, main_v63, main_c_11, main_v64, main_v65, main_c_12, main_v66, main_v67, main_v68, main_v69, main_v70, main_v71, main_v72, main_c_13, main_v73, main_v74, main_c_14, main_v75, main_v76, main_v77, main_v78, main_v79, main_v80, main_v81, main_cst_15, main_v82, main_v83, main_v84, main_v85, main_v86, main_v87, main_v88, main_v89, main_v90, main_v91, main_v92]
theorem ropsE_1_writes : (ropsE_1 : List (HloOp τ sig (Elt F))).Forall fun op => op.writes ⊆ (ropsE_1_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

abbrev ropsF : List (HloOp τ sig (Elt F)) :=
  ( StableHlo.binary main_v92 main_arg7 main_v93 ((fun l r => Host.dotGeneral dot_S10000x256_S256x512_S10000x512_1_0_0_1_n_n none l r) : (⟨S10000x256, .f32⟩ : BufTy).Contents (Elt F) → (⟨S256x512, .f32⟩ : BufTy).Contents (Elt F) → (⟨S10000x512, .f32⟩ : BufTy).Contents (Elt F))
  :: StableHlo.unary main_arg8 main_v94 (broadcastInDim S1x512 ![1] bcast_S512_S1x512_1 : (⟨S512, .f32⟩ : BufTy).Contents (Elt F) → (⟨S1x512, .f32⟩ : BufTy).Contents (Elt F))
  :: StableHlo.unary main_v94 main_v95 (broadcastInDim S10000x512 ![0, 1] bcast_S1x512_S10000x512_0_1 : (⟨S1x512, .f32⟩ : BufTy).Contents (Elt F) → (⟨S10000x512, .f32⟩ : BufTy).Contents (Elt F))
  :: StableHlo.binary main_v93 main_v95 main_v96 (addf : (⟨S10000x512, .f32⟩ : BufTy).Contents (Elt F) → (⟨S10000x512, .f32⟩ : BufTy).Contents (Elt F) → (⟨S10000x512, .f32⟩ : BufTy).Contents (Elt F))
  :: StableHlo.nullary main_call1_cst (constant S_ .f32 0x00000000#32)
  :: StableHlo.unary main_call1_cst main_call1_v0 ((broadcastInDim S10000x512 ![] bcast_S_S10000x512) : (⟨S_, .f32⟩ : BufTy).Contents (Elt F) → (⟨S10000x512, .f32⟩ : BufTy).Contents (Elt F))
  :: StableHlo.binary main_v96 main_call1_v0 main_v97 (maximumf : (⟨S10000x512, .f32⟩ : BufTy).Contents (Elt F) → (⟨S10000x512, .f32⟩ : BufTy).Contents (Elt F) → (⟨S10000x512, .f32⟩ : BufTy).Contents (Elt F))
  :: StableHlo.binary main_v97 main_arg9 main_v98 ((fun l r => Host.dotGeneral dot_S10000x512_S512x100_S10000x100_1_0_0_1_n_n none l r) : (⟨S10000x512, .f32⟩ : BufTy).Contents (Elt F) → (⟨S512x100, .f32⟩ : BufTy).Contents (Elt F) → (⟨S10000x100, .f32⟩ : BufTy).Contents (Elt F))
  :: StableHlo.unary main_arg10 main_v99 (broadcastInDim S1x100 ![1] bcast_S100_S1x100_1 : (⟨S100, .f32⟩ : BufTy).Contents (Elt F) → (⟨S1x100, .f32⟩ : BufTy).Contents (Elt F))
  :: StableHlo.unary main_v99 main_v100 (broadcastInDim S10000x100 ![0, 1] bcast_S1x100_S10000x100_0_1 : (⟨S1x100, .f32⟩ : BufTy).Contents (Elt F) → (⟨S10000x100, .f32⟩ : BufTy).Contents (Elt F))
  :: StableHlo.binary main_v98 main_v100 main_v101 (addf : (⟨S10000x100, .f32⟩ : BufTy).Contents (Elt F) → (⟨S10000x100, .f32⟩ : BufTy).Contents (Elt F) → (⟨S10000x100, .f32⟩ : BufTy).Contents (Elt F))
  :: [] )
theorem ropsF_sub : (ropsF : List (HloOp τ sig (Elt F))).Forall fun op => op.bufs ⊆ StableHlo.tcRefs τ sig := by
  simp only [List.Forall]
  repeat' apply And.intro
  all_goals simp only [StableHlo.nullary_bufs_sub, StableHlo.unary_bufs_sub, StableHlo.binary_bufs_sub, StableHlo.ternary_bufs_sub, StableHlo.reshape_bufs_sub]
theorem ropsF_fresh : (ropsF : List (HloOp τ sig (Elt F))).Forall fun op => op.fresh = ∅ := by
  simp only [List.Forall]; repeat' constructor
abbrev ropsF_W : List (Ref sig .tc) := [main_v93, main_v94, main_v95, main_v96, main_call1_cst, main_call1_v0, main_v97, main_v98, main_v99, main_v100, main_v101]
theorem ropsF_writes : (ropsF : List (HloOp τ sig (Elt F))).Forall fun op => op.writes ⊆ (ropsF_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

abbrev ropsG : List (HloOp τ sig (Elt F)) :=
  ( StableHlo.nullary main_cst_16 (constant S_ .f32 0xFF800000#32)
  :: StableHlo.binary main_v101 main_cst_16 main_v102 ((fun x v => Host.reduce FloatOps.maximumf x v reducesTo_S10000x100_S100_d0 h_S_) : (⟨S10000x100, .f32⟩ : BufTy).Contents (Elt F) → (⟨S_, .f32⟩ : BufTy).Contents (Elt F) → (⟨S100, .f32⟩ : BufTy).Contents (Elt F))
  :: StableHlo.nullary main_cst_17 (constant S_ .f32 0xFF800000#32)
  :: StableHlo.unary main_cst_17 main_v103 (broadcastInDim S100 ![] bcast_S_S100 : (⟨S_, .f32⟩ : BufTy).Contents (Elt F) → (⟨S100, .f32⟩ : BufTy).Contents (Elt F))
  :: StableHlo.binary main_v103 main_v102 main_v104 (maximumf : (⟨S100, .f32⟩ : BufTy).Contents (Elt F) → (⟨S100, .f32⟩ : BufTy).Contents (Elt F) → (⟨S100, .f32⟩ : BufTy).Contents (Elt F))
  :: StableHlo.unary main_v104 main_v105 (broadcastInDim S1x100 ![1] bcast_S100_S1x100_1 : (⟨S100, .f32⟩ : BufTy).Contents (Elt F) → (⟨S1x100, .f32⟩ : BufTy).Contents (Elt F))
  :: StableHlo.unary main_v105 main_v106 (broadcastInDim S10000x100 ![0, 1] bcast_S1x100_S10000x100_0_1 : (⟨S1x100, .f32⟩ : BufTy).Contents (Elt F) → (⟨S10000x100, .f32⟩ : BufTy).Contents (Elt F))
  :: StableHlo.binary main_v101 main_v106 main_v107 (subf : (⟨S10000x100, .f32⟩ : BufTy).Contents (Elt F) → (⟨S10000x100, .f32⟩ : BufTy).Contents (Elt F) → (⟨S10000x100, .f32⟩ : BufTy).Contents (Elt F))
  :: StableHlo.unary main_v107 main_v108 (Host.exp : (⟨S10000x100, .f32⟩ : BufTy).Contents (Elt F) → (⟨S10000x100, .f32⟩ : BufTy).Contents (Elt F))
  :: StableHlo.nullary main_cst_18 (constant S_ .f32 0x00000000#32)
  :: StableHlo.binary main_v108 main_cst_18 main_v109 ((fun x v => Host.reduceAdd x v reducesTo_S10000x100_S100_d0 h_S_) : (⟨S10000x100, .f32⟩ : BufTy).Contents (Elt F) → (⟨S_, .f32⟩ : BufTy).Contents (Elt F) → (⟨S100, .f32⟩ : BufTy).Contents (Elt F))
  :: StableHlo.unary main_v109 main_v110 (broadcastInDim S1x100 ![1] bcast_S100_S1x100_1 : (⟨S100, .f32⟩ : BufTy).Contents (Elt F) → (⟨S1x100, .f32⟩ : BufTy).Contents (Elt F))
  :: StableHlo.unary main_v110 main_v111 (broadcastInDim S10000x100 ![0, 1] bcast_S1x100_S10000x100_0_1 : (⟨S1x100, .f32⟩ : BufTy).Contents (Elt F) → (⟨S10000x100, .f32⟩ : BufTy).Contents (Elt F))
  :: StableHlo.binary main_v108 main_v111 main_v112 (Host.divf : (⟨S10000x100, .f32⟩ : BufTy).Contents (Elt F) → (⟨S10000x100, .f32⟩ : BufTy).Contents (Elt F) → (⟨S10000x100, .f32⟩ : BufTy).Contents (Elt F))
  :: StableHlo.nullary main_cst_19 (constant S_ .f32 0xFF800000#32)
  :: StableHlo.binary main_v112 main_cst_19 main_v113 ((fun x v => Host.reduce FloatOps.maximumf x v reducesTo_S10000x100_S10000_d1 h_S_) : (⟨S10000x100, .f32⟩ : BufTy).Contents (Elt F) → (⟨S_, .f32⟩ : BufTy).Contents (Elt F) → (⟨S10000, .f32⟩ : BufTy).Contents (Elt F))
  :: StableHlo.unary main_v113 main_v114 (broadcastInDim S10000x1 ![0] bcast_S10000_S10000x1_0 : (⟨S10000, .f32⟩ : BufTy).Contents (Elt F) → (⟨S10000x1, .f32⟩ : BufTy).Contents (Elt F))
  :: StableHlo.unary main_v114 main_v115 (broadcastInDim S10000x100 ![0, 1] bcast_S10000x1_S10000x100_0_1 : (⟨S10000x1, .f32⟩ : BufTy).Contents (Elt F) → (⟨S10000x100, .f32⟩ : BufTy).Contents (Elt F))
  :: StableHlo.binary main_v112 main_v115 main_v116 (cmpf .oeq : (⟨S10000x100, .f32⟩ : BufTy).Contents (Elt F) → (⟨S10000x100, .f32⟩ : BufTy).Contents (Elt F) → (⟨S10000x100, .i1⟩ : BufTy).Contents (Elt F))
  :: StableHlo.unary main_v116 main_v117 (uitofp .f32 : (⟨S10000x100, .i1⟩ : BufTy).Contents (Elt F) → (⟨S10000x100, .f32⟩ : BufTy).Contents (Elt F))
  :: [] )
theorem ropsG_sub : (ropsG : List (HloOp τ sig (Elt F))).Forall fun op => op.bufs ⊆ StableHlo.tcRefs τ sig := by
  simp only [List.Forall]
  repeat' apply And.intro
  all_goals simp only [StableHlo.nullary_bufs_sub, StableHlo.unary_bufs_sub, StableHlo.binary_bufs_sub, StableHlo.ternary_bufs_sub, StableHlo.reshape_bufs_sub]
theorem ropsG_fresh : (ropsG : List (HloOp τ sig (Elt F))).Forall fun op => op.fresh = ∅ := by
  simp only [List.Forall]; repeat' constructor
abbrev ropsG_W : List (Ref sig .tc) := [main_cst_16, main_v102, main_cst_17, main_v103, main_v104, main_v105, main_v106, main_v107, main_v108, main_cst_18, main_v109, main_v110, main_v111, main_v112, main_cst_19, main_v113, main_v114, main_v115, main_v116, main_v117]
theorem ropsG_writes : (ropsG : List (HloOp τ sig (Elt F))).Forall fun op => op.writes ⊆ (ropsG_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

abbrev ropsH : List (HloOp τ sig (Elt F)) :=
  ( StableHlo.nullary main_cst_20 (constant S_ .f32 0x00000000#32)
  :: StableHlo.unary main_cst_20 main_v118 (broadcastInDim S10000x10000 ![] bcast_S_S10000x10000 : (⟨S_, .f32⟩ : BufTy).Contents (Elt F) → (⟨S10000x10000, .f32⟩ : BufTy).Contents (Elt F))
  :: StableHlo.nullary main_c_21 (constantI S_ 32 0#32)
  :: StableHlo.unary main_c_21 main_v119 (broadcastInDim S320000 ![] bcast_S_S320000 : (⟨S_, .i32⟩ : BufTy).Contents (Elt F) → (⟨S320000, .i32⟩ : BufTy).Contents (Elt F))
  :: StableHlo.binary main_v1 main_v119 main_v120 (cmpi .slt : (⟨S320000, .i32⟩ : BufTy).Contents (Elt F) → (⟨S320000, .i32⟩ : BufTy).Contents (Elt F) → (⟨S320000, .i1⟩ : BufTy).Contents (Elt F))
  :: StableHlo.nullary main_c_22 (constantI S_ 32 10000#32)
  :: StableHlo.unary main_c_22 main_v121 (broadcastInDim S320000 ![] bcast_S_S320000 : (⟨S_, .i32⟩ : BufTy).Contents (Elt F) → (⟨S320000, .i32⟩ : BufTy).Contents (Elt F))
  :: StableHlo.binary main_v1 main_v121 main_v122 (addi : (⟨S320000, .i32⟩ : BufTy).Contents (Elt F) → (⟨S320000, .i32⟩ : BufTy).Contents (Elt F) → (⟨S320000, .i32⟩ : BufTy).Contents (Elt F))
  :: StableHlo.ternary main_v120 main_v122 main_v1 main_v123 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: StableHlo.nullary main_c_23 (constantI S_ 32 0#32)
  :: StableHlo.unary main_c_23 main_v124 (broadcastInDim S320000 ![] bcast_S_S320000 : (⟨S_, .i32⟩ : BufTy).Contents (Elt F) → (⟨S320000, .i32⟩ : BufTy).Contents (Elt F))
  :: StableHlo.binary main_v3 main_v124 main_v125 (cmpi .slt : (⟨S320000, .i32⟩ : BufTy).Contents (Elt F) → (⟨S320000, .i32⟩ : BufTy).Contents (Elt F) → (⟨S320000, .i1⟩ : BufTy).Contents (Elt F))
  :: StableHlo.nullary main_c_24 (constantI S_ 32 10000#32)
  :: StableHlo.unary main_c_24 main_v126 (broadcastInDim S320000 ![] bcast_S_S320000 : (⟨S_, .i32⟩ : BufTy).Contents (Elt F) → (⟨S320000, .i32⟩ : BufTy).Contents (Elt F))
  :: StableHlo.binary main_v3 main_v126 main_v127 (addi : (⟨S320000, .i32⟩ : BufTy).Contents (Elt F) → (⟨S320000, .i32⟩ : BufTy).Contents (Elt F) → (⟨S320000, .i32⟩ : BufTy).Contents (Elt F))
  :: StableHlo.ternary main_v125 main_v127 main_v3 main_v128 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: StableHlo.unary main_v123 main_v129 (broadcastInDim S320000x1 ![0] bcast_S320000_S320000x1_0 : (⟨S320000, .i32⟩ : BufTy).Contents (Elt F) → (⟨S320000x1, .i32⟩ : BufTy).Contents (Elt F))
  :: StableHlo.unary main_v128 main_v130 (broadcastInDim S320000x1 ![0] bcast_S320000_S320000x1_0 : (⟨S320000, .i32⟩ : BufTy).Contents (Elt F) → (⟨S320000x1, .i32⟩ : BufTy).Contents (Elt F))
  :: StableHlo.binary main_v129 main_v130 main_v131 ((fun a b => concatenate S320000x2 1 [⟨S320000x1, a⟩, ⟨S320000x1, b⟩] concatenates_S320000x1_S320000x1_S320000x2_d1) : (⟨S320000x1, .i32⟩ : BufTy).Contents (Elt F) → (⟨S320000x1, .i32⟩ : BufTy).Contents (Elt F) → (⟨S320000x2, .i32⟩ : BufTy).Contents (Elt F))
  :: StableHlo.ternary main_v118 main_v131 main_arg2 main_v132 ((fun x i u => Host.scatterAdd scatter_S10000x10000_S320000x2_S320000_n_01_01_1 x i u) : (⟨S10000x10000, .f32⟩ : BufTy).Contents (Elt F) → (⟨S320000x2, .i32⟩ : BufTy).Contents (Elt F) → (⟨S320000, .f32⟩ : BufTy).Contents (Elt F) → (⟨S10000x10000, .f32⟩ : BufTy).Contents (Elt F))
  :: StableHlo.unary main_v117 main_v133 ((transpose S100x10000 [1, 0] · transposes_S10000x100_S100x10000_1_0) : (⟨S10000x100, .f32⟩ : BufTy).Contents (Elt F) → (⟨S100x10000, .f32⟩ : BufTy).Contents (Elt F))
  :: StableHlo.binary main_v133 main_v92 main_v134 ((fun l r => Host.dotGeneral dot_S100x10000_S10000x256_S100x256_1_0_0_1_n_n none l r) : (⟨S100x10000, .f32⟩ : BufTy).Contents (Elt F) → (⟨S10000x256, .f32⟩ : BufTy).Contents (Elt F) → (⟨S100x256, .f32⟩ : BufTy).Contents (Elt F))
  :: StableHlo.unary main_v117 main_v135 ((transpose S100x10000 [1, 0] · transposes_S10000x100_S100x10000_1_0) : (⟨S10000x100, .f32⟩ : BufTy).Contents (Elt F) → (⟨S100x10000, .f32⟩ : BufTy).Contents (Elt F))
  :: StableHlo.binary main_v135 main_v132 main_v136 ((fun l r => Host.dotGeneral dot_S100x10000_S10000x10000_S100x10000_1_0_0_1_n_n none l r) : (⟨S100x10000, .f32⟩ : BufTy).Contents (Elt F) → (⟨S10000x10000, .f32⟩ : BufTy).Contents (Elt F) → (⟨S100x10000, .f32⟩ : BufTy).Contents (Elt F))
  :: StableHlo.binary main_v136 main_v117 main_v137 ((fun l r => Host.dotGeneral dot_S100x10000_S10000x100_S100x100_1_0_0_1_n_n none l r) : (⟨S100x10000, .f32⟩ : BufTy).Contents (Elt F) → (⟨S10000x100, .f32⟩ : BufTy).Contents (Elt F) → (⟨S100x100, .f32⟩ : BufTy).Contents (Elt F))
  :: StableHlo.unary main_v117 main_v138 ((transpose S100x10000 [1, 0] · transposes_S10000x100_S100x10000_1_0) : (⟨S10000x100, .f32⟩ : BufTy).Contents (Elt F) → (⟨S100x10000, .f32⟩ : BufTy).Contents (Elt F))
  :: StableHlo.binary main_v138 main_v117 main_v139 ((fun l r => Host.dotGeneral dot_S100x10000_S10000x100_S100x100_1_0_0_1_n_n none l r) : (⟨S100x10000, .f32⟩ : BufTy).Contents (Elt F) → (⟨S10000x100, .f32⟩ : BufTy).Contents (Elt F) → (⟨S100x100, .f32⟩ : BufTy).Contents (Elt F))
  :: [] )
theorem ropsH_sub : (ropsH : List (HloOp τ sig (Elt F))).Forall fun op => op.bufs ⊆ StableHlo.tcRefs τ sig := by
  simp only [List.Forall]
  repeat' apply And.intro
  all_goals simp only [StableHlo.nullary_bufs_sub, StableHlo.unary_bufs_sub, StableHlo.binary_bufs_sub, StableHlo.ternary_bufs_sub, StableHlo.reshape_bufs_sub]
theorem ropsH_fresh : (ropsH : List (HloOp τ sig (Elt F))).Forall fun op => op.fresh = ∅ := by
  simp only [List.Forall]; repeat' constructor
abbrev ropsH_W : List (Ref sig .tc) := [main_cst_20, main_v118, main_c_21, main_v119, main_v120, main_c_22, main_v121, main_v122, main_v123, main_c_23, main_v124, main_v125, main_c_24, main_v126, main_v127, main_v128, main_v129, main_v130, main_v131, main_v132, main_v133, main_v134, main_v135, main_v136, main_v137, main_v138, main_v139]
theorem ropsH_writes : (ropsH : List (HloOp τ sig (Elt F))).Forall fun op => op.writes ⊆ (ropsH_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

abbrev ropsI_0 : List (HloOp τ sig (Elt F)) :=
  ( StableHlo.nullary main_cst_25 (constant S_ .f32 0x26901D7D#32)
  :: StableHlo.unary main_cst_25 main_v140 (broadcastInDim S100x100 ![] bcast_S_S100x100 : (⟨S_, .f32⟩ : BufTy).Contents (Elt F) → (⟨S100x100, .f32⟩ : BufTy).Contents (Elt F))
  :: StableHlo.binary main_v139 main_v140 main_v141 (addf : (⟨S100x100, .f32⟩ : BufTy).Contents (Elt F) → (⟨S100x100, .f32⟩ : BufTy).Contents (Elt F) → (⟨S100x100, .f32⟩ : BufTy).Contents (Elt F))
  :: StableHlo.unary main_v141 main_v142 (Host.sqrt : (⟨S100x100, .f32⟩ : BufTy).Contents (Elt F) → (⟨S100x100, .f32⟩ : BufTy).Contents (Elt F))
  :: StableHlo.nullary main_call2_v0 (iotaInDim S100x100 32 0)
  :: StableHlo.nullary main_call2_v1 (iotaInDim S100x100 32 1)
  :: StableHlo.nullary main_call2_c (constantI S_ 32 0#32)
  :: StableHlo.unary main_call2_c main_call2_v2 ((broadcastInDim S100x100 ![] bcast_S_S100x100) : (⟨S_, .i32⟩ : BufTy).Contents (Elt F) → (⟨S100x100, .i32⟩ : BufTy).Contents (Elt F))
  :: StableHlo.binary main_call2_v0 main_call2_v2 main_call2_v3 (addi : (⟨S100x100, .i32⟩ : BufTy).Contents (Elt F) → (⟨S100x100, .i32⟩ : BufTy).Contents (Elt F) → (⟨S100x100, .i32⟩ : BufTy).Contents (Elt F))
  :: StableHlo.binary main_call2_v3 main_call2_v1 main_call2_v4 ((cmpi .eq) : (⟨S100x100, .i32⟩ : BufTy).Contents (Elt F) → (⟨S100x100, .i32⟩ : BufTy).Contents (Elt F) → (⟨S100x100, .i1⟩ : BufTy).Contents (Elt F))
  :: StableHlo.nullary main_call2_cst (constant S_ .f32 0x00000000#32)
  :: StableHlo.unary main_call2_cst main_call2_v5 ((broadcastInDim S100x100 ![] bcast_S_S100x100) : (⟨S_, .f32⟩ : BufTy).Contents (Elt F) → (⟨S100x100, .f32⟩ : BufTy).Contents (Elt F))
  :: StableHlo.ternary main_call2_v4 main_v142 main_call2_v5 main_call2_v6 (select : (⟨S100x100, .i1⟩ : BufTy).Contents (Elt F) → (⟨S100x100, .f32⟩ : BufTy).Contents (Elt F) → (⟨S100x100, .f32⟩ : BufTy).Contents (Elt F) → (⟨S100x100, .f32⟩ : BufTy).Contents (Elt F))
  :: StableHlo.nullary main_call2_cst_0 (constant S_ .f32 0x00000000#32)
  :: StableHlo.binary main_call2_v6 main_call2_cst_0 main_v143 ((fun x v => Host.reduceAdd x v reducesTo_S100x100_S_d0_1 h_S_) : (⟨S100x100, .f32⟩ : BufTy).Contents (Elt F) → (⟨S_, .f32⟩ : BufTy).Contents (Elt F) → (⟨S_, .f32⟩ : BufTy).Contents (Elt F))
  :: StableHlo.unary main_v143 main_v144 (Host.negf : (⟨S_, .f32⟩ : BufTy).Contents (Elt F) → (⟨S_, .f32⟩ : BufTy).Contents (Elt F))
  :: StableHlo.nullary main_cst_26 (constant S_ .f32 0x49742400#32)
  :: StableHlo.unary main_cst_26 main_v145 (Host.sqrt : (⟨S_, .f32⟩ : BufTy).Contents (Elt F) → (⟨S_, .f32⟩ : BufTy).Contents (Elt F))
  :: StableHlo.binary main_v144 main_v145 main_v146 (Host.divf : (⟨S_, .f32⟩ : BufTy).Contents (Elt F) → (⟨S_, .f32⟩ : BufTy).Contents (Elt F) → (⟨S_, .f32⟩ : BufTy).Contents (Elt F))
  :: StableHlo.nullary main_v147 (iotaInDim S100x100 32 0)
  :: StableHlo.nullary main_v148 (iotaInDim S100x100 32 1)
  :: StableHlo.nullary main_c_27 (constantI S_ 32 0#32)
  :: StableHlo.unary main_c_27 main_v149 (broadcastInDim S100x100 ![] bcast_S_S100x100 : (⟨S_, .i32⟩ : BufTy).Contents (Elt F) → (⟨S100x100, .i32⟩ : BufTy).Contents (Elt F))
  :: [] )
theorem ropsI_0_sub : (ropsI_0 : List (HloOp τ sig (Elt F))).Forall fun op => op.bufs ⊆ StableHlo.tcRefs τ sig := by
  simp only [List.Forall]
  repeat' apply And.intro
  all_goals simp only [StableHlo.nullary_bufs_sub, StableHlo.unary_bufs_sub, StableHlo.binary_bufs_sub, StableHlo.ternary_bufs_sub, StableHlo.reshape_bufs_sub]
theorem ropsI_0_fresh : (ropsI_0 : List (HloOp τ sig (Elt F))).Forall fun op => op.fresh = ∅ := by
  simp only [List.Forall]; repeat' constructor
abbrev ropsI_0_W : List (Ref sig .tc) := [main_cst_25, main_v140, main_v141, main_v142, main_call2_v0, main_call2_v1, main_call2_c, main_call2_v2, main_call2_v3, main_call2_v4, main_call2_cst, main_call2_v5, main_call2_v6, main_call2_cst_0, main_v143, main_v144, main_cst_26, main_v145, main_v146, main_v147, main_v148, main_c_27, main_v149]
theorem ropsI_0_writes : (ropsI_0 : List (HloOp τ sig (Elt F))).Forall fun op => op.writes ⊆ (ropsI_0_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

abbrev ropsI_1 : List (HloOp τ sig (Elt F)) :=
  ( StableHlo.binary main_v147 main_v149 main_v150 (addi : (⟨S100x100, .i32⟩ : BufTy).Contents (Elt F) → (⟨S100x100, .i32⟩ : BufTy).Contents (Elt F) → (⟨S100x100, .i32⟩ : BufTy).Contents (Elt F))
  :: StableHlo.binary main_v150 main_v148 main_v151 (cmpi .eq : (⟨S100x100, .i32⟩ : BufTy).Contents (Elt F) → (⟨S100x100, .i32⟩ : BufTy).Contents (Elt F) → (⟨S100x100, .i1⟩ : BufTy).Contents (Elt F))
  :: StableHlo.unary main_v151 main_v152 (uitofp .f32 : (⟨S100x100, .i1⟩ : BufTy).Contents (Elt F) → (⟨S100x100, .f32⟩ : BufTy).Contents (Elt F))
  :: StableHlo.nullary main_cst_28 (constant S_ .f32 0x3F800000#32)
  :: StableHlo.unary main_cst_28 main_v153 (broadcastInDim S100x100 ![] bcast_S_S100x100 : (⟨S_, .f32⟩ : BufTy).Contents (Elt F) → (⟨S100x100, .f32⟩ : BufTy).Contents (Elt F))
  :: StableHlo.binary main_v153 main_v152 main_v154 (subf : (⟨S100x100, .f32⟩ : BufTy).Contents (Elt F) → (⟨S100x100, .f32⟩ : BufTy).Contents (Elt F) → (⟨S100x100, .f32⟩ : BufTy).Contents (Elt F))
  :: StableHlo.binary main_v137 main_v154 main_v155 (mulf : (⟨S100x100, .f32⟩ : BufTy).Contents (Elt F) → (⟨S100x100, .f32⟩ : BufTy).Contents (Elt F) → (⟨S100x100, .f32⟩ : BufTy).Contents (Elt F))
  :: StableHlo.unary main_v117 main_v156 (Host.negf : (⟨S10000x100, .f32⟩ : BufTy).Contents (Elt F) → (⟨S10000x100, .f32⟩ : BufTy).Contents (Elt F))
  :: StableHlo.nullary main_cst_29 (constant S_ .f32 0x358637BD#32)
  :: StableHlo.unary main_cst_29 main_v157 (broadcastInDim S10000x100 ![] bcast_S_S10000x100 : (⟨S_, .f32⟩ : BufTy).Contents (Elt F) → (⟨S10000x100, .f32⟩ : BufTy).Contents (Elt F))
  :: StableHlo.binary main_v117 main_v157 main_v158 (addf : (⟨S10000x100, .f32⟩ : BufTy).Contents (Elt F) → (⟨S10000x100, .f32⟩ : BufTy).Contents (Elt F) → (⟨S10000x100, .f32⟩ : BufTy).Contents (Elt F))
  :: StableHlo.unary main_v158 main_v159 (Host.log : (⟨S10000x100, .f32⟩ : BufTy).Contents (Elt F) → (⟨S10000x100, .f32⟩ : BufTy).Contents (Elt F))
  :: StableHlo.binary main_v156 main_v159 main_v160 (mulf : (⟨S10000x100, .f32⟩ : BufTy).Contents (Elt F) → (⟨S10000x100, .f32⟩ : BufTy).Contents (Elt F) → (⟨S10000x100, .f32⟩ : BufTy).Contents (Elt F))
  :: StableHlo.nullary main_cst_30 (constant S_ .f32 0x00000000#32)
  :: StableHlo.binary main_v160 main_cst_30 main_v161 ((fun x v => Host.reduceAdd x v reducesTo_S10000x100_S10000_d1 h_S_) : (⟨S10000x100, .f32⟩ : BufTy).Contents (Elt F) → (⟨S_, .f32⟩ : BufTy).Contents (Elt F) → (⟨S10000, .f32⟩ : BufTy).Contents (Elt F))
  :: StableHlo.nullary main_cst_31 (constant S_ .f32 0x00000000#32)
  :: StableHlo.binary main_v161 main_cst_31 main_v162 ((fun x v => Host.reduceAdd x v reducesTo_S10000_S_d0 h_S_) : (⟨S10000, .f32⟩ : BufTy).Contents (Elt F) → (⟨S_, .f32⟩ : BufTy).Contents (Elt F) → (⟨S_, .f32⟩ : BufTy).Contents (Elt F))
  :: StableHlo.nullary main_cst_32 (constant S_ .f32 0x461C4000#32)
  :: StableHlo.binary main_v162 main_cst_32 main_v163 (Host.divf : (⟨S_, .f32⟩ : BufTy).Contents (Elt F) → (⟨S_, .f32⟩ : BufTy).Contents (Elt F) → (⟨S_, .f32⟩ : BufTy).Contents (Elt F))
  :: StableHlo.nullary main_v164 (iotaInDim S100x100 32 0)
  :: StableHlo.nullary main_v165 (iotaInDim S100x100 32 1)
  :: StableHlo.nullary main_c_33 (constantI S_ 32 0#32)
  :: StableHlo.unary main_c_33 main_v166 (broadcastInDim S100x100 ![] bcast_S_S100x100 : (⟨S_, .i32⟩ : BufTy).Contents (Elt F) → (⟨S100x100, .i32⟩ : BufTy).Contents (Elt F))
  :: StableHlo.binary main_v164 main_v166 main_v167 (addi : (⟨S100x100, .i32⟩ : BufTy).Contents (Elt F) → (⟨S100x100, .i32⟩ : BufTy).Contents (Elt F) → (⟨S100x100, .i32⟩ : BufTy).Contents (Elt F))
  :: StableHlo.binary main_v167 main_v165 main_v168 (cmpi .eq : (⟨S100x100, .i32⟩ : BufTy).Contents (Elt F) → (⟨S100x100, .i32⟩ : BufTy).Contents (Elt F) → (⟨S100x100, .i1⟩ : BufTy).Contents (Elt F))
  :: StableHlo.unary main_v168 main_v169 (uitofp .f32 : (⟨S100x100, .i1⟩ : BufTy).Contents (Elt F) → (⟨S100x100, .f32⟩ : BufTy).Contents (Elt F))
  :: StableHlo.binary main_v155 main_v169 main_v170 (addf : (⟨S100x100, .f32⟩ : BufTy).Contents (Elt F) → (⟨S100x100, .f32⟩ : BufTy).Contents (Elt F) → (⟨S100x100, .f32⟩ : BufTy).Contents (Elt F))
  :: StableHlo.nullary main_cst_34 (constant S_ .f32 0x00000000#32)
  :: StableHlo.binary main_v170 main_cst_34 main_v171 ((fun x v => Host.reduceAdd x v reducesTo_S100x100_S100_d0 h_S_) : (⟨S100x100, .f32⟩ : BufTy).Contents (Elt F) → (⟨S_, .f32⟩ : BufTy).Contents (Elt F) → (⟨S100, .f32⟩ : BufTy).Contents (Elt F))
  :: StableHlo.unary main_v171 main_v172 (Host.rsqrt : (⟨S100, .f32⟩ : BufTy).Contents (Elt F) → (⟨S100, .f32⟩ : BufTy).Contents (Elt F))
  :: StableHlo.binary main_v134 main_arg11 main_v173 ((fun l r => Host.dotGeneral dot_S100x256_S256x512_S100x512_1_0_0_1_n_n none l r) : (⟨S100x256, .f32⟩ : BufTy).Contents (Elt F) → (⟨S256x512, .f32⟩ : BufTy).Contents (Elt F) → (⟨S100x512, .f32⟩ : BufTy).Contents (Elt F))
  :: StableHlo.unary main_v172 main_v174 (broadcastInDim S100x1 ![0] bcast_S100_S100x1_0 : (⟨S100, .f32⟩ : BufTy).Contents (Elt F) → (⟨S100x1, .f32⟩ : BufTy).Contents (Elt F))
  :: StableHlo.unary main_v170 main_v175 ((transpose S100x100 [1, 0] · transposes_S100x100_S100x100_1_0) : (⟨S100x100, .f32⟩ : BufTy).Contents (Elt F) → (⟨S100x100, .f32⟩ : BufTy).Contents (Elt F))
  :: StableHlo.unary main_v172 main_v176 (broadcastInDim S100x1 ![0] bcast_S100_S100x1_0 : (⟨S100, .f32⟩ : BufTy).Contents (Elt F) → (⟨S100x1, .f32⟩ : BufTy).Contents (Elt F))
  :: StableHlo.unary main_v176 main_v177 (broadcastInDim S100x512 ![0, 1] bcast_S100x1_S100x512_0_1 : (⟨S100x1, .f32⟩ : BufTy).Contents (Elt F) → (⟨S100x512, .f32⟩ : BufTy).Contents (Elt F))
  :: StableHlo.binary main_v177 main_v173 main_v178 (mulf : (⟨S100x512, .f32⟩ : BufTy).Contents (Elt F) → (⟨S100x512, .f32⟩ : BufTy).Contents (Elt F) → (⟨S100x512, .f32⟩ : BufTy).Contents (Elt F))
  :: StableHlo.binary main_v175 main_v178 main_v179 ((fun l r => Host.dotGeneral dot_S100x100_S100x512_S100x512_1_0_0_1_n_n none l r) : (⟨S100x100, .f32⟩ : BufTy).Contents (Elt F) → (⟨S100x512, .f32⟩ : BufTy).Contents (Elt F) → (⟨S100x512, .f32⟩ : BufTy).Contents (Elt F))
  :: StableHlo.unary main_v174 main_v180 (broadcastInDim S100x512 ![0, 1] bcast_S100x1_S100x512_0_1 : (⟨S100x1, .f32⟩ : BufTy).Contents (Elt F) → (⟨S100x512, .f32⟩ : BufTy).Contents (Elt F))
  :: StableHlo.binary main_v180 main_v179 main_v181 (mulf : (⟨S100x512, .f32⟩ : BufTy).Contents (Elt F) → (⟨S100x512, .f32⟩ : BufTy).Contents (Elt F) → (⟨S100x512, .f32⟩ : BufTy).Contents (Elt F))
  :: StableHlo.unary main_arg12 main_v182 (broadcastInDim S1x512 ![1] bcast_S512_S1x512_1 : (⟨S512, .f32⟩ : BufTy).Contents (Elt F) → (⟨S1x512, .f32⟩ : BufTy).Contents (Elt F))
  :: StableHlo.unary main_v182 main_v183 (broadcastInDim S100x512 ![0, 1] bcast_S1x512_S100x512_0_1 : (⟨S1x512, .f32⟩ : BufTy).Contents (Elt F) → (⟨S100x512, .f32⟩ : BufTy).Contents (Elt F))
  :: StableHlo.binary main_v181 main_v183 main_v184 (addf : (⟨S100x512, .f32⟩ : BufTy).Contents (Elt F) → (⟨S100x512, .f32⟩ : BufTy).Contents (Elt F) → (⟨S100x512, .f32⟩ : BufTy).Contents (Elt F))
  :: StableHlo.nullary main_call3_cst (constant S_ .f32 0x00000000#32)
  :: StableHlo.unary main_call3_cst main_call3_v0 ((broadcastInDim S100x512 ![] bcast_S_S100x512) : (⟨S_, .f32⟩ : BufTy).Contents (Elt F) → (⟨S100x512, .f32⟩ : BufTy).Contents (Elt F))
  :: StableHlo.binary main_v184 main_call3_v0 main_v185 (maximumf : (⟨S100x512, .f32⟩ : BufTy).Contents (Elt F) → (⟨S100x512, .f32⟩ : BufTy).Contents (Elt F) → (⟨S100x512, .f32⟩ : BufTy).Contents (Elt F))
  :: StableHlo.nullary main_v186 (iotaInDim S100x100 32 0)
  :: StableHlo.nullary main_v187 (iotaInDim S100x100 32 1)
  :: StableHlo.nullary main_c_35 (constantI S_ 32 0#32)
  :: StableHlo.unary main_c_35 main_v188 (broadcastInDim S100x100 ![] bcast_S_S100x100 : (⟨S_, .i32⟩ : BufTy).Contents (Elt F) → (⟨S100x100, .i32⟩ : BufTy).Contents (Elt F))
  :: StableHlo.binary main_v186 main_v188 main_v189 (addi : (⟨S100x100, .i32⟩ : BufTy).Contents (Elt F) → (⟨S100x100, .i32⟩ : BufTy).Contents (Elt F) → (⟨S100x100, .i32⟩ : BufTy).Contents (Elt F))
  :: StableHlo.binary main_v189 main_v187 main_v190 (cmpi .eq : (⟨S100x100, .i32⟩ : BufTy).Contents (Elt F) → (⟨S100x100, .i32⟩ : BufTy).Contents (Elt F) → (⟨S100x100, .i1⟩ : BufTy).Contents (Elt F))
  :: StableHlo.unary main_v190 main_v191 (uitofp .f32 : (⟨S100x100, .i1⟩ : BufTy).Contents (Elt F) → (⟨S100x100, .f32⟩ : BufTy).Contents (Elt F))
  :: StableHlo.binary main_v155 main_v191 main_v192 (addf : (⟨S100x100, .f32⟩ : BufTy).Contents (Elt F) → (⟨S100x100, .f32⟩ : BufTy).Contents (Elt F) → (⟨S100x100, .f32⟩ : BufTy).Contents (Elt F))
  :: StableHlo.nullary main_cst_36 (constant S_ .f32 0x00000000#32)
  :: StableHlo.binary main_v192 main_cst_36 main_v193 ((fun x v => Host.reduceAdd x v reducesTo_S100x100_S100_d0 h_S_) : (⟨S100x100, .f32⟩ : BufTy).Contents (Elt F) → (⟨S_, .f32⟩ : BufTy).Contents (Elt F) → (⟨S100, .f32⟩ : BufTy).Contents (Elt F))
  :: StableHlo.unary main_v193 main_v194 (Host.rsqrt : (⟨S100, .f32⟩ : BufTy).Contents (Elt F) → (⟨S100, .f32⟩ : BufTy).Contents (Elt F))
  :: StableHlo.binary main_v185 main_arg13 main_v195 ((fun l r => Host.dotGeneral dot_S100x512_S512x256_S100x256_1_0_0_1_n_n none l r) : (⟨S100x512, .f32⟩ : BufTy).Contents (Elt F) → (⟨S512x256, .f32⟩ : BufTy).Contents (Elt F) → (⟨S100x256, .f32⟩ : BufTy).Contents (Elt F))
  :: StableHlo.unary main_v194 main_v196 (broadcastInDim S100x1 ![0] bcast_S100_S100x1_0 : (⟨S100, .f32⟩ : BufTy).Contents (Elt F) → (⟨S100x1, .f32⟩ : BufTy).Contents (Elt F))
  :: StableHlo.unary main_v192 main_v197 ((transpose S100x100 [1, 0] · transposes_S100x100_S100x100_1_0) : (⟨S100x100, .f32⟩ : BufTy).Contents (Elt F) → (⟨S100x100, .f32⟩ : BufTy).Contents (Elt F))
  :: StableHlo.unary main_v194 main_v198 (broadcastInDim S100x1 ![0] bcast_S100_S100x1_0 : (⟨S100, .f32⟩ : BufTy).Contents (Elt F) → (⟨S100x1, .f32⟩ : BufTy).Contents (Elt F))
  :: StableHlo.unary main_v198 main_v199 (broadcastInDim S100x256 ![0, 1] bcast_S100x1_S100x256_0_1 : (⟨S100x1, .f32⟩ : BufTy).Contents (Elt F) → (⟨S100x256, .f32⟩ : BufTy).Contents (Elt F))
  :: StableHlo.binary main_v199 main_v195 main_v200 (mulf : (⟨S100x256, .f32⟩ : BufTy).Contents (Elt F) → (⟨S100x256, .f32⟩ : BufTy).Contents (Elt F) → (⟨S100x256, .f32⟩ : BufTy).Contents (Elt F))
  :: [] )
theorem ropsI_1_sub : (ropsI_1 : List (HloOp τ sig (Elt F))).Forall fun op => op.bufs ⊆ StableHlo.tcRefs τ sig := by
  simp only [List.Forall]
  repeat' apply And.intro
  all_goals simp only [StableHlo.nullary_bufs_sub, StableHlo.unary_bufs_sub, StableHlo.binary_bufs_sub, StableHlo.ternary_bufs_sub, StableHlo.reshape_bufs_sub]
theorem ropsI_1_fresh : (ropsI_1 : List (HloOp τ sig (Elt F))).Forall fun op => op.fresh = ∅ := by
  simp only [List.Forall]; repeat' constructor
abbrev ropsI_1_W : List (Ref sig .tc) := [main_v150, main_v151, main_v152, main_cst_28, main_v153, main_v154, main_v155, main_v156, main_cst_29, main_v157, main_v158, main_v159, main_v160, main_cst_30, main_v161, main_cst_31, main_v162, main_cst_32, main_v163, main_v164, main_v165, main_c_33, main_v166, main_v167, main_v168, main_v169, main_v170, main_cst_34, main_v171, main_v172, main_v173, main_v174, main_v175, main_v176, main_v177, main_v178, main_v179, main_v180, main_v181, main_v182, main_v183, main_v184, main_call3_cst, main_call3_v0, main_v185, main_v186, main_v187, main_c_35, main_v188, main_v189, main_v190, main_v191, main_v192, main_cst_36, main_v193, main_v194, main_v195, main_v196, main_v197, main_v198, main_v199, main_v200]
theorem ropsI_1_writes : (ropsI_1 : List (HloOp τ sig (Elt F))).Forall fun op => op.writes ⊆ (ropsI_1_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

abbrev ropsI_2 : List (HloOp τ sig (Elt F)) :=
  ( StableHlo.binary main_v197 main_v200 main_v201 ((fun l r => Host.dotGeneral dot_S100x100_S100x256_S100x256_1_0_0_1_n_n none l r) : (⟨S100x100, .f32⟩ : BufTy).Contents (Elt F) → (⟨S100x256, .f32⟩ : BufTy).Contents (Elt F) → (⟨S100x256, .f32⟩ : BufTy).Contents (Elt F))
  :: StableHlo.unary main_v196 main_v202 (broadcastInDim S100x256 ![0, 1] bcast_S100x1_S100x256_0_1 : (⟨S100x1, .f32⟩ : BufTy).Contents (Elt F) → (⟨S100x256, .f32⟩ : BufTy).Contents (Elt F))
  :: StableHlo.binary main_v202 main_v201 main_v203 (mulf : (⟨S100x256, .f32⟩ : BufTy).Contents (Elt F) → (⟨S100x256, .f32⟩ : BufTy).Contents (Elt F) → (⟨S100x256, .f32⟩ : BufTy).Contents (Elt F))
  :: StableHlo.unary main_arg14 main_v204 (broadcastInDim S1x256 ![1] bcast_S256_S1x256_1 : (⟨S256, .f32⟩ : BufTy).Contents (Elt F) → (⟨S1x256, .f32⟩ : BufTy).Contents (Elt F))
  :: StableHlo.unary main_v204 main_v205 (broadcastInDim S100x256 ![0, 1] bcast_S1x256_S100x256_0_1 : (⟨S1x256, .f32⟩ : BufTy).Contents (Elt F) → (⟨S100x256, .f32⟩ : BufTy).Contents (Elt F))
  :: StableHlo.binary main_v203 main_v205 main_v206 (addf : (⟨S100x256, .f32⟩ : BufTy).Contents (Elt F) → (⟨S100x256, .f32⟩ : BufTy).Contents (Elt F) → (⟨S100x256, .f32⟩ : BufTy).Contents (Elt F))
  :: StableHlo.binary main_v206 main_arg15 main_v207 ((fun l r => Host.dotGeneral dot_S100x256_S256x512_S100x512_1_0_0_1_n_n none l r) : (⟨S100x256, .f32⟩ : BufTy).Contents (Elt F) → (⟨S256x512, .f32⟩ : BufTy).Contents (Elt F) → (⟨S100x512, .f32⟩ : BufTy).Contents (Elt F))
  :: StableHlo.unary main_arg16 main_v208 (broadcastInDim S1x512 ![1] bcast_S512_S1x512_1 : (⟨S512, .f32⟩ : BufTy).Contents (Elt F) → (⟨S1x512, .f32⟩ : BufTy).Contents (Elt F))
  :: StableHlo.unary main_v208 main_v209 (broadcastInDim S100x512 ![0, 1] bcast_S1x512_S100x512_0_1 : (⟨S1x512, .f32⟩ : BufTy).Contents (Elt F) → (⟨S100x512, .f32⟩ : BufTy).Contents (Elt F))
  :: StableHlo.binary main_v207 main_v209 main_v210 (addf : (⟨S100x512, .f32⟩ : BufTy).Contents (Elt F) → (⟨S100x512, .f32⟩ : BufTy).Contents (Elt F) → (⟨S100x512, .f32⟩ : BufTy).Contents (Elt F))
  :: StableHlo.nullary main_call4_cst (constant S_ .f32 0x00000000#32)
  :: StableHlo.unary main_call4_cst main_call4_v0 ((broadcastInDim S100x512 ![] bcast_S_S100x512) : (⟨S_, .f32⟩ : BufTy).Contents (Elt F) → (⟨S100x512, .f32⟩ : BufTy).Contents (Elt F))
  :: StableHlo.binary main_v210 main_call4_v0 main_v211 (maximumf : (⟨S100x512, .f32⟩ : BufTy).Contents (Elt F) → (⟨S100x512, .f32⟩ : BufTy).Contents (Elt F) → (⟨S100x512, .f32⟩ : BufTy).Contents (Elt F))
  :: StableHlo.binary main_v211 main_arg17 main_v212 ((fun l r => Host.dotGeneral dot_S100x512_S512x512_S100x512_1_0_0_1_n_n none l r) : (⟨S100x512, .f32⟩ : BufTy).Contents (Elt F) → (⟨S512x512, .f32⟩ : BufTy).Contents (Elt F) → (⟨S100x512, .f32⟩ : BufTy).Contents (Elt F))
  :: StableHlo.unary main_arg18 main_v213 (broadcastInDim S1x512 ![1] bcast_S512_S1x512_1 : (⟨S512, .f32⟩ : BufTy).Contents (Elt F) → (⟨S1x512, .f32⟩ : BufTy).Contents (Elt F))
  :: StableHlo.unary main_v213 main_v214 (broadcastInDim S100x512 ![0, 1] bcast_S1x512_S100x512_0_1 : (⟨S1x512, .f32⟩ : BufTy).Contents (Elt F) → (⟨S100x512, .f32⟩ : BufTy).Contents (Elt F))
  :: StableHlo.binary main_v212 main_v214 main_v215 (addf : (⟨S100x512, .f32⟩ : BufTy).Contents (Elt F) → (⟨S100x512, .f32⟩ : BufTy).Contents (Elt F) → (⟨S100x512, .f32⟩ : BufTy).Contents (Elt F))
  :: StableHlo.nullary main_call5_cst (constant S_ .f32 0x00000000#32)
  :: StableHlo.unary main_call5_cst main_call5_v0 ((broadcastInDim S100x512 ![] bcast_S_S100x512) : (⟨S_, .f32⟩ : BufTy).Contents (Elt F) → (⟨S100x512, .f32⟩ : BufTy).Contents (Elt F))
  :: StableHlo.binary main_v215 main_call5_v0 main_v216 (maximumf : (⟨S100x512, .f32⟩ : BufTy).Contents (Elt F) → (⟨S100x512, .f32⟩ : BufTy).Contents (Elt F) → (⟨S100x512, .f32⟩ : BufTy).Contents (Elt F))
  :: StableHlo.binary main_v216 main_arg19 main_v217 ((fun l r => Host.dotGeneral dot_S100x512_S512x1_S100x1_1_0_0_1_n_n none l r) : (⟨S100x512, .f32⟩ : BufTy).Contents (Elt F) → (⟨S512x1, .f32⟩ : BufTy).Contents (Elt F) → (⟨S100x1, .f32⟩ : BufTy).Contents (Elt F))
  :: StableHlo.unary main_arg20 main_v218 (broadcastInDim S1x1 ![1] bcast_S1_S1x1_1 : (⟨S1, .f32⟩ : BufTy).Contents (Elt F) → (⟨S1x1, .f32⟩ : BufTy).Contents (Elt F))
  :: StableHlo.unary main_v218 main_v219 (broadcastInDim S100x1 ![0, 1] bcast_S1x1_S100x1_0_1 : (⟨S1x1, .f32⟩ : BufTy).Contents (Elt F) → (⟨S100x1, .f32⟩ : BufTy).Contents (Elt F))
  :: StableHlo.binary main_v217 main_v219 main_v220 (addf : (⟨S100x1, .f32⟩ : BufTy).Contents (Elt F) → (⟨S100x1, .f32⟩ : BufTy).Contents (Elt F) → (⟨S100x1, .f32⟩ : BufTy).Contents (Elt F))
  :: [] )
theorem ropsI_2_sub : (ropsI_2 : List (HloOp τ sig (Elt F))).Forall fun op => op.bufs ⊆ StableHlo.tcRefs τ sig := by
  simp only [List.Forall]
  repeat' apply And.intro
  all_goals simp only [StableHlo.nullary_bufs_sub, StableHlo.unary_bufs_sub, StableHlo.binary_bufs_sub, StableHlo.ternary_bufs_sub, StableHlo.reshape_bufs_sub]
theorem ropsI_2_fresh : (ropsI_2 : List (HloOp τ sig (Elt F))).Forall fun op => op.fresh = ∅ := by
  simp only [List.Forall]; repeat' constructor
abbrev ropsI_2_W : List (Ref sig .tc) := [main_v201, main_v202, main_v203, main_v204, main_v205, main_v206, main_v207, main_v208, main_v209, main_v210, main_call4_cst, main_call4_v0, main_v211, main_v212, main_v213, main_v214, main_v215, main_call5_cst, main_call5_v0, main_v216, main_v217, main_v218, main_v219, main_v220]
theorem ropsI_2_writes : (ropsI_2 : List (HloOp τ sig (Elt F))).Forall fun op => op.writes ⊆ (ropsI_2_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

abbrev ropsE : List (HloOp τ sig (Elt F)) := ropsE_0 ++ ropsE_1
abbrev ropsI : List (HloOp τ sig (Elt F)) := ropsI_0 ++ ropsI_1 ++ ropsI_2

abbrev ops : List (HloOp τ sig (Elt F)) := ropsA ++ ropsB ++ ropsC ++ ropsD ++ ropsE ++ ropsF ++ ropsG ++ ropsH ++ ropsI

def win0 : List (HloOp τ sig (Elt F)) := ropsA ++ ropsB ++ ropsC ++ ropsD ++ ropsE_0
def win1 : List (HloOp τ sig (Elt F)) := ropsE_1 ++ ropsF
def win2 : List (HloOp τ sig (Elt F)) := ropsG ++ ropsH ++ ropsI_0
def win3 : List (HloOp τ sig (Elt F)) := ropsI_1
def win4 : List (HloOp τ sig (Elt F)) := ropsI_2

end Cert.RI

end
-- ==== Proof.RI.Run.lean ====
import proofs.«415211_j35837207118569_3_alg».proof.Proof.RI.Ops
import Idealize.ShloMosaic.Lib.Pipeline.Frame

set_option maxRecDepth 8192

noncomputable section

namespace Cert.RI

open Cert.ReferenceIdeal Cert.ReferenceIdeal.Gen Idealize.ShloMosaic Idealize.ShloMosaic.TcCoe Idealize.SL.Sem
open Idealize.ShloMosaic.StableHlo (seq after seq_append after_append run_seq launchContents)

variable {F : FTy → Type} [FloatOps F]

theorem ops_eq : (ops : List (HloOp τ sig (Elt F))) = win0 ++ (win1 ++ (win2 ++ (win3 ++ win4))) := by
  simp only [ops, ropsE, ropsI, win0, win1, win2, win3, win4, List.append_assoc]

-- each part of the program's text is, by unfolding, the line of one window's operations
theorem main_eq (c : Dev nD) : main (F := F) c = seq ops := by
  rw [ops_eq]
  simp only [seq_append, ← (rfl : main_part0 (F := F) c = seq win0), ← (rfl : main_part1 (F := F) c = seq win1),
    ← (rfl : main_part2 (F := F) c = seq win2), ← (rfl : main_part3 (F := F) c = seq win3), ← (rfl : main_part4 (F := F) c = seq win4)]
  rfl

theorem scopedRefs_eq : (Finset.univ.filter fun b : Ref sig .tc => b.isScoped) = ∅ := by decide
theorem scopedSems_eq : (Finset.univ.filter fun sm : SemLoc sig => sm.isScoped .tc) = ∅ := by decide

theorem fa {α : Type} {p : α → Prop} {l₁ l₂ : List α} (h₁ : l₁.Forall p) (h₂ : l₂.Forall p) : (l₁ ++ l₂).Forall p :=
  List.forall_iff_forall_mem.mpr fun x h => (List.mem_append.mp h).elim (List.forall_iff_forall_mem.mp h₁ x) (List.forall_iff_forall_mem.mp h₂ x)

theorem ops_sub : (ops : List (HloOp τ sig (Elt F))).Forall fun op => op.bufs ⊆ StableHlo.tcRefs τ sig :=
  fa (fa (fa (fa (fa (fa (fa (fa ropsA_sub ropsB_sub) ropsC_sub) ropsD_sub) (fa ropsE_0_sub ropsE_1_sub)) ropsF_sub) ropsG_sub) ropsH_sub) (fa (fa ropsI_0_sub ropsI_1_sub) ropsI_2_sub)

theorem ops_fresh : ∀ op ∈ (ops : List (HloOp τ sig (Elt F))), op.fresh = ∅ :=
  List.forall_iff_forall_mem.mp (fa (fa (fa (fa (fa (fa (fa (fa ropsA_fresh ropsB_fresh) ropsC_fresh) ropsD_fresh) (fa ropsE_0_fresh ropsE_1_fresh)) ropsF_fresh) ropsG_fresh) ropsH_fresh) (fa (fa ropsI_0_fresh ropsI_1_fresh) ropsI_2_fresh))

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

variable (m : (ℓ : Loc nD τ sig) → Buf (Elt F) ℓ)

-- core c's buffers at launch, and after each stretch of the reference's operations
abbrev W0 (c : Dev nD) : Valuation τ sig (Elt F) := fun b => m (c, b)
abbrev WA (c : Dev nD) : Valuation τ sig (Elt F) := after ropsA (W0 m c)
abbrev WB (c : Dev nD) : Valuation τ sig (Elt F) := after ropsB (WA m c)
abbrev WC (c : Dev nD) : Valuation τ sig (Elt F) := after ropsC (WB m c)
abbrev WD (c : Dev nD) : Valuation τ sig (Elt F) := after ropsD (WC m c)
abbrev WE (c : Dev nD) : Valuation τ sig (Elt F) := after ropsE (WD m c)
abbrev WF (c : Dev nD) : Valuation τ sig (Elt F) := after ropsF (WE m c)
abbrev WG (c : Dev nD) : Valuation τ sig (Elt F) := after ropsG (WF m c)
abbrev WH (c : Dev nD) : Valuation τ sig (Elt F) := after ropsH (WG m c)
abbrev WI (c : Dev nD) : Valuation τ sig (Elt F) := after ropsI (WH m c)

theorem after_ops (c : Dev nD) : after ops (W0 m c) = WI m c := by
  simp only [WI, WH, WG, WF, WE, WD, WC, WB, WA, ops, after_append]

end Cert.RI

end
-- ==== Proof.RI.Persist.lean ====
import proofs.«415211_j35837207118569_3_alg».proof.Defs
import proofs.«415211_j35837207118569_3_alg».proof.Proof.Gen.Pre_finite_inputs
import proofs.«415211_j35837207118569_3_alg».proof.Proof.RI.Run

set_option maxRecDepth 8192

noncomputable section

namespace Cert.RI

open Cert.ReferenceIdeal Cert.ReferenceIdeal.Gen Idealize.ShloMosaic Idealize.ShloMosaic.TcCoe Idealize.SL.Sem
open Idealize.ShloMosaic.StableHlo (seq after seq_append after_append run_seq launchContents)

variable {F : FTy → Type} [FloatOps F]

abbrev ropsE_W : List (Ref sig .tc) := ropsE_0_W ++ ropsE_1_W
abbrev ropsI_W : List (Ref sig .tc) := ropsI_0_W ++ ropsI_1_W ++ ropsI_2_W

-- two lines run one after the other write inside the concatenation of what each writes
theorem writes_append {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  refine List.forall_iff_forall_mem.mpr fun op h => ?_
  rw [List.map_append, List.toFinset_append]
  rcases List.mem_append.mp h with h | h
  · exact (List.forall_iff_forall_mem.mp h₁ op h).trans Finset.subset_union_left
  · exact (List.forall_iff_forall_mem.mp h₂ op h).trans Finset.subset_union_right

theorem ropsE_writes : (ropsE : List (HloOp τ sig (Elt F))).Forall fun op => op.writes ⊆ (ropsE_W.map (Proc.devRef (τ := τ) .tc)).toFinset :=
  writes_append ropsE_0_writes ropsE_1_writes
theorem ropsI_writes : (ropsI : List (HloOp τ sig (Elt F))).Forall fun op => op.writes ⊆ (ropsI_W.map (Proc.devRef (τ := τ) .tc)).toFinset :=
  writes_append (writes_append ropsI_0_writes ropsI_1_writes) ropsI_2_writes

variable (m : (ℓ : Loc nD τ sig) → Buf (Elt F) ℓ)

-- a buffer a stretch does not write is after it what it was before
theorem WA_of (c : Dev nD) (r : Ref sig .tc) (h : r ∉ ropsA_W) : WA m c r = W0 m c r := StableHlo.after_of_writes_sub ropsA _ ropsA_writes h
theorem WB_of (c : Dev nD) (r : Ref sig .tc) (h : r ∉ ropsB_W) : WB m c r = WA m c r := StableHlo.after_of_writes_sub ropsB _ ropsB_writes h
theorem WC_of (c : Dev nD) (r : Ref sig .tc) (h : r ∉ ropsC_W) : WC m c r = WB m c r := StableHlo.after_of_writes_sub ropsC _ ropsC_writes h
theorem WD_of (c : Dev nD) (r : Ref sig .tc) (h : r ∉ ropsD_W) : WD m c r = WC m c r := StableHlo.after_of_writes_sub ropsD _ ropsD_writes h
theorem WE_of (c : Dev nD) (r : Ref sig .tc) (h : r ∉ ropsE_W) : WE m c r = WD m c r := StableHlo.after_of_writes_sub ropsE _ ropsE_writes h
theorem WF_of (c : Dev nD) (r : Ref sig .tc) (h : r ∉ ropsF_W) : WF m c r = WE m c r := StableHlo.after_of_writes_sub ropsF _ ropsF_writes h
theorem WG_of (c : Dev nD) (r : Ref sig .tc) (h : r ∉ ropsG_W) : WG m c r = WF m c r := StableHlo.after_of_writes_sub ropsG _ ropsG_writes h
theorem WH_of (c : Dev nD) (r : Ref sig .tc) (h : r ∉ ropsH_W) : WH m c r = WG m c r := StableHlo.after_of_writes_sub ropsH _ ropsH_writes h
theorem WI_of (c : Dev nD) (r : Ref sig .tc) (h : r ∉ ropsI_W) : WI m c r = WH m c r := StableHlo.after_of_writes_sub ropsI _ ropsI_writes h

-- a buffer no stretch writes holds at the end what it held at launch
theorem WI_keep (c : Dev nD) (r : Ref sig .tc) (hA : r ∉ ropsA_W := by decide) (hB : r ∉ ropsB_W := by decide) (hC : r ∉ ropsC_W := by decide) (hD : r ∉ ropsD_W := by decide) (hE : r ∉ ropsE_W := by decide) (hF : r ∉ ropsF_W := by decide) (hG : r ∉ ropsG_W := by decide) (hH : r ∉ ropsH_W := by decide) (hI : r ∉ ropsI_W := by decide) :
    WI m c r = m ((c : Thread nD τ).loc r) :=
  (WI_of m c r hI).trans <| (WH_of m c r hH).trans <| (WG_of m c r hG).trans <| (WF_of m c r hF).trans <| (WE_of m c r hE).trans <| (WD_of m c r hD).trans <| (WC_of m c r hC).trans <| (WB_of m c r hB).trans <| (WA_of m c r hA)

theorem run_all (ρ : Dev nD → PrngReg) :
    θ_run defs (onTc (τ := τ) (main (F := F))) ⟨m, fun _ => 0, ρ⟩ fun r =>
      ∀ (c : Dev nD) (b : Ref sig .tc), r.2.mem ((c.tc : Thread nD τ).loc b) = WI m c b :=
  (θ_run defs _ _).mono (fun r h c b => (h c b).trans (congrFun (after_ops m c) _)) (run m ρ)

theorem frame : @Cert.frame_ReferenceIdeal Cert.ReferenceIdeal.Gen.facts Cert.Pre_finite_inputs.Gen.facts := fun m ρ _ =>
  (θ_run _ _ _).mono (fun r h c => ⟨(h c _).trans (WI_keep m c _), (h c _).trans (WI_keep m c _), (h c _).trans (WI_keep m c _), (h c _).trans (WI_keep m c _), (h c _).trans (WI_keep m c _), (h c _).trans (WI_keep m c _), (h c _).trans (WI_keep m c _), (h c _).trans (WI_keep m c _), (h c _).trans (WI_keep m c _), (h c _).trans (WI_keep m c _), (h c _).trans (WI_keep m c _), (h c _).trans (WI_keep m c _), (h c _).trans (WI_keep m c _), (h c _).trans (WI_keep m c _), (h c _).trans (WI_keep m c _), (h c _).trans (WI_keep m c _), (h c _).trans (WI_keep m c _), (h c _).trans (WI_keep m c _), (h c _).trans (WI_keep m c _), (h c _).trans (WI_keep m c _), (h c _).trans (WI_keep m c _)⟩) (run_all m ρ)

end Cert.RI

end
-- ==== Proof.KI.ValueRun.lean ====
import proofs.«415211_j35837207118569_3_alg».proof.Proof.KI.Assemble
import proofs.«415211_j35837207118569_3_alg».proof.Proof.KI.ValueCond

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

theorem value_run (ρ : Dev nD → PrngReg) :
    θ_run defs (onTc (τ := τ) (main (F := F))) ⟨m, fun _ => 0, ρ⟩ (fun r => ∀ c : Dev nD,
      r.2.mem ((c.tc : Thread nD τ).loc main_v113) = V19 m (outs m) c main_v113
      ∧ r.2.mem ((c.tc : Thread nD τ).loc main_v137) = V19 m (outs m) c main_v137
      ∧ r.2.mem ((c.tc : Thread nD τ).loc main_v154) = V19 m (outs m) c main_v154
      ∧ r.2.mem ((c.tc : Thread nD τ).loc main_v197) = V19 m (outs m) c main_v197
      ∧ r.2.mem ((c.tc : Thread nD τ).loc main_v211) = V19 m (outs m) c main_v211
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  value_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ) hE4
    (reg0 m) (fun _ => .rfl) (fun _ => .rfl) (reg1 m) (fun _ => .rfl) (fun _ => .rfl)
    (reg2 m) (fun _ => .rfl) (fun _ => .rfl) (reg3 m) (fun _ => .rfl) (fun _ => .rfl)

end Cert.KI

end
-- ==== Proof.KI.LibDense.lean ====
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

private theorem coord_val_congr {s : Shape} (j : s.Idx) (p q : ℕ) (hp : p < s.rank) (hq : q < s.rank) (h : p = q) :
    (j ⟨p, hp⟩).val = (j ⟨q, hq⟩).val := by subst h; rfl

theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.KI.ValPay.lean ====
import proofs.«415211_j35837207118569_3_alg».proof.Proof.Gen.KernelIdeal.Skeleton
import proofs.«415211_j35837207118569_3_alg».proof.Proof.KI.LibDense
import Idealize.ShloMosaic.Lib.Pipeline.Value
import Idealize.ShloMosaic.Lib.ValueIdx
import Idealize.ShloMosaic.PureOps.Ideal.Laws

noncomputable section

namespace Cert.KI

open Cert.KernelIdeal Cert.KernelIdeal.Gen
open Idealize.ShloMosaic Idealize.ShloMosaic.ValueIdx

theorem pay0_apply (x0 : Vec Ideal S1000x128 .f32) (w : Vec Ideal S128x256 .f32) (p : Fin 1000) (q : Fin 256) :
    k0_pay1 x0 w (ix2 p q) = ∑ k : Fin 128, x0 (ix2 p k) * w (ix2 k q) := by
  unfold k0_pay1
  show FloatOps.matmul (F := Ideal) dot_S1000x128_S128x256_S1000x256_1_0_0_1_n_n none (truncf (F := Ideal) .bf16 (x0 : FVec Ideal S1000x128 .f32) bitsLt_bf16_f32)
    (truncf (F := Ideal) .bf16 (w : FVec Ideal S128x256 .f32) bitsLt_bf16_f32) (constant (F := Ideal) S1000x256 .f32 0x00000000#32) (ix2 p q) = _
  rw [Cert.LibDense.matmul_zero_apply _ none rfl rfl rfl rfl rfl rfl]
  rfl

theorem pay1_apply (x0 : Vec Ideal S1000x256 .f32) (w : Vec Ideal S256x256 .f32) (p : Fin 1000) (q : Fin 256) :
    k1_pay1 x0 w (ix2 p q) = ∑ k : Fin 256, x0 (ix2 p k) * w (ix2 k q) := by
  unfold k1_pay1
  simp only [shapeCast_self]
  show FloatOps.matmul (F := Ideal) dot_S1000x256_S256x256_S1000x256_1_0_0_1_n_n none (truncf (F := Ideal) .bf16 (x0 : FVec Ideal S1000x256 .f32) bitsLt_bf16_f32)
    (truncf (F := Ideal) .bf16 (w : FVec Ideal S256x256 .f32) bitsLt_bf16_f32) (constant (F := Ideal) S1000x256 .f32 0x00000000#32) (ix2 p q) = _
  rw [Cert.LibDense.matmul_zero_apply _ none rfl rfl rfl rfl rfl rfl]
  rfl

theorem row512_apply (b : Vec Ideal S1x512 .f32) (p : Fin 400) (q : Fin 512) :
    broadcastTo S400x512 b broadcasts_S1x512_S400x512 (ix2 p q) = b (ix2 (0 : Fin 1) q) := by
  refine broadcastTo_apply b _ _ _ fun a => ?_
  match a with
  | ⟨0, _⟩ => rfl
  | ⟨1, _⟩ => rfl

theorem row100_apply (b : Vec Ideal S1x100 .f32) (p : Fin 400) (q : Fin 100) :
    broadcastTo S400x100 b broadcasts_S1x100_S400x100 (ix2 p q) = b (ix2 (0 : Fin 1) q) := by
  refine broadcastTo_apply b _ _ _ fun a => ?_
  match a with
  | ⟨0, _⟩ => rfl
  | ⟨1, _⟩ => rfl

def hid (h0 : Vec Ideal S400x256 .f32) (aw1 : Vec Ideal S256x512 .f32) (ab1 : Vec Ideal S1x512 .f32) (p : Fin 400) (k : Fin 512) : EReal :=
  max ((∑ l : Fin 256, h0 (ix2 p l) * aw1 (ix2 l k)) + ab1 (ix2 (0 : Fin 1) k)) (Ideal.ofBits .f32 0x00000000#32)

theorem pay2_apply (h0 : Vec Ideal S400x256 .f32) (aw1 : Vec Ideal S256x512 .f32) (ab1 : Vec Ideal S1x512 .f32)
    (aw2 : Vec Ideal S512x100 .f32) (ab2 : Vec Ideal S1x100 .f32) (p : Fin 400) (q : Fin 100) :
    k2_pay1 h0 aw1 ab1 aw2 ab2 (ix2 p q)
      = (∑ k : Fin 512, hid h0 aw1 ab1 p k * aw2 (ix2 k q)) + ab2 (ix2 (0 : Fin 1) q) := by
  unfold k2_pay1
  simp only [shapeCast_self]
  show (FloatOps.matmul (F := Ideal) (φ₁ := .f32) dot_S400x512_S512x100_S400x100_1_0_0_1_n_n (some .fp32) _ (aw2 : FVec Ideal S512x100 .f32) (constant (F := Ideal) S400x100 .f32 0x00000000#32) (ix2 p q) : EReal)
      + (broadcastTo S400x100 ab2 broadcasts_S1x100_S400x100 (ix2 p q) : EReal) = _
  rw [Cert.LibDense.matmul_zero_apply _ (some .fp32) rfl rfl rfl rfl rfl rfl, row100_apply]
  congr 1
  refine Finset.sum_congr rfl fun k _ => ?_
  congr 1
  show max ((FloatOps.matmul (F := Ideal) dot_S400x256_S256x512_S400x512_1_0_0_1_n_n (some .fp32) (h0 : FVec Ideal S400x256 .f32) (aw1 : FVec Ideal S256x512 .f32) (constant (F := Ideal) S400x512 .f32 0x00000000#32) (ix2 p k) : EReal)
      + (broadcastTo S400x512 ab1 broadcasts_S1x512_S400x512 (ix2 p k) : EReal)) _ = _
  rw [Cert.LibDense.matmul_zero_apply _ (some .fp32) rfl rfl rfl rfl rfl rfl, row512_apply]
  rfl

end Cert.KI

end
-- ==== Proof.KI.Val0.lean ====
import proofs.«415211_j35837207118569_3_alg».proof.Proof.KI.Reg0
import proofs.«415211_j35837207118569_3_alg».proof.Proof.KI.ValPay
import Idealize.ShloMosaic.Lib.Pipeline.Value
import Idealize.ShloMosaic.Lib.ValueIdx
import Idealize.ShloMosaic.PureOps.Ideal.Laws

set_option maxRecDepth 16384

noncomputable section

namespace Cert.KI

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

def prod0 (x : S10000x128.Idx → EReal) (w : S128x256.Idx → EReal) : S10000x256.Idx → EReal :=
  fun i => ∑ k : Fin 128, x (ix2 (i 0 : Fin 10000) k) * w (ix2 k (i 1 : Fin 256))

theorem hz0 : (![0, 0] : Fin 2 → Nat) = fun _ => 0 := funext fun a => by fin_cases a <;> rfl

theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_3.index t (0 : Fin 2) = t.val
    ∧ win0_3.index t (1 : Fin 2) = 0 :=
  (by decide +kernel : ∀ t : Fin grid0.N, _)

theorem iblk0_0_apply (c : Dev nD) (t : Fin cfg0.N) (y : S1000x128.Idx) (i : S10000x128.Idx)
    (h0 : (i 0).val = 1000 * t.val + (y 0).val) (h1 : (i 1).val = (y 1).val) :
    (iblk0 V c 0 t : Vec Ideal S1000x128 .f32) y = (V c main_arg0 : S10000x128.Idx → EReal) i := by
  obtain ⟨e0, e1, -, -, -, -⟩ := idx_facts0 t
  unfold iblk0
  rw [View.read_apply]
  show V c main_arg0 (((cfg0.win 0).blk t).view.emb y) = V c main_arg0 i
  refine congrArg _ (funext fun a => Fin.ext ?_)
  match a with
  | ⟨0, _⟩ => show win0_0.index t (0 : Fin 2) * 1000 + 1 * (y 0).val = (i 0).val; omega
  | ⟨1, _⟩ => show win0_0.index t (1 : Fin 2) * 128 + 1 * (y 1).val = (i 1).val; omega

theorem iblk0_1_apply (c : Dev nD) (t : Fin cfg0.N) (y : S128x256.Idx) :
    (iblk0 V c 1 t : Vec Ideal S128x256 .f32) y = (V c main_arg3 : S128x256.Idx → EReal) y := by
  obtain ⟨-, -, e2, e3, -, -⟩ := idx_facts0 t
  unfold iblk0
  rw [View.read_apply]
  show V c main_arg3 (((cfg0.win 1).blk t).view.emb y) = V c main_arg3 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

theorem flushed0_eq (c : Dev nD) (t : Fin cfg0.N) :
    (dat0 V c).flushed 3 t = ((cfg0.win 3).blk t).view.read (Elt Ideal) (prod0 (V c main_arg0) (V c main_arg3)) := by
  show (cfg0.win 3).cut (grid0.coords t) ((dat0 V c).after 3 t) = _
  rw [after0_3]
  unfold out0_3
  rw [View.canon_unit_zero hz0]
  simp only [View.ld_unit_zero (S := S1000x128) hz0, View.ld_unit_zero (S := S128x256) hz0]
  obtain ⟨-, -, -, -, e4, e5⟩ := idx_facts0 t
  funext j
  obtain ⟨p, q, rfl⟩ : ∃ (p : Fin 1000) (q : Fin 256), j = ix2 p q := ⟨j 0, j 1, eq_ix2 j⟩
  show k0_pay1 (iblk0 V c 0 t) (iblk0 V c 1 t) (ix2 p q)
    = prod0 (V c main_arg0) (V c main_arg3) (((cfg0.win 3).blk t).view.emb (ix2 p q))
  rw [pay0_apply]
  unfold prod0
  refine Finset.sum_congr rfl fun k _ => ?_
  have hp : p.val < 1000 := p.isLt
  have ht : t.val < 10 := t.isLt
  have r0 : ((((cfg0.win 3).blk t).view.emb (ix2 p q)) 0).val = 1000 * t.val + p.val := by
    show win0_3.index t (0 : Fin 2) * 1000 + 1 * p.val = _; omega
  have r1 : ((((cfg0.win 3).blk t).view.emb (ix2 p q)) 1).val = q.val := by
    show win0_3.index t (1 : Fin 2) * 256 + 1 * q.val = _; omega
  rw [iblk0_0_apply V c t (ix2 p k) (ix2 (((cfg0.win 3).blk t).view.emb (ix2 p q) 0 : Fin 10000) k) r0 rfl,
    iblk0_1_apply V c t (ix2 k q)]
  refine congrArg _ (congrArg _ (funext fun a => Fin.ext ?_))
  match a with
  | ⟨0, _⟩ => rfl
  | ⟨1, _⟩ => exact r1.symm

theorem mem_blk0 (t : Fin cfg0.N) (i : S10000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v5).slice (win0_3.rect t)).set ↔ _
  rw [View.set_slice_whole, Rect.mem_set_unit]
  exact Iff.rfl

theorem cover0 (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 10 := by decide
  let t : Fin cfg0.N := ⟨(i 0).val / 1000, by rw [hN]; omega⟩
  obtain ⟨-, -, -, -, e4, e5⟩ := idx_facts0 t
  have ht : t.val = (i 0).val / 1000 := rfl
  refine ⟨t, flush0_3 t, ?_⟩
  rw [mem_blk0]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 256 ≤ (i 1).val ∧ (i 1).val < win0_3.index t (1 : Fin 2) * 256 + 256; omega

theorem val0 (c : Dev nD) : (dat0 V c).arrAt 3 cfg0.N = prod0 (V c main_arg0) (V c main_arg3) :=
  (dat0 V c).arrAt_eq_of_cover 3 (prod0 (V c main_arg0) (V c main_arg3)) (fun t _ => flushed0_eq V c t) cover0

theorem prod0_eq_dot (d : DotDims S10000x128 S128x256 S10000x256)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : S10000x128.Idx → EReal) (w : S128x256.Idx → EReal) :
    prod0 x w = Host.dotGeneral (F := Ideal) (φ₁ := .f32) (φ₂ := .f32) d prec (x : FVec Ideal S10000x128 .f32) (w : FVec Ideal S128x256 .f32) := by
  funext i
  obtain ⟨p, q, rfl⟩ : ∃ (p : Fin 10000) (q : Fin 256), i = ix2 p q := ⟨i 0, i 1, eq_ix2 i⟩
  exact (Cert.LibDense.dotGeneral_apply (φ₁ := .f32) (φ₂ := .f32) d prec .single hlc hrc hln hrn hlb hrb x w p q).symm

end Cert.KI

end
-- ==== Proof.KI.Val1.lean ====
import proofs.«415211_j35837207118569_3_alg».proof.Proof.KI.Reg1
import proofs.«415211_j35837207118569_3_alg».proof.Proof.KI.ValPay
import Idealize.ShloMosaic.Lib.Pipeline.Value
import Idealize.ShloMosaic.Lib.ValueIdx
import Idealize.ShloMosaic.PureOps.Ideal.Laws

set_option maxRecDepth 16384

noncomputable section

namespace Cert.KI

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

def prod1 (x : S10000x256.Idx → EReal) (w : S256x256.Idx → EReal) : S10000x256.Idx → EReal :=
  fun i => ∑ k : Fin 256, x (ix2 (i 0 : Fin 10000) k) * w (ix2 k (i 1 : Fin 256))

theorem hz1 : (![0, 0] : Fin 2 → Nat) = fun _ => 0 := funext fun a => by fin_cases a <;> rfl

theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_3.index t (0 : Fin 2) = t.val
    ∧ win1_3.index t (1 : Fin 2) = 0 :=
  (by decide +kernel : ∀ t : Fin grid1.N, _)

theorem iblk1_0_apply (c : Dev nD) (t : Fin cfg1.N) (y : S1000x256.Idx) (i : S10000x256.Idx)
    (h0 : (i 0).val = 1000 * t.val + (y 0).val) (h1 : (i 1).val = (y 1).val) :
    (iblk1 V c 0 t : Vec Ideal S1000x256 .f32) y = (V c main_v49 : S10000x256.Idx → EReal) i := by
  obtain ⟨e0, e1, -, -, -, -⟩ := idx_facts1 t
  unfold iblk1
  rw [View.read_apply]
  show V c main_v49 (((cfg1.win 0).blk t).view.emb y) = V c main_v49 i
  refine congrArg _ (funext fun a => Fin.ext ?_)
  match a with
  | ⟨0, _⟩ => show win1_0.index t (0 : Fin 2) * 1000 + 1 * (y 0).val = (i 0).val; omega
  | ⟨1, _⟩ => show win1_0.index t (1 : Fin 2) * 256 + 1 * (y 1).val = (i 1).val; omega

theorem iblk1_1_apply (c : Dev nD) (t : Fin cfg1.N) (y : S256x256.Idx) :
    (iblk1 V c 1 t : Vec Ideal S256x256 .f32) y = (V c main_arg5 : S256x256.Idx → EReal) y := by
  obtain ⟨-, -, e2, e3, -, -⟩ := idx_facts1 t
  unfold iblk1
  rw [View.read_apply]
  show V c main_arg5 (((cfg1.win 1).blk t).view.emb y) = V c main_arg5 y
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 256 + 1 * (y 1).val = (y 1).val; omega

theorem flushed1_eq (c : Dev nD) (t : Fin cfg1.N) :
    (dat1 V c).flushed 3 t = ((cfg1.win 3).blk t).view.read (Elt Ideal) (prod1 (V c main_v49) (V c main_arg5)) := by
  show (cfg1.win 3).cut (grid1.coords t) ((dat1 V c).after 3 t) = _
  rw [after1_3]
  unfold out1_3
  rw [View.canon_unit_zero hz1]
  simp only [View.ld_unit_zero (S := S1000x256) hz1, View.ld_unit_zero (S := S256x256) hz1]
  obtain ⟨-, -, -, -, e4, e5⟩ := idx_facts1 t
  funext j
  obtain ⟨p, q, rfl⟩ : ∃ (p : Fin 1000) (q : Fin 256), j = ix2 p q := ⟨j 0, j 1, eq_ix2 j⟩
  show k1_pay1 (iblk1 V c 0 t) (iblk1 V c 1 t) (ix2 p q)
    = prod1 (V c main_v49) (V c main_arg5) (((cfg1.win 3).blk t).view.emb (ix2 p q))
  rw [pay1_apply]
  unfold prod1
  refine Finset.sum_congr rfl fun k _ => ?_
  have hp : p.val < 1000 := p.isLt
  have ht : t.val < 10 := t.isLt
  have r0 : ((((cfg1.win 3).blk t).view.emb (ix2 p q)) 0).val = 1000 * t.val + p.val := by
    show win1_3.index t (0 : Fin 2) * 1000 + 1 * p.val = _; omega
  have r1 : ((((cfg1.win 3).blk t).view.emb (ix2 p q)) 1).val = q.val := by
    show win1_3.index t (1 : Fin 2) * 256 + 1 * q.val = _; omega
  rw [iblk1_0_apply V c t (ix2 p k) (ix2 (((cfg1.win 3).blk t).view.emb (ix2 p q) 0 : Fin 10000) k) r0 rfl,
    iblk1_1_apply V c t (ix2 k q)]
  refine congrArg _ (congrArg _ (funext fun a => Fin.ext ?_))
  match a with
  | ⟨0, _⟩ => rfl
  | ⟨1, _⟩ => exact r1.symm

theorem mem_blk1 (t : Fin cfg1.N) (i : S10000x256.Idx) :
    i ∈ ((cfg1.win 3).blk t).view.set ↔ ∀ a : Fin 2, win1_3.index t a * S1000x256.size a ≤ (i a).val ∧ (i a).val < win1_3.index t a * S1000x256.size a + S1000x256.size a := by
  show i ∈ ((View.whole main_v51).slice (win1_3.rect t)).set ↔ _
  rw [View.set_slice_whole, Rect.mem_set_unit]
  exact Iff.rfl

theorem cover1 (i : S10000x256.Idx) : ∃ t : Fin cfg1.N, (cfg1.win 3).flush t = true ∧ i ∈ ((cfg1.win 3).blk t).view.set := by
  have hi0 : (i 0).val < 10000 := (i 0).isLt
  have hi1 : (i 1).val < 256 := (i 1).isLt
  have hN : cfg1.N = 10 := by decide
  let t : Fin cfg1.N := ⟨(i 0).val / 1000, by rw [hN]; omega⟩
  obtain ⟨-, -, -, -, e4, e5⟩ := idx_facts1 t
  have ht : t.val = (i 0).val / 1000 := rfl
  refine ⟨t, flush1_3 t, ?_⟩
  rw [mem_blk1]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 256 ≤ (i 1).val ∧ (i 1).val < win1_3.index t (1 : Fin 2) * 256 + 256; omega

theorem val1 (c : Dev nD) : (dat1 V c).arrAt 3 cfg1.N = prod1 (V c main_v49) (V c main_arg5) :=
  (dat1 V c).arrAt_eq_of_cover 3 (prod1 (V c main_v49) (V c main_arg5)) (fun t _ => flushed1_eq V c t) cover1

theorem prod1_eq_dot (d : DotDims S10000x256 S256x256 S10000x256)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : S10000x256.Idx → EReal) (w : S256x256.Idx → EReal) :
    prod1 x w = Host.dotGeneral (F := Ideal) (φ₁ := .f32) (φ₂ := .f32) d prec (x : FVec Ideal S10000x256 .f32) (w : FVec Ideal S256x256 .f32) := by
  funext i
  obtain ⟨p, q, rfl⟩ : ∃ (p : Fin 10000) (q : Fin 256), i = ix2 p q := ⟨i 0, i 1, eq_ix2 i⟩
  exact (Cert.LibDense.dotGeneral_apply (φ₁ := .f32) (φ₂ := .f32) d prec .single hlc hrc hln hrn hlb hrb x w p q).symm

end Cert.KI

end
-- ==== Proof.KI.Val2.lean ====
import proofs.«415211_j35837207118569_3_alg».proof.Proof.KI.Reg2
import proofs.«415211_j35837207118569_3_alg».proof.Proof.KI.ValPay
import Idealize.ShloMosaic.Lib.Pipeline.Value
import Idealize.ShloMosaic.Lib.ValueIdx
import Idealize.ShloMosaic.PureOps.Ideal.Laws
import Idealize.ShloMosaic.Lib.KernelVsHost

set_option maxRecDepth 16384

noncomputable section

namespace Cert.KI

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

def hid2 (h : S10000x256.Idx → EReal) (aw1 : S256x512.Idx → EReal) (ab1 : S1x512.Idx → EReal) (r : Fin 10000) (k : Fin 512) : EReal :=
  max ((∑ l : Fin 256, h (ix2 r l) * aw1 (ix2 l k)) + ab1 (ix2 (0 : Fin 1) k)) (Ideal.ofBits .f32 0x00000000#32)

def mlp2 (h : S10000x256.Idx → EReal) (aw1 : S256x512.Idx → EReal) (ab1 : S1x512.Idx → EReal)
    (aw2 : S512x100.Idx → EReal) (ab2 : S1x100.Idx → EReal) : S10000x100.Idx → EReal :=
  fun i => (∑ k : Fin 512, hid2 h aw1 ab1 (i 0 : Fin 10000) k * aw2 (ix2 k (i 1 : Fin 100))) + ab2 (ix2 (0 : Fin 1) (i 1 : Fin 100))

theorem hz2 : (![0, 0] : Fin 2 → Nat) = fun _ => 0 := funext fun a => by fin_cases a <;> rfl

theorem idx_facts2 : ∀ t : Fin cfg2.N, win2_0.index t (0 : Fin 2) = t.val
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val
    ∧ win2_5.index t (1 : Fin 2) = 0 :=
  (by decide +kernel : ∀ t : Fin grid2.N, _)

theorem iblk2_0_apply (c : Dev nD) (t : Fin cfg2.N) (y : S400x256.Idx) (i : S10000x256.Idx)
    (h0 : (i 0).val = 400 * t.val + (y 0).val) (h1 : (i 1).val = (y 1).val) :
    (iblk2 V c 0 t : Vec Ideal S400x256 .f32) y = (V c main_v94 : S10000x256.Idx → EReal) i := by
  obtain ⟨e0, e1, -⟩ := idx_facts2 t
  unfold iblk2
  rw [View.read_apply]
  show V c main_v94 (((cfg2.win 0).blk t).view.emb y) = V c main_v94 i
  refine congrArg _ (funext fun a => Fin.ext ?_)
  match a with
  | ⟨0, _⟩ => show win2_0.index t (0 : Fin 2) * 400 + 1 * (y 0).val = (i 0).val; omega
  | ⟨1, _⟩ => show win2_0.index t (1 : Fin 2) * 256 + 1 * (y 1).val = (i 1).val; omega

theorem iblk2_1_apply (c : Dev nD) (t : Fin cfg2.N) (y : S256x512.Idx) :
    (iblk2 V c 1 t : Vec Ideal S256x512 .f32) y = (V c main_arg7 : S256x512.Idx → EReal) y := by
  obtain ⟨-, -, e2, e3, -⟩ := idx_facts2 t
  unfold iblk2
  rw [View.read_apply]
  show V c main_arg7 (((cfg2.win 1).blk t).view.emb y) = V c main_arg7 y
  refine congrArg _ (funext fun a => Fin.ext ?_)
  match a with
  | ⟨0, _⟩ => show win2_1.index t (0 : Fin 2) * 256 + 1 * (y 0).val = (y 0).val; omega
  | ⟨1, _⟩ => show win2_1.index t (1 : Fin 2) * 512 + 1 * (y 1).val = (y 1).val; omega

theorem iblk2_2_apply (c : Dev nD) (t : Fin cfg2.N) (y : S1x512.Idx) :
    (iblk2 V c 2 t : Vec Ideal S1x512 .f32) y = (V c main_v95 : S1x512.Idx → EReal) y := by
  obtain ⟨-, -, -, -, e4, e5, -⟩ := idx_facts2 t
  unfold iblk2
  rw [View.read_apply]
  show V c main_v95 (((cfg2.win 2).blk t).view.emb y) = V c main_v95 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 512 + 1 * (y 1).val = (y 1).val; omega

theorem iblk2_3_apply (c : Dev nD) (t : Fin cfg2.N) (y : S512x100.Idx) :
    (iblk2 V c 3 t : Vec Ideal S512x100 .f32) y = (V c main_arg9 : S512x100.Idx → EReal) y := by
  obtain ⟨-, -, -, -, -, -, e6, e7, -⟩ := idx_facts2 t
  unfold iblk2
  rw [View.read_apply]
  show V c main_arg9 (((cfg2.win 3).blk t).view.emb y) = V c main_arg9 y
  refine congrArg _ (funext fun a => Fin.ext ?_)
  match a with
  | ⟨0, _⟩ => show win2_3.index t (0 : Fin 2) * 512 + 1 * (y 0).val = (y 0).val; omega
  | ⟨1, _⟩ => show win2_3.index t (1 : Fin 2) * 100 + 1 * (y 1).val = (y 1).val; omega

theorem iblk2_4_apply (c : Dev nD) (t : Fin cfg2.N) (y : S1x100.Idx) :
    (iblk2 V c 4 t : Vec Ideal S1x100 .f32) y = (V c main_v96 : S1x100.Idx → EReal) y := by
  obtain ⟨-, -, -, -, -, -, -, -, e8, e9, -⟩ := idx_facts2 t
  unfold iblk2
  rw [View.read_apply]
  show V c main_v96 (((cfg2.win 4).blk t).view.emb y) = V c main_v96 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 100 + 1 * (y 1).val = (y 1).val; omega

theorem hid_blk (c : Dev nD) (t : Fin cfg2.N) (p : Fin 400) (r : Fin 10000) (hr : r.val = 400 * t.val + p.val) (k : Fin 512) :
    hid (iblk2 V c 0 t) (iblk2 V c 1 t) (iblk2 V c 2 t) p k = hid2 (V c main_v94) (V c main_arg7) (V c main_v95) r k := by
  unfold hid hid2
  rw [iblk2_2_apply V c t]
  refine congrArg (fun s => max (s + _) _) (Finset.sum_congr rfl fun l _ => ?_)
  rw [iblk2_0_apply V c t (ix2 p l) (ix2 r l) hr rfl, iblk2_1_apply V c t]

theorem flushed2_eq (c : Dev nD) (t : Fin cfg2.N) :
    (dat2 V c).flushed 5 t = ((cfg2.win 5).blk t).view.read (Elt Ideal)
      (mlp2 (V c main_v94) (V c main_arg7) (V c main_v95) (V c main_arg9) (V c main_v96)) := by
  show (cfg2.win 5).cut (grid2.coords t) ((dat2 V c).after 5 t) = _
  rw [after2_5]
  unfold out2_5
  rw [View.canon_unit_zero hz2]
  simp only [View.ld_unit_zero (S := S400x256) hz2, View.ld_unit_zero (S := S256x512) hz2, View.ld_unit_zero (S := S1x512) hz2,
    View.ld_unit_zero (S := S512x100) hz2, View.ld_unit_zero (S := S1x100) hz2]
  obtain ⟨-, -, -, -, -, -, -, -, -, -, e10, e11⟩ := idx_facts2 t
  funext j
  obtain ⟨p, q, rfl⟩ : ∃ (p : Fin 400) (q : Fin 100), j = ix2 p q := ⟨j 0, j 1, eq_ix2 j⟩
  show k2_pay1 (iblk2 V c 0 t) (iblk2 V c 1 t) (iblk2 V c 2 t) (iblk2 V c 3 t) (iblk2 V c 4 t) (ix2 p q)
    = mlp2 (V c main_v94) (V c main_arg7) (V c main_v95) (V c main_arg9) (V c main_v96) (((cfg2.win 5).blk t).view.emb (ix2 p q))
  rw [pay2_apply]
  unfold mlp2
  have hp : p.val < 400 := p.isLt
  have ht : t.val < 25 := t.isLt
  have r0 : ((((cfg2.win 5).blk t).view.emb (ix2 p q)) 0).val = 400 * t.val + p.val := by
    show win2_5.index t (0 : Fin 2) * 400 + 1 * p.val = _; omega
  have r1 : ((((cfg2.win 5).blk t).view.emb (ix2 p q)) 1 : Fin 100) = q := Fin.ext (by
    show win2_5.index t (1 : Fin 2) * 100 + 1 * q.val = _; omega)
  rw [r1, iblk2_4_apply V c t]
  refine congrArg (· + _) (Finset.sum_congr rfl fun k _ => ?_)
  rw [hid_blk V c t p _ r0 k, iblk2_3_apply V c t]

theorem mem_blk2 (t : Fin cfg2.N) (i : S10000x100.Idx) :
    i ∈ ((cfg2.win 5).blk t).view.set ↔ ∀ a : Fin 2, win2_5.index t a * S400x100.size a ≤ (i a).val ∧ (i a).val < win2_5.index t a * S400x100.size a + S400x100.size a := by
  show i ∈ ((View.whole main_v97).slice (win2_5.rect t)).set ↔ _
  rw [View.set_slice_whole, Rect.mem_set_unit]
  exact Iff.rfl

theorem cover2 (i : S10000x100.Idx) : ∃ t : Fin cfg2.N, (cfg2.win 5).flush t = true ∧ i ∈ ((cfg2.win 5).blk t).view.set := by
  have hi0 : (i 0).val < 10000 := (i 0).isLt
  have hi1 : (i 1).val < 100 := (i 1).isLt
  have hN : cfg2.N = 25 := by decide
  let t : Fin cfg2.N := ⟨(i 0).val / 400, by rw [hN]; omega⟩
  obtain ⟨-, -, -, -, -, -, -, -, -, -, e10, e11⟩ := idx_facts2 t
  have ht : t.val = (i 0).val / 400 := rfl
  refine ⟨t, flush2_5 t, ?_⟩
  rw [mem_blk2]
  intro a
  match a with
  | ⟨0, _⟩ => show win2_5.index t (0 : Fin 2) * 400 ≤ (i 0).val ∧ (i 0).val < win2_5.index t (0 : Fin 2) * 400 + 400; omega
  | ⟨1, _⟩ => show win2_5.index t (1 : Fin 2) * 100 ≤ (i 1).val ∧ (i 1).val < win2_5.index t (1 : Fin 2) * 100 + 100; omega

theorem val2 (c : Dev nD) : (dat2 V c).arrAt 5 cfg2.N
    = mlp2 (V c main_v94) (V c main_arg7) (V c main_v95) (V c main_arg9) (V c main_v96) :=
  (dat2 V c).arrAt_eq_of_cover 5 _ (fun t _ => flushed2_eq V c t) cover2

theorem mlp2_eq_host
    (d1 : DotDims S10000x256 S256x512 ⟨2, ![10000, 512]⟩)
    (h1lc : d1.lhsContracting = [1]) (h1rc : d1.rhsContracting = [0]) (h1ln : d1.lhsNonContracting = [0])
    (h1rn : d1.rhsNonContracting = [1]) (h1lb : d1.lhsBatch = []) (h1rb : d1.rhsBatch = [])
    (d2 : DotDims ⟨2, ![10000, 512]⟩ S512x100 S10000x100)
    (h2lc : d2.lhsContracting = [1]) (h2rc : d2.rhsContracting = [0]) (h2ln : d2.lhsNonContracting = [0])
    (h2rn : d2.rhsNonContracting = [1]) (h2lb : d2.lhsBatch = []) (h2rb : d2.rhsBatch = [])
    (hb1 : S1x512.BroadcastsInDim ⟨2, ![10000, 512]⟩ ![0, 1])
    (hb0 : S_.BroadcastsInDim ⟨2, ![10000, 512]⟩ ![])
    (hb2 : S1x100.BroadcastsInDim S10000x100 ![0, 1])
    (prec1 prec2 : Option ContractPrecision)
    (h : S10000x256.Idx → EReal) (aw1 : S256x512.Idx → EReal) (ab1 : S1x512.Idx → EReal)
    (aw2 : S512x100.Idx → EReal) (ab2 : S1x100.Idx → EReal) :
    mlp2 h aw1 ab1 aw2 ab2
      = addf (F := Ideal) (φ := .f32)
          (Host.dotGeneral (F := Ideal) (φ₁ := .f32) (φ₂ := .f32) d2 prec2
            (maximumf (F := Ideal) (φ := .f32)
              (addf (F := Ideal) (φ := .f32) (Host.dotGeneral (F := Ideal) (φ₁ := .f32) (φ₂ := .f32) d1 prec1 h aw1)
                (broadcastInDim ⟨2, ![10000, 512]⟩ ![0, 1] hb1 ab1))
              (broadcastInDim ⟨2, ![10000, 512]⟩ ![] hb0 (constant (F := Ideal) S_ .f32 0x00000000#32)))
            aw2)
          (broadcastInDim S10000x100 ![0, 1] hb2 ab2) := by
  funext i
  obtain ⟨p, q, rfl⟩ : ∃ (p : Fin 10000) (q : Fin 100), i = ix2 p q := ⟨i 0, i 1, eq_ix2 i⟩
  show _ = (FloatOps.dotGeneral (F := Ideal) (φ₁ := .f32) (φ₂ := .f32) d2 prec2 .single _ aw2 (ix2 p q) : EReal)
      + (broadcastInDim S10000x100 ![0, 1] hb2 ab2 (ix2 p q) : EReal)
  rw [Cert.LibDense.dotGeneral_apply (φ₁ := .f32) (φ₂ := .f32) d2 prec2 .single h2lc h2rc h2ln h2rn h2lb h2rb _ aw2 p q,
    broadcastInDim_oneRow_apply hb2 ab2 p q]
  unfold mlp2
  refine congrArg (· + _) (Finset.sum_congr rfl fun k _ => ?_)
  refine congrArg (· * _) ?_
  show hid2 h aw1 ab1 p k
    = max ((FloatOps.dotGeneral (F := Ideal) (φ₁ := .f32) (φ₂ := .f32) d1 prec1 .single h aw1 (ix2 p k) : EReal)
        + (broadcastInDim ⟨2, ![10000, 512]⟩ ![0, 1] hb1 ab1 (ix2 p k) : EReal)) (Ideal.ofBits .f32 0x00000000#32)
  rw [Cert.LibDense.dotGeneral_apply (φ₁ := .f32) (φ₂ := .f32) d1 prec1 .single h1lc h1rc h1ln h1rn h1lb h1rb h aw1 p k,
    broadcastInDim_oneRow_apply hb1 ab1 p k]
  rfl

end Cert.KI

end
-- ==== Proof.KI.Val2Ref.lean ====
import proofs.«415211_j35837207118569_3_alg».proof.Proof.KI.Val2
import proofs.«415211_j35837207118569_3_alg».proof.Proof.RI.Ops

set_option maxRecDepth 16384

noncomputable section

namespace Cert.KI

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (V : (c : Dev nD) → (b : Ref sig .tc) → Buf (Elt Ideal) ((c : Thread nD τ).loc b))

theorem oneRow_of_vec {n : Nat} (hb : (⟨1, ![n]⟩ : Shape).BroadcastsInDim ⟨2, ![1, n]⟩ ![1])
    (v : (⟨1, ![n]⟩ : Shape).Idx → EReal) (k : Fin n) :
    broadcastInDim ⟨2, ![1, n]⟩ ![1] hb v (ix2 (0 : Fin 1) k) = v (ix1 k) := by
  refine broadcastInDim_apply ![1] hb v (ix2 (0 : Fin 1) k) (ix1 k) ?_
  intro a
  match a with
  | ⟨0, _⟩ =>
    show k.val = if n = 1 then 0 else k.val
    split_ifs with hn
    · have := k.isLt; omega
    · rfl

theorem oneRow_eq {n : Nat} (hb : (⟨1, ![n]⟩ : Shape).BroadcastsInDim ⟨2, ![1, n]⟩ ![1])
    (v : (⟨1, ![n]⟩ : Shape).Idx → EReal) (b : (⟨2, ![1, n]⟩ : Shape).Idx → EReal)
    (h : ∀ k : Fin n, b (ix2 (0 : Fin 1) k) = v (ix1 k)) : broadcastInDim ⟨2, ![1, n]⟩ ![1] hb v = b := by
  funext y
  obtain ⟨a, k, rfl⟩ : ∃ (a : Fin 1) (k : Fin n), y = ix2 a k := ⟨y 0, y 1, eq_ix2 y⟩
  have ha : a = 0 := Subsingleton.elim _ _
  subst ha
  rw [h k]
  exact oneRow_of_vec hb v k

theorem val2_ref (c : Dev nD) (Wr : Valuation Cert.ReferenceIdeal.τ Cert.ReferenceIdeal.sig (Elt Ideal))
    (hh : Wr Cert.ReferenceIdeal.main_v92 = V c main_v94) (haw1 : Wr Cert.ReferenceIdeal.main_arg7 = V c main_arg7)
    (hab1 : ∀ k : Fin 512, V c main_v95 (ix2 (0 : Fin 1) k) = Wr Cert.ReferenceIdeal.main_arg8 (ix1 k))
    (haw2 : Wr Cert.ReferenceIdeal.main_arg9 = V c main_arg9)
    (hab2 : ∀ k : Fin 100, V c main_v96 (ix2 (0 : Fin 1) k) = Wr Cert.ReferenceIdeal.main_arg10 (ix1 k)) :
    (dat2 V c).arrAt 5 cfg2.N = StableHlo.after (Cert.RI.ropsF (F := Ideal)) Wr Cert.ReferenceIdeal.main_v101 := by
  have e1 : broadcastInDim Cert.ReferenceIdeal.S1x512 ![1] Cert.ReferenceIdeal.Facts₀.bcast_S512_S1x512_1
      (Wr Cert.ReferenceIdeal.main_arg8) = V c main_v95 :=
    oneRow_eq _ _ _ hab1
  have e2 : broadcastInDim Cert.ReferenceIdeal.S1x100 ![1] Cert.ReferenceIdeal.Facts₀.bcast_S100_S1x100_1
      (Wr Cert.ReferenceIdeal.main_arg10) = V c main_v96 :=
    oneRow_eq _ _ _ hab2
  rw [val2 V c]
  symm
  after_results
  rw [hh, haw1, haw2, e1, e2]
  refine (mlp2_eq_host _ ?_ ?_ ?_ ?_ ?_ ?_ _ ?_ ?_ ?_ ?_ ?_ ?_ _ _ _ none none _ _ _ _ _).symm <;> rfl

end Cert.KI

end
-- ==== Proof.KI.Val012.lean ====
import proofs.«415211_j35837207118569_3_alg».proof.Proof.KI.Val0
import proofs.«415211_j35837207118569_3_alg».proof.Proof.KI.Val1
import proofs.«415211_j35837207118569_3_alg».proof.Proof.KI.Val2Ref
import proofs.«415211_j35837207118569_3_alg».proof.Proof.RI.Ops
import Idealize.ShloMosaic.Lib.StableHlo.Run

noncomputable section

namespace Cert.KI

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat)

variable (V : (c : Dev nD) → (b : Ref sig .tc) → Buf (Elt Ideal) ((c : Thread nD τ).loc b))

theorem val0_ref (c : Dev nD) (Wr : Valuation Cert.ReferenceIdeal.τ Cert.ReferenceIdeal.sig (Elt Ideal))
    (hx : Wr Cert.ReferenceIdeal.main_arg0 = V c main_arg0) (hw : Wr Cert.ReferenceIdeal.main_arg3 = V c main_arg3) :
    (dat0 V c).arrAt 3 cfg0.N = StableHlo.after (Cert.RI.ropsB (F := Ideal)) Wr Cert.ReferenceIdeal.main_v4 := by
  rw [val0 V c]
  symm
  after_results
  rw [hx, hw]
  exact (prod0_eq_dot _ rfl rfl rfl rfl rfl rfl none _ _).symm

theorem val1_ref (c : Dev nD) (Wr : Valuation Cert.ReferenceIdeal.τ Cert.ReferenceIdeal.sig (Elt Ideal))
    (hx : Wr Cert.ReferenceIdeal.main_v48 = V c main_v49) (hw : Wr Cert.ReferenceIdeal.main_arg5 = V c main_arg5) :
    (dat1 V c).arrAt 3 cfg1.N = StableHlo.after (Cert.RI.ropsD (F := Ideal)) Wr Cert.ReferenceIdeal.main_v49 := by
  rw [val1 V c]
  symm
  after_results
  rw [hx, hw]
  exact (prod1_eq_dot _ rfl rfl rfl rfl rfl rfl none _ _).symm

end Cert.KI

end
-- ==== Proof.Bridge.SimL1.lean ====
import proofs.«415211_j35837207118569_3_alg».proof.Proof.Gen.KernelIdeal.Launch
import proofs.«415211_j35837207118569_3_alg».proof.Proof.RI.Ops
import Idealize.ShloMosaic.Lib.StableHlo.Run
import Idealize.ShloMosaic.PureOps.Ideal

set_option Elab.async false

noncomputable section

namespace Cert.Bridge

open Idealize.ShloMosaic Idealize.ShloMosaic.TcCoe Idealize.SL.Sem
open Idealize.ShloMosaic.StableHlo (after)

theorem sim_rowcol (Vk : Valuation Cert.KernelIdeal.τ Cert.KernelIdeal.sig (Elt Ideal)) (Vr : Valuation Cert.ReferenceIdeal.τ Cert.ReferenceIdeal.sig (Elt Ideal)) (hei : Vk Cert.KernelIdeal.main_arg1 = Vr Cert.ReferenceIdeal.main_arg1) :
    after Cert.KernelIdeal.Gen.hostOps0 Vk Cert.KernelIdeal.main_v1 = after Cert.RI.ropsA Vr Cert.ReferenceIdeal.main_v1
    ∧ after Cert.KernelIdeal.Gen.hostOps0 Vk Cert.KernelIdeal.main_v3 = after Cert.RI.ropsA Vr Cert.ReferenceIdeal.main_v3 := by
  constructor
  · after_results_simp
    rw [hei]
    rfl
  · after_results_simp
    rw [hei]
    rfl

set_option maxHeartbeats 4000000 in

theorem sim_layer1 (Vk : Valuation Cert.KernelIdeal.τ Cert.KernelIdeal.sig (Elt Ideal)) (Vr : Valuation Cert.ReferenceIdeal.τ Cert.ReferenceIdeal.sig (Elt Ideal))
    (hxw : Vk Cert.KernelIdeal.main_v5 = Vr Cert.ReferenceIdeal.main_v4)
    (hrow : Vk Cert.KernelIdeal.main_v1 = Vr Cert.ReferenceIdeal.main_v1)
    (hcol : Vk Cert.KernelIdeal.main_v3 = Vr Cert.ReferenceIdeal.main_v3)
    (hew : Vk Cert.KernelIdeal.main_arg2 = Vr Cert.ReferenceIdeal.main_arg2)
    (hb : Vk Cert.KernelIdeal.main_arg4 = Vr Cert.ReferenceIdeal.main_arg4) :
    after Cert.KernelIdeal.Gen.hostOps1_2 (after Cert.KernelIdeal.Gen.hostOps1_1 (after Cert.KernelIdeal.Gen.hostOps1 Vk)) Cert.KernelIdeal.main_v49
      = after Cert.RI.ropsC Vr Cert.ReferenceIdeal.main_v48 := by
  after_results_simp
  rw [hxw, hrow, hcol, hew, hb]
  rfl

end Cert.Bridge

end
-- ==== Proof.Bridge.SimL2.lean ====
import proofs.«415211_j35837207118569_3_alg».proof.Proof.Gen.KernelIdeal.Launch
import proofs.«415211_j35837207118569_3_alg».proof.Proof.RI.Ops
import Idealize.ShloMosaic.Lib.StableHlo.Run
import Idealize.ShloMosaic.PureOps.Ideal
import Idealize.ShloMosaic.Lib.Pipeline.Frame
import Idealize.ShloMosaic.Lib.Pipeline.Value
import Idealize.ShloMosaic.Lib.ValueIdx

set_option Elab.async false

noncomputable section

namespace Cert.Bridge

open Idealize.ShloMosaic Idealize.ShloMosaic.TcCoe Idealize.SL.Sem
open Idealize.ShloMosaic.StableHlo (after)
open Idealize.ShloMosaic.ValueIdx (ix1 ix2)

set_option maxHeartbeats 4000000 in

theorem sim_layer2 (Vk : Valuation Cert.KernelIdeal.τ Cert.KernelIdeal.sig (Elt Ideal)) (Vr : Valuation Cert.ReferenceIdeal.τ Cert.ReferenceIdeal.sig (Elt Ideal))
    (hhw : Vk Cert.KernelIdeal.main_v51 = Vr Cert.ReferenceIdeal.main_v49)
    (hrow : Vk Cert.KernelIdeal.main_v1 = Vr Cert.ReferenceIdeal.main_v1)
    (hcol : Vk Cert.KernelIdeal.main_v3 = Vr Cert.ReferenceIdeal.main_v3)
    (hew : Vk Cert.KernelIdeal.main_arg2 = Vr Cert.ReferenceIdeal.main_arg2)
    (hb : Vk Cert.KernelIdeal.main_arg6 = Vr Cert.ReferenceIdeal.main_arg6) :
    after Cert.KernelIdeal.Gen.hostOps2 Vk Cert.KernelIdeal.main_v94 = after Cert.RI.ropsE Vr Cert.ReferenceIdeal.main_v92 := by
  rw [show (Cert.RI.ropsE : List (HloOp Cert.ReferenceIdeal.τ Cert.ReferenceIdeal.sig (Elt Ideal))) = Cert.RI.ropsE_0 ++ Cert.RI.ropsE_1 from rfl,
    StableHlo.after_append]
  after_results_simp
  rw [hhw, hrow, hcol, hew, hb]
  rfl

theorem reshape_ab1 (Vk : Valuation Cert.KernelIdeal.τ Cert.KernelIdeal.sig (Elt Ideal)) (k : Fin 512) :
    after Cert.KernelIdeal.Gen.hostOps2 Vk Cert.KernelIdeal.main_v95 (ix2 (0 : Fin 1) k) = Vk Cert.KernelIdeal.main_arg8 (ix1 k) := by
  after_results_simp
  exact shapeCast_apply _ _ (ix2 (0 : Fin 1) k) (ix1 k) (by
    rw [Shape.rowMajor_val_one, Shape.rowMajor_val_two]; show k.val = 0 * 512 + k.val; omega)

theorem reshape_ab2 (Vk : Valuation Cert.KernelIdeal.τ Cert.KernelIdeal.sig (Elt Ideal)) (k : Fin 100) :
    after Cert.KernelIdeal.Gen.hostOps2 Vk Cert.KernelIdeal.main_v96 (ix2 (0 : Fin 1) k) = Vk Cert.KernelIdeal.main_arg10 (ix1 k) := by
  after_results_simp
  exact shapeCast_apply _ _ (ix2 (0 : Fin 1) k) (ix1 k) (by
    rw [Shape.rowMajor_val_one, Shape.rowMajor_val_two]; show k.val = 0 * 100 + k.val; omega)

end Cert.Bridge

end
-- ==== Proof.Bridge.SimSm.lean ====
import proofs.«415211_j35837207118569_3_alg».proof.Proof.Gen.KernelIdeal.Launch
import proofs.«415211_j35837207118569_3_alg».proof.Proof.RI.Ops
import Idealize.ShloMosaic.Lib.StableHlo.Run
import Idealize.ShloMosaic.PureOps.Ideal

set_option Elab.async false

noncomputable section

namespace Cert.Bridge

open Idealize.ShloMosaic Idealize.ShloMosaic.TcCoe Idealize.SL.Sem
open Idealize.ShloMosaic.StableHlo (after)

set_option maxHeartbeats 4000000 in

theorem sim_softmax (Vk : Valuation Cert.KernelIdeal.τ Cert.KernelIdeal.sig (Elt Ideal)) (Vr : Valuation Cert.ReferenceIdeal.τ Cert.ReferenceIdeal.sig (Elt Ideal)) (hlog : Vk Cert.KernelIdeal.main_v97 = Vr Cert.ReferenceIdeal.main_v101) :
    after Cert.KernelIdeal.Gen.hostOps3 Vk Cert.KernelIdeal.main_v113 = after Cert.RI.ropsG Vr Cert.ReferenceIdeal.main_v117 := by
  after_results_simp
  rw [hlog]

end Cert.Bridge

end
-- ==== Proof.Bridge.SimFront.lean ====
import proofs.«415211_j35837207118569_3_alg».proof.Proof.Bridge.SimL1
import proofs.«415211_j35837207118569_3_alg».proof.Proof.Bridge.SimL2
import proofs.«415211_j35837207118569_3_alg».proof.Proof.Bridge.SimSm
-- ==== Proof.Bridge.PersistK.lean ====
import proofs.«415211_j35837207118569_3_alg».proof.Proof.Gen.KernelIdeal.Regions

set_option maxRecDepth 1776

noncomputable section

namespace Cert.Bridge

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (outs : Outs (F := F)) (c : Dev nD)

-- a buffer none of the items between two boundaries writes holds at the later what it held at the earlier
theorem keep0_1 (r : Ref sig .tc) (h1 : r ∉ (hostOps0_W : List (Ref sig .tc)) := by decide) : V1 m c r = V0 m c r := V1_of m c r h1
theorem keep0_2 (r : Ref sig .tc) (h1 : r ∉ (hostOps0_W : List (Ref sig .tc)) := by decide) (h2 : r ∉ ([main_v5] : List (Ref sig .tc)) := by decide) :
    V2 m outs c r = V0 m c r := (V2_of m outs c r h2).trans (keep0_1 m c r h1)
theorem keep0_3 (r : Ref sig .tc) (h1 : r ∉ (hostOps0_W : List (Ref sig .tc)) := by decide) (h2 : r ∉ ([main_v5] : List (Ref sig .tc)) := by decide) (h3 : r ∉ (hostOps1_W : List (Ref sig .tc)) := by decide) :
    V3 m outs c r = V0 m c r := (V3_of m outs c r h3).trans (keep0_2 m outs c r h1 h2)
theorem keep0_4 (r : Ref sig .tc) (h1 : r ∉ (hostOps0_W : List (Ref sig .tc)) := by decide) (h2 : r ∉ ([main_v5] : List (Ref sig .tc)) := by decide) (h3 : r ∉ (hostOps1_W : List (Ref sig .tc)) := by decide) (h4 : r ∉ (hostOps1_1_W : List (Ref sig .tc)) := by decide) :
    V4 m outs c r = V0 m c r := (V4_of m outs c r h4).trans (keep0_3 m outs c r h1 h2 h3)
theorem keep0_5 (r : Ref sig .tc) (h1 : r ∉ (hostOps0_W : List (Ref sig .tc)) := by decide) (h2 : r ∉ ([main_v5] : List (Ref sig .tc)) := by decide) (h3 : r ∉ (hostOps1_W : List (Ref sig .tc)) := by decide) (h4 : r ∉ (hostOps1_1_W : List (Ref sig .tc)) := by decide) (h5 : r ∉ (hostOps1_2_W : List (Ref sig .tc)) := by decide) :
    V5 m outs c r = V0 m c r := (V5_of m outs c r h5).trans (keep0_4 m outs c r h1 h2 h3 h4)
theorem keep0_6 (r : Ref sig .tc) (h1 : r ∉ (hostOps0_W : List (Ref sig .tc)) := by decide) (h2 : r ∉ ([main_v5] : List (Ref sig .tc)) := by decide) (h3 : r ∉ (hostOps1_W : List (Ref sig .tc)) := by decide) (h4 : r ∉ (hostOps1_1_W : List (Ref sig .tc)) := by decide) (h5 : r ∉ (hostOps1_2_W : List (Ref sig .tc)) := by decide) (h6 : r ∉ ([main_v51] : List (Ref sig .tc)) := by decide) :
    V6 m outs c r = V0 m c r := (V6_of m outs c r h6).trans (keep0_5 m outs c r h1 h2 h3 h4 h5)
theorem keep0_7 (r : Ref sig .tc) (h1 : r ∉ (hostOps0_W : List (Ref sig .tc)) := by decide) (h2 : r ∉ ([main_v5] : List (Ref sig .tc)) := by decide) (h3 : r ∉ (hostOps1_W : List (Ref sig .tc)) := by decide) (h4 : r ∉ (hostOps1_1_W : List (Ref sig .tc)) := by decide) (h5 : r ∉ (hostOps1_2_W : List (Ref sig .tc)) := by decide) (h6 : r ∉ ([main_v51] : List (Ref sig .tc)) := by decide) (h7 : r ∉ (hostOps2_W : List (Ref sig .tc)) := by decide) :
    V7 m outs c r = V0 m c r := (V7_of m outs c r h7).trans (keep0_6 m outs c r h1 h2 h3 h4 h5 h6)
theorem keep0_8 (r : Ref sig .tc) (h1 : r ∉ (hostOps0_W : List (Ref sig .tc)) := by decide) (h2 : r ∉ ([main_v5] : List (Ref sig .tc)) := by decide) (h3 : r ∉ (hostOps1_W : List (Ref sig .tc)) := by decide) (h4 : r ∉ (hostOps1_1_W : List (Ref sig .tc)) := by decide) (h5 : r ∉ (hostOps1_2_W : List (Ref sig .tc)) := by decide) (h6 : r ∉ ([main_v51] : List (Ref sig .tc)) := by decide) (h7 : r ∉ (hostOps2_W : List (Ref sig .tc)) := by decide) (h8 : r ∉ ([main_v97] : List (Ref sig .tc)) := by decide) :
    V8 m outs c r = V0 m c r := (V8_of m outs c r h8).trans (keep0_7 m outs c r h1 h2 h3 h4 h5 h6 h7)
theorem keep0_9 (r : Ref sig .tc) (h1 : r ∉ (hostOps0_W : List (Ref sig .tc)) := by decide) (h2 : r ∉ ([main_v5] : List (Ref sig .tc)) := by decide) (h3 : r ∉ (hostOps1_W : List (Ref sig .tc)) := by decide) (h4 : r ∉ (hostOps1_1_W : List (Ref sig .tc)) := by decide) (h5 : r ∉ (hostOps1_2_W : List (Ref sig .tc)) := by decide) (h6 : r ∉ ([main_v51] : List (Ref sig .tc)) := by decide) (h7 : r ∉ (hostOps2_W : List (Ref sig .tc)) := by decide) (h8 : r ∉ ([main_v97] : List (Ref sig .tc)) := by decide) (h9 : r ∉ (hostOps3_W : List (Ref sig .tc)) := by decide) :
    V9 m outs c r = V0 m c r := (V9_of m outs c r h9).trans (keep0_8 m outs c r h1 h2 h3 h4 h5 h6 h7 h8)
theorem keep0_10 (r : Ref sig .tc) (h1 : r ∉ (hostOps0_W : List (Ref sig .tc)) := by decide) (h2 : r ∉ ([main_v5] : List (Ref sig .tc)) := by decide) (h3 : r ∉ (hostOps1_W : List (Ref sig .tc)) := by decide) (h4 : r ∉ (hostOps1_1_W : List (Ref sig .tc)) := by decide) (h5 : r ∉ (hostOps1_2_W : List (Ref sig .tc)) := by decide) (h6 : r ∉ ([main_v51] : List (Ref sig .tc)) := by decide) (h7 : r ∉ (hostOps2_W : List (Ref sig .tc)) := by decide) (h8 : r ∉ ([main_v97] : List (Ref sig .tc)) := by decide) (h9 : r ∉ (hostOps3_W : List (Ref sig .tc)) := by decide) (h10 : r ∉ ([main_v128] : List (Ref sig .tc)) := by decide) :
    V10 m outs c r = V0 m c r := (V10_of m outs c r h10).trans (keep0_9 m outs c r h1 h2 h3 h4 h5 h6 h7 h8 h9)

theorem keep1_2 (r : Ref sig .tc) (h2 : r ∉ ([main_v5] : List (Ref sig .tc)) := by decide) : V2 m outs c r = V1 m c r := V2_of m outs c r h2
theorem keep1_3 (r : Ref sig .tc) (h2 : r ∉ ([main_v5] : List (Ref sig .tc)) := by decide) (h3 : r ∉ (hostOps1_W : List (Ref sig .tc)) := by decide) :
    V3 m outs c r = V1 m c r := (V3_of m outs c r h3).trans (keep1_2 m outs c r h2)
theorem keep1_4 (r : Ref sig .tc) (h2 : r ∉ ([main_v5] : List (Ref sig .tc)) := by decide) (h3 : r ∉ (hostOps1_W : List (Ref sig .tc)) := by decide) (h4 : r ∉ (hostOps1_1_W : List (Ref sig .tc)) := by decide) :
    V4 m outs c r = V1 m c r := (V4_of m outs c r h4).trans (keep1_3 m outs c r h2 h3)
theorem keep1_5 (r : Ref sig .tc) (h2 : r ∉ ([main_v5] : List (Ref sig .tc)) := by decide) (h3 : r ∉ (hostOps1_W : List (Ref sig .tc)) := by decide) (h4 : r ∉ (hostOps1_1_W : List (Ref sig .tc)) := by decide) (h5 : r ∉ (hostOps1_2_W : List (Ref sig .tc)) := by decide) :
    V5 m outs c r = V1 m c r := (V5_of m outs c r h5).trans (keep1_4 m outs c r h2 h3 h4)
theorem keep1_6 (r : Ref sig .tc) (h2 : r ∉ ([main_v5] : List (Ref sig .tc)) := by decide) (h3 : r ∉ (hostOps1_W : List (Ref sig .tc)) := by decide) (h4 : r ∉ (hostOps1_1_W : List (Ref sig .tc)) := by decide) (h5 : r ∉ (hostOps1_2_W : List (Ref sig .tc)) := by decide) (h6 : r ∉ ([main_v51] : List (Ref sig .tc)) := by decide) :
    V6 m outs c r = V1 m c r := (V6_of m outs c r h6).trans (keep1_5 m outs c r h2 h3 h4 h5)
theorem keep1_7 (r : Ref sig .tc) (h2 : r ∉ ([main_v5] : List (Ref sig .tc)) := by decide) (h3 : r ∉ (hostOps1_W : List (Ref sig .tc)) := by decide) (h4 : r ∉ (hostOps1_1_W : List (Ref sig .tc)) := by decide) (h5 : r ∉ (hostOps1_2_W : List (Ref sig .tc)) := by decide) (h6 : r ∉ ([main_v51] : List (Ref sig .tc)) := by decide) (h7 : r ∉ (hostOps2_W : List (Ref sig .tc)) := by decide) :
    V7 m outs c r = V1 m c r := (V7_of m outs c r h7).trans (keep1_6 m outs c r h2 h3 h4 h5 h6)
theorem keep1_8 (r : Ref sig .tc) (h2 : r ∉ ([main_v5] : List (Ref sig .tc)) := by decide) (h3 : r ∉ (hostOps1_W : List (Ref sig .tc)) := by decide) (h4 : r ∉ (hostOps1_1_W : List (Ref sig .tc)) := by decide) (h5 : r ∉ (hostOps1_2_W : List (Ref sig .tc)) := by decide) (h6 : r ∉ ([main_v51] : List (Ref sig .tc)) := by decide) (h7 : r ∉ (hostOps2_W : List (Ref sig .tc)) := by decide) (h8 : r ∉ ([main_v97] : List (Ref sig .tc)) := by decide) :
    V8 m outs c r = V1 m c r := (V8_of m outs c r h8).trans (keep1_7 m outs c r h2 h3 h4 h5 h6 h7)

theorem keep7_8 (r : Ref sig .tc) (h8 : r ∉ ([main_v97] : List (Ref sig .tc)) := by decide) : V8 m outs c r = V7 m outs c r := V8_of m outs c r h8

theorem keep9_10 (r : Ref sig .tc) (h10 : r ∉ ([main_v128] : List (Ref sig .tc)) := by decide) : V10 m outs c r = V9 m outs c r := V10_of m outs c r h10
theorem keep9_11 (r : Ref sig .tc) (h10 : r ∉ ([main_v128] : List (Ref sig .tc)) := by decide) (h11 : r ∉ (hostOps4_W : List (Ref sig .tc)) := by decide) :
    V11 m outs c r = V9 m outs c r := (V11_of m outs c r h11).trans (keep9_10 m outs c r h10)

theorem V1_arg0 : V1 m c main_arg0 = m ((c : Thread nD τ).loc main_arg0) := keep0_1 m c _
theorem V1_arg3 : V1 m c main_arg3 = m ((c : Thread nD τ).loc main_arg3) := keep0_1 m c _
theorem V2_arg2 : V2 m outs c main_arg2 = m ((c : Thread nD τ).loc main_arg2) := keep0_2 m outs c _
theorem V2_arg4 : V2 m outs c main_arg4 = m ((c : Thread nD τ).loc main_arg4) := keep0_2 m outs c _
theorem V5_arg5 : V5 m outs c main_arg5 = m ((c : Thread nD τ).loc main_arg5) := keep0_5 m outs c _
theorem V6_arg2 : V6 m outs c main_arg2 = m ((c : Thread nD τ).loc main_arg2) := keep0_6 m outs c _
theorem V6_arg6 : V6 m outs c main_arg6 = m ((c : Thread nD τ).loc main_arg6) := keep0_6 m outs c _
theorem V6_arg8 : V6 m outs c main_arg8 = m ((c : Thread nD τ).loc main_arg8) := keep0_6 m outs c _
theorem V6_arg10 : V6 m outs c main_arg10 = m ((c : Thread nD τ).loc main_arg10) := keep0_6 m outs c _
theorem V7_arg7 : V7 m outs c main_arg7 = m ((c : Thread nD τ).loc main_arg7) := keep0_7 m outs c _
theorem V7_arg9 : V7 m outs c main_arg9 = m ((c : Thread nD τ).loc main_arg9) := keep0_7 m outs c _
theorem V8_arg2 : V8 m outs c main_arg2 = m ((c : Thread nD τ).loc main_arg2) := keep0_8 m outs c _
theorem V10_arg11 : V10 m outs c main_arg11 = m ((c : Thread nD τ).loc main_arg11) := keep0_10 m outs c _
theorem V10_arg12 : V10 m outs c main_arg12 = m ((c : Thread nD τ).loc main_arg12) := keep0_10 m outs c _
theorem V10_arg13 : V10 m outs c main_arg13 = m ((c : Thread nD τ).loc main_arg13) := keep0_10 m outs c _
theorem V10_arg14 : V10 m outs c main_arg14 = m ((c : Thread nD τ).loc main_arg14) := keep0_10 m outs c _
theorem V10_arg15 : V10 m outs c main_arg15 = m ((c : Thread nD τ).loc main_arg15) := keep0_10 m outs c _
theorem V10_arg16 : V10 m outs c main_arg16 = m ((c : Thread nD τ).loc main_arg16) := keep0_10 m outs c _
theorem V10_arg17 : V10 m outs c main_arg17 = m ((c : Thread nD τ).loc main_arg17) := keep0_10 m outs c _
theorem V10_arg18 : V10 m outs c main_arg18 = m ((c : Thread nD τ).loc main_arg18) := keep0_10 m outs c _
theorem V10_arg19 : V10 m outs c main_arg19 = m ((c : Thread nD τ).loc main_arg19) := keep0_10 m outs c _
theorem V10_arg20 : V10 m outs c main_arg20 = m ((c : Thread nD τ).loc main_arg20) := keep0_10 m outs c _
theorem V2_row : V2 m outs c main_v1 = V1 m c main_v1 := keep1_2 m outs c _
theorem V2_col : V2 m outs c main_v3 = V1 m c main_v3 := keep1_2 m outs c _
theorem V6_row : V6 m outs c main_v1 = V1 m c main_v1 := keep1_6 m outs c _
theorem V6_col : V6 m outs c main_v3 = V1 m c main_v3 := keep1_6 m outs c _
theorem V8_row : V8 m outs c main_v1 = V1 m c main_v1 := keep1_8 m outs c _
theorem V8_col : V8 m outs c main_v3 = V1 m c main_v3 := keep1_8 m outs c _
theorem V8_h2 : V8 m outs c main_v94 = V7 m outs c main_v94 := keep7_8 m outs c _
theorem V10_map : V10 m outs c main_v113 = V9 m outs c main_v113 := keep9_10 m outs c _
theorem V11_map : V11 m outs c main_v113 = V9 m outs c main_v113 := keep9_11 m outs c _
theorem V19_map : V19 m outs c main_v113 = V9 m outs c main_v113 :=
  (V19_of m outs c main_v113 (by decide)).trans <| (V18_of m outs c main_v113 (by decide)).trans <| (V17_of m outs c main_v113 (by decide)).trans <| (V16_of m outs c main_v113 (by decide)).trans <| (V15_of m outs c main_v113 (by decide)).trans <| (V14_of m outs c main_v113 (by decide)).trans <| (V13_of m outs c main_v113 (by decide)).trans <| (V12_of m outs c main_v113 (by decide)).trans <| V11_map m outs c

theorem V10_out : V10 m outs c main_v128 = outs 10 main_v128 c := by
  simp only [V10, Function.update_self]

end Cert.Bridge

end
-- ==== Proof.Bridge.FinalFront.lean ====
import proofs.«415211_j35837207118569_3_alg».proof.Proof.KI.ValueRun
import proofs.«415211_j35837207118569_3_alg».proof.Proof.KI.Val012
import proofs.«415211_j35837207118569_3_alg».proof.Proof.RI.Persist
import proofs.«415211_j35837207118569_3_alg».proof.Proof.Bridge.SimFront
import proofs.«415211_j35837207118569_3_alg».proof.Proof.Bridge.PersistK

noncomputable section

namespace Cert.Bridge

open Idealize.ShloMosaic Idealize.ShloMosaic.TcCoe Idealize.SL.Sem
open Idealize.ShloMosaic.StableHlo (after)
open Cert.KernelIdeal.Gen (V0 V1 V2 V3 V4 V5 V6 V7 V8 V9 V10 V11 V19)
open Cert.KI (outs VR)
open Cert.RI (W0 WA WB WC WD WE WF WG WH WI)

macro "rstep " t:term : tactic => `(tactic| refine (($t) _ (by decide)).trans ?_)

section

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)

variable {m m' c}

theorem Agree.arg (h : Agree m m' c) :
    W0 m' c Cert.ReferenceIdeal.main_arg0 = m ((c : Thread Cert.KernelIdeal.nD Cert.KernelIdeal.τ).loc Cert.KernelIdeal.main_arg0)
    ∧ W0 m' c Cert.ReferenceIdeal.main_arg1 = m ((c : Thread Cert.KernelIdeal.nD Cert.KernelIdeal.τ).loc Cert.KernelIdeal.main_arg1)
    ∧ W0 m' c Cert.ReferenceIdeal.main_arg2 = m ((c : Thread Cert.KernelIdeal.nD Cert.KernelIdeal.τ).loc Cert.KernelIdeal.main_arg2)
    ∧ W0 m' c Cert.ReferenceIdeal.main_arg3 = m ((c : Thread Cert.KernelIdeal.nD Cert.KernelIdeal.τ).loc Cert.KernelIdeal.main_arg3)
    ∧ W0 m' c Cert.ReferenceIdeal.main_arg4 = m ((c : Thread Cert.KernelIdeal.nD Cert.KernelIdeal.τ).loc Cert.KernelIdeal.main_arg4)
    ∧ W0 m' c Cert.ReferenceIdeal.main_arg5 = m ((c : Thread Cert.KernelIdeal.nD Cert.KernelIdeal.τ).loc Cert.KernelIdeal.main_arg5)
    ∧ W0 m' c Cert.ReferenceIdeal.main_arg6 = m ((c : Thread Cert.KernelIdeal.nD Cert.KernelIdeal.τ).loc Cert.KernelIdeal.main_arg6)
    ∧ W0 m' c Cert.ReferenceIdeal.main_arg7 = m ((c : Thread Cert.KernelIdeal.nD Cert.KernelIdeal.τ).loc Cert.KernelIdeal.main_arg7)
    ∧ W0 m' c Cert.ReferenceIdeal.main_arg8 = m ((c : Thread Cert.KernelIdeal.nD Cert.KernelIdeal.τ).loc Cert.KernelIdeal.main_arg8)
    ∧ W0 m' c Cert.ReferenceIdeal.main_arg9 = m ((c : Thread Cert.KernelIdeal.nD Cert.KernelIdeal.τ).loc Cert.KernelIdeal.main_arg9)
    ∧ W0 m' c Cert.ReferenceIdeal.main_arg10 = m ((c : Thread Cert.KernelIdeal.nD Cert.KernelIdeal.τ).loc Cert.KernelIdeal.main_arg10)
    ∧ W0 m' c Cert.ReferenceIdeal.main_arg11 = m ((c : Thread Cert.KernelIdeal.nD Cert.KernelIdeal.τ).loc Cert.KernelIdeal.main_arg11)
    ∧ W0 m' c Cert.ReferenceIdeal.main_arg12 = m ((c : Thread Cert.KernelIdeal.nD Cert.KernelIdeal.τ).loc Cert.KernelIdeal.main_arg12)
    ∧ W0 m' c Cert.ReferenceIdeal.main_arg13 = m ((c : Thread Cert.KernelIdeal.nD Cert.KernelIdeal.τ).loc Cert.KernelIdeal.main_arg13)
    ∧ W0 m' c Cert.ReferenceIdeal.main_arg14 = m ((c : Thread Cert.KernelIdeal.nD Cert.KernelIdeal.τ).loc Cert.KernelIdeal.main_arg14)
    ∧ W0 m' c Cert.ReferenceIdeal.main_arg15 = m ((c : Thread Cert.KernelIdeal.nD Cert.KernelIdeal.τ).loc Cert.KernelIdeal.main_arg15)
    ∧ W0 m' c Cert.ReferenceIdeal.main_arg16 = m ((c : Thread Cert.KernelIdeal.nD Cert.KernelIdeal.τ).loc Cert.KernelIdeal.main_arg16)
    ∧ W0 m' c Cert.ReferenceIdeal.main_arg17 = m ((c : Thread Cert.KernelIdeal.nD Cert.KernelIdeal.τ).loc Cert.KernelIdeal.main_arg17)
    ∧ W0 m' c Cert.ReferenceIdeal.main_arg18 = m ((c : Thread Cert.KernelIdeal.nD Cert.KernelIdeal.τ).loc Cert.KernelIdeal.main_arg18)
    ∧ W0 m' c Cert.ReferenceIdeal.main_arg19 = m ((c : Thread Cert.KernelIdeal.nD Cert.KernelIdeal.τ).loc Cert.KernelIdeal.main_arg19)
    ∧ W0 m' c Cert.ReferenceIdeal.main_arg20 = m ((c : Thread Cert.KernelIdeal.nD Cert.KernelIdeal.τ).loc Cert.KernelIdeal.main_arg20) := h

variable (m m' c)
variable (hag : Agree m m' c)
include hag

theorem step_rowcol :
    V1 m c Cert.KernelIdeal.main_v1 = WA m' c Cert.ReferenceIdeal.main_v1 ∧ V1 m c Cert.KernelIdeal.main_v3 = WA m' c Cert.ReferenceIdeal.main_v3 :=
  sim_rowcol (V0 m c) (W0 m' c) hag.arg.2.1.symm

set_option maxHeartbeats 400000 in

theorem step_dot1 : V2 m (outs m) c Cert.KernelIdeal.main_v5 = WB m' c Cert.ReferenceIdeal.main_v4 := by
  refine (Cert.KI.outs_v5 m c).trans (Cert.KI.val0_ref (VR (V1 m)) c (WA m' c) ?_ ?_)
  · exact (Cert.RI.WA_of m' c Cert.ReferenceIdeal.main_arg0 (by decide)).trans (hag.arg.1.trans (V1_arg0 m c).symm)
  · exact (Cert.RI.WA_of m' c Cert.ReferenceIdeal.main_arg3 (by decide)).trans (hag.arg.2.2.2.1.trans (V1_arg3 m c).symm)

set_option maxHeartbeats 400000 in

theorem step_layer1 : V5 m (outs m) c Cert.KernelIdeal.main_v49 = WC m' c Cert.ReferenceIdeal.main_v48 := by
  have hrc := step_rowcol m m' c hag
  have h1 : V2 m (outs m) c Cert.KernelIdeal.main_v1 = WB m' c Cert.ReferenceIdeal.main_v1 :=
    (V2_row m (outs m) c).trans (hrc.1.trans (Cert.RI.WB_of m' c Cert.ReferenceIdeal.main_v1 (by decide)).symm)
  have h2 : V2 m (outs m) c Cert.KernelIdeal.main_v3 = WB m' c Cert.ReferenceIdeal.main_v3 :=
    (V2_col m (outs m) c).trans (hrc.2.trans (Cert.RI.WB_of m' c Cert.ReferenceIdeal.main_v3 (by decide)).symm)
  have h3 : V2 m (outs m) c Cert.KernelIdeal.main_arg2 = WB m' c Cert.ReferenceIdeal.main_arg2 :=
    (V2_arg2 m (outs m) c).trans (hag.arg.2.2.1.symm.trans
      ((Cert.RI.WB_of m' c Cert.ReferenceIdeal.main_arg2 (by decide)).trans (Cert.RI.WA_of m' c Cert.ReferenceIdeal.main_arg2 (by decide))).symm)
  have h4 : V2 m (outs m) c Cert.KernelIdeal.main_arg4 = WB m' c Cert.ReferenceIdeal.main_arg4 :=
    (V2_arg4 m (outs m) c).trans (hag.arg.2.2.2.2.1.symm.trans
      ((Cert.RI.WB_of m' c Cert.ReferenceIdeal.main_arg4 (by decide)).trans (Cert.RI.WA_of m' c Cert.ReferenceIdeal.main_arg4 (by decide))).symm)
  have key := sim_layer1 (V2 m (outs m) c) (WB m' c) (step_dot1 m m' c hag) h1 h2 h3 h4
  exact key

set_option maxHeartbeats 400000 in

theorem step_dot2 : V6 m (outs m) c Cert.KernelIdeal.main_v51 = WD m' c Cert.ReferenceIdeal.main_v49 := by
  have hw : WC m' c Cert.ReferenceIdeal.main_arg5 = VR (V5 m (outs m)) c Cert.KernelIdeal.main_arg5 :=
    (Cert.RI.WC_of m' c Cert.ReferenceIdeal.main_arg5 (by decide)).trans <| (Cert.RI.WB_of m' c Cert.ReferenceIdeal.main_arg5 (by decide)).trans <|
      (Cert.RI.WA_of m' c Cert.ReferenceIdeal.main_arg5 (by decide)).trans (hag.arg.2.2.2.2.2.1.trans (V5_arg5 m (outs m) c).symm)
  exact (Cert.KI.outs_v51 m c).trans (Cert.KI.val1_ref (VR (V5 m (outs m))) c (WC m' c) (step_layer1 m m' c hag).symm hw)

omit hag in

theorem ref_row_D : WD m' c Cert.ReferenceIdeal.main_v1 = WA m' c Cert.ReferenceIdeal.main_v1 :=
  (Cert.RI.WD_of m' c Cert.ReferenceIdeal.main_v1 (by decide)).trans <| (Cert.RI.WC_of m' c Cert.ReferenceIdeal.main_v1 (by decide)).trans
    (Cert.RI.WB_of m' c Cert.ReferenceIdeal.main_v1 (by decide))
omit hag in
theorem ref_col_D : WD m' c Cert.ReferenceIdeal.main_v3 = WA m' c Cert.ReferenceIdeal.main_v3 :=
  (Cert.RI.WD_of m' c Cert.ReferenceIdeal.main_v3 (by decide)).trans <| (Cert.RI.WC_of m' c Cert.ReferenceIdeal.main_v3 (by decide)).trans
    (Cert.RI.WB_of m' c Cert.ReferenceIdeal.main_v3 (by decide))
omit hag in
theorem ref_arg_D (r : Ref Cert.ReferenceIdeal.sig .tc) (hA : r ∉ Cert.RI.ropsA_W) (hB : r ∉ Cert.RI.ropsB_W) (hC : r ∉ Cert.RI.ropsC_W) (hD : r ∉ Cert.RI.ropsD_W) :
    WD m' c r = W0 m' c r :=
  (Cert.RI.WD_of m' c r hD).trans <| (Cert.RI.WC_of m' c r hC).trans <| (Cert.RI.WB_of m' c r hB).trans (Cert.RI.WA_of m' c r hA)

set_option maxHeartbeats 400000 in

theorem step_layer2 : V7 m (outs m) c Cert.KernelIdeal.main_v94 = WE m' c Cert.ReferenceIdeal.main_v92 := by
  have hrc := step_rowcol m m' c hag
  have h1 : V6 m (outs m) c Cert.KernelIdeal.main_v1 = WD m' c Cert.ReferenceIdeal.main_v1 :=
    (V6_row m (outs m) c).trans (hrc.1.trans (ref_row_D m' c).symm)
  have h2 : V6 m (outs m) c Cert.KernelIdeal.main_v3 = WD m' c Cert.ReferenceIdeal.main_v3 :=
    (V6_col m (outs m) c).trans (hrc.2.trans (ref_col_D m' c).symm)
  have h3 : V6 m (outs m) c Cert.KernelIdeal.main_arg2 = WD m' c Cert.ReferenceIdeal.main_arg2 :=
    (V6_arg2 m (outs m) c).trans (hag.arg.2.2.1.symm.trans
      (ref_arg_D m' c Cert.ReferenceIdeal.main_arg2 (by decide) (by decide) (by decide) (by decide)).symm)
  have h4 : V6 m (outs m) c Cert.KernelIdeal.main_arg6 = WD m' c Cert.ReferenceIdeal.main_arg6 :=
    (V6_arg6 m (outs m) c).trans (hag.arg.2.2.2.2.2.2.1.symm.trans
      (ref_arg_D m' c Cert.ReferenceIdeal.main_arg6 (by decide) (by decide) (by decide) (by decide)).symm)
  have key := sim_layer2 (V6 m (outs m) c) (WD m' c) (step_dot2 m m' c hag) h1 h2 h3 h4
  exact key

omit hag in
theorem ref_arg_E (r : Ref Cert.ReferenceIdeal.sig .tc) (hA : r ∉ Cert.RI.ropsA_W) (hB : r ∉ Cert.RI.ropsB_W) (hC : r ∉ Cert.RI.ropsC_W) (hD : r ∉ Cert.RI.ropsD_W)
    (hE : r ∉ Cert.RI.ropsE_W) : WE m' c r = W0 m' c r :=
  (Cert.RI.WE_of m' c r hE).trans (ref_arg_D m' c r hA hB hC hD)

set_option maxHeartbeats 400000 in

theorem step_mlp : V8 m (outs m) c Cert.KernelIdeal.main_v97 = WF m' c Cert.ReferenceIdeal.main_v101 := by
  have haw1 : WE m' c Cert.ReferenceIdeal.main_arg7 = VR (V7 m (outs m)) c Cert.KernelIdeal.main_arg7 :=
    (ref_arg_E m' c Cert.ReferenceIdeal.main_arg7 (by decide) (by decide) (by decide) (by decide) (by decide)).trans
      (hag.arg.2.2.2.2.2.2.2.1.trans (V7_arg7 m (outs m) c).symm)
  have haw2 : WE m' c Cert.ReferenceIdeal.main_arg9 = VR (V7 m (outs m)) c Cert.KernelIdeal.main_arg9 :=
    (ref_arg_E m' c Cert.ReferenceIdeal.main_arg9 (by decide) (by decide) (by decide) (by decide) (by decide)).trans
      (hag.arg.2.2.2.2.2.2.2.2.2.1.trans (V7_arg9 m (outs m) c).symm)
  have e8 : V6 m (outs m) c Cert.KernelIdeal.main_arg8 = WE m' c Cert.ReferenceIdeal.main_arg8 :=
    (V6_arg8 m (outs m) c).trans (hag.arg.2.2.2.2.2.2.2.2.1.symm.trans
      (ref_arg_E m' c Cert.ReferenceIdeal.main_arg8 (by decide) (by decide) (by decide) (by decide) (by decide)).symm)
  have e10 : V6 m (outs m) c Cert.KernelIdeal.main_arg10 = WE m' c Cert.ReferenceIdeal.main_arg10 :=
    (V6_arg10 m (outs m) c).trans (hag.arg.2.2.2.2.2.2.2.2.2.2.1.symm.trans
      (ref_arg_E m' c Cert.ReferenceIdeal.main_arg10 (by decide) (by decide) (by decide) (by decide) (by decide)).symm)
  have hab1 : ∀ k : Fin 512, VR (V7 m (outs m)) c Cert.KernelIdeal.main_v95 (Idealize.ShloMosaic.ValueIdx.ix2 (0 : Fin 1) k)
      = WE m' c Cert.ReferenceIdeal.main_arg8 (Idealize.ShloMosaic.ValueIdx.ix1 k) := fun k =>
    (reshape_ab1 (V6 m (outs m) c) k).trans (congrFun e8 _)
  have hab2 : ∀ k : Fin 100, VR (V7 m (outs m)) c Cert.KernelIdeal.main_v96 (Idealize.ShloMosaic.ValueIdx.ix2 (0 : Fin 1) k)
      = WE m' c Cert.ReferenceIdeal.main_arg10 (Idealize.ShloMosaic.ValueIdx.ix1 k) := fun k =>
    (reshape_ab2 (V6 m (outs m) c) k).trans (congrFun e10 _)
  exact (Cert.KI.outs_v97 m c).trans
    (Cert.KI.val2_ref (VR (V7 m (outs m))) c (WE m' c) (step_layer2 m m' c hag).symm haw1 hab1 haw2 hab2)

set_option maxHeartbeats 400000 in

theorem step_map : V9 m (outs m) c Cert.KernelIdeal.main_v113 = WG m' c Cert.ReferenceIdeal.main_v117 := by
  have key := sim_softmax (V8 m (outs m) c) (WF m' c) (step_mlp m m' c hag)
  exact key

end

end Cert.Bridge

end
-- ==== Proof.KI.Val3Math.lean ====
import proofs.«415211_j35837207118569_3_alg».proof.Proof.Gen.KernelIdeal.Skeleton
import Idealize.ShloMosaic.Lib.ValueIdx
import Idealize.ShloMosaic.PureOps.Ideal.Laws
import Idealize.ShloMosaic.Lib.Pipeline.Value

noncomputable section

open scoped BigOperators
open Idealize.ShloMosaic Idealize.ShloMosaic.ValueIdx

namespace Cert.KI

open Cert.KernelIdeal Cert.KernelIdeal.Gen

theorem k3_pay1_apply (j : S100x456.Idx) : k3_pay1 (F := Ideal) j = 0 := by
  unfold k3_pay1
  simp only [shapeCast_self]
  show Ideal.ofBits .f32 0x00000000#32 = 0
  exact Ideal.ofBits_zero_f32

def contr3 : dot_S1000x100_S1000x456_S100x456_0_0_1_1_n_n.contr.Idx ≃ Fin 1000 :=
  contrEquiv1 dot_S1000x100_S1000x456_S100x456_0_0_1_1_n_n 1000 rfl rfl

theorem k3_pay2_apply (v3 : Vec Ideal S1000x100 .f32) (v6 : Vec Ideal S1000x456 .f32) (v9 : Vec Ideal S100x456 .f32)
    (a : Fin 100) (j : Fin 456) :
    k3_pay2 (F := Ideal) v3 v6 v9 (ix2 a j) = v9 (ix2 a j) + ∑ r : Fin 1000, v3 (ix2 r a) * v6 (ix2 r j) := by
  unfold k3_pay2
  simp only [shapeCast_self]
  rw [addf_apply]
  simp only [matmul]
  rw [Ideal.matmul_constant_zero_apply]
  congr 1
  rw [← Equiv.sum_comp contr3.symm]
  refine Finset.sum_congr rfl fun r _ => ?_
  rw [truncf_apply, truncf_apply]
  congr 1
  · congr 1
    funext d
    apply Fin.ext
    match d with
    | ⟨0, _⟩ => exact contrEquiv1_symm_val dot_S1000x100_S1000x456_S100x456_0_0_1_1_n_n 1000 rfl rfl r
    | ⟨1, _⟩ => rfl
  · congr 1
    funext d
    apply Fin.ext
    match d with
    | ⟨0, _⟩ => exact contrEquiv1_symm_val dot_S1000x100_S1000x456_S100x456_0_0_1_1_n_n 1000 rfl rfl r
    | ⟨1, _⟩ => rfl

def atb (m : Vec Ideal S10000x100 .f32) (cat : Vec Ideal S10000x456 .f32) : Vec Ideal S100x456 .f32 :=
  fun i => ∑ n : Fin 10000, m (ix2 n (i 0)) * cat (ix2 n (i 1))

theorem atb_apply (m : Vec Ideal S10000x100 .f32) (cat : Vec Ideal S10000x456 .f32) (a : Fin 100) (j : Fin 456) :
    atb m cat (ix2 a j) = ∑ n : Fin 10000, m (ix2 n a) * cat (ix2 n j) := rfl

def rowOf (t : Fin 10) (r : Fin 1000) : Fin 10000 := ⟨1000 * t.val + r.val, by have := t.isLt; have := r.isLt; omega⟩

def rowEquiv : Fin 10 × Fin 1000 ≃ Fin 10000 where
  toFun p := rowOf p.1 p.2
  invFun n := (⟨n.val / 1000, by have := n.isLt; omega⟩, ⟨n.val % 1000, Nat.mod_lt _ (by decide)⟩)
  left_inv p := by
    obtain ⟨t, r⟩ := p
    have := t.isLt; have := r.isLt
    apply Prod.ext <;> apply Fin.ext <;> simp only [rowOf] <;> omega
  right_inv n := by
    apply Fin.ext
    simp only [rowOf]
    omega

theorem sum_tiles {M : Type*} [AddCommMonoid M] (f : Fin 10000 → M) :
    ∑ t : Fin 10, ∑ r : Fin 1000, f (rowOf t r) = ∑ n : Fin 10000, f n := by
  rw [← Equiv.sum_comp rowEquiv f, Fintype.sum_prod_type]
  rfl

end Cert.KI

end
-- ==== Proof.KI.Val3Blk.lean ====
import proofs.«415211_j35837207118569_3_alg».proof.Proof.Gen.KernelIdeal.Points
import proofs.«415211_j35837207118569_3_alg».proof.Proof.KI.Val3Math
import Idealize.ShloMosaic.Lib.Pipeline.Value

noncomputable section

open scoped BigOperators
open Idealize.ShloMosaic Idealize.ShloMosaic.TcCoe Idealize.ShloMosaic.ValueIdx Idealize.SL.Sem

namespace Cert.KI

open Cert.KernelIdeal Cert.KernelIdeal.Gen

section Tiles
variable {F : FTy → Type} [FloatOps F]
variable (V : (c : Dev nD) → (b : Ref sig .tc) → Buf (Elt F) ((c : Thread nD τ).loc b))

theorem N3 : cfg3.N = 10 := by decide +kernel

theorem row_lt (t : Fin cfg3.N) (r : Fin 1000) : 1000 * t.val + r.val < 10000 := by
  have h1 : t.val < cfg3.N := t.isLt
  have h2 : cfg3.N = 10 := N3
  have h3 := r.isLt
  omega

theorem tile0_apply (c : Dev nD) (t : Fin cfg3.N) (r : Fin 1000) (a : Fin 100) :
    (((cfg3.win 0).blk t).view.read (Elt F) (V c (Pipeline.arrRef spec3 0)) : Vec F S1000x100 .f32) (ix2 r a)
      = V c main_v113 (ix2 ⟨1000 * t.val + r.val, row_lt t r⟩ a) := by
  have hi : win3_0.index t 0 = t.val ∧ win3_0.index t 1 = 0 :=
    (by decide +kernel : ∀ t : Fin grid3.N, win3_0.index t 0 = t.val ∧ win3_0.index t 1 = 0) t
  rw [View.read_apply]
  show V c main_v113 _ = V c main_v113 _
  congr 1
  funext d
  apply Fin.ext
  match d with
  | ⟨0, _⟩ => show win3_0.index t 0 * 1000 + 1 * r.val = 1000 * t.val + r.val; rw [hi.1]; omega
  | ⟨1, _⟩ => show win3_0.index t 1 * 100 + 1 * a.val = a.val; rw [hi.2]; omega

theorem tile1_apply (c : Dev nD) (t : Fin cfg3.N) (r : Fin 1000) (j : Fin 456) :
    (((cfg3.win 1).blk t).view.read (Elt F) (V c (Pipeline.arrRef spec3 1)) : Vec F S1000x456 .f32) (ix2 r j)
      = V c main_v127 (ix2 ⟨1000 * t.val + r.val, row_lt t r⟩ j) := by
  have hi : win3_1.index t 0 = t.val ∧ win3_1.index t 1 = 0 :=
    (by decide +kernel : ∀ t : Fin grid3.N, win3_1.index t 0 = t.val ∧ win3_1.index t 1 = 0) t
  rw [View.read_apply]
  show V c main_v127 _ = V c main_v127 _
  congr 1
  funext d
  apply Fin.ext
  match d with
  | ⟨0, _⟩ => show win3_1.index t 0 * 1000 + 1 * r.val = 1000 * t.val + r.val; rw [hi.1]; omega
  | ⟨1, _⟩ => show win3_1.index t 1 * 456 + 1 * j.val = j.val; rw [hi.2]; omega

end Tiles

def chain3 (x : ℕ → Vec Ideal S1000x100 .f32) (y : ℕ → Vec Ideal S1000x456 .f32) : ℕ → Vec Ideal S100x456 .f32
  | 0 => k3_pay2 (x 0) (y 0) (k3_pay1 (F := Ideal))
  | n + 1 => k3_pay2 (x (n + 1)) (y (n + 1)) (chain3 x y n)

theorem chain3_apply (x : ℕ → Vec Ideal S1000x100 .f32) (y : ℕ → Vec Ideal S1000x456 .f32) (a : Fin 100) (j : Fin 456) :
    ∀ n, chain3 x y n (ix2 a j) = ∑ t ∈ Finset.range (n + 1), ∑ r : Fin 1000, x t (ix2 r a) * y t (ix2 r j)
  | 0 => by
    rw [chain3, k3_pay2_apply, k3_pay1_apply, zero_add, Finset.sum_range_one]
  | n + 1 => by
    rw [chain3, k3_pay2_apply, chain3_apply x y a j n, Finset.sum_range_succ _ (n + 1)]

theorem sum_range_tiles {M : Type*} [AddCommMonoid M] (G : ℕ → M) :
    ∑ t ∈ Finset.range 10, ∑ r : Fin 1000, G (1000 * t + r.val) = ∑ n : Fin 10000, G n.val := by
  rw [Finset.sum_range]
  exact sum_tiles fun n => G n.val

end Cert.KI

end
-- ==== Proof.KI.Val3.lean ====
import proofs.«415211_j35837207118569_3_alg».proof.Proof.KI.Reg3
import proofs.«415211_j35837207118569_3_alg».proof.Proof.KI.Val3Blk
import Idealize.ShloMosaic.Lib.Pipeline.Value

noncomputable section

open scoped BigOperators
open Idealize.ShloMosaic Idealize.ShloMosaic.TcCoe Idealize.ShloMosaic.ValueIdx Idealize.SL.Sem
open Idealize.ShloMosaic.Pipeline (Dat)

namespace Cert.KI

open Cert.KernelIdeal Cert.KernelIdeal.Gen

section Final
variable {F : FTy → Type} [FloatOps F]
variable (V : (c : Dev nD) → (b : Ref sig .tc) → Buf (Elt F) ((c : Thread nD τ).loc b))

theorem lt9 : 9 < cfg3.N := by rw [N3]; decide
abbrev t9 : Fin cfg3.N := ⟨9, lt9⟩

abbrev result3 (c : Dev nD) : Buf (Elt F) ((c : Thread nD τ).loc main_v128) := acc3 V c 9 lt9

theorem flushed3_eq (c : Dev nD) (t : Fin cfg3.N) (hf : (cfg3.win 2).flush t = true) :
    (dat3 V c).flushed 2 t = ((cfg3.win 2).blk t).view.read (Elt F) (result3 V c) := by
  have h9 : t.val % 10 = 9 := (flush3_2 t).mp hf
  have hN : cfg3.N = 10 := N3
  have ht : t.val = 9 := by have := t.isLt; omega
  obtain rfl : t = t9 := Fin.ext ht
  show (cfg3.win 2).cut (grid3.coords t9) ((dat3 V c).after 2 t9) = _
  rw [after3_2 V c t9 h9]
  have hz' : (fun a => win3_2.index t9 a * main_v128.ty.shape.size a) = fun _ => 0 :=
    funext fun a => by fin_cases a <;> decide +kernel
  exact (Memref.read_access_unit_zero (Elt F) main_v128 hz' (fun a => by rw [congrFun hz' a]; simp) (result3 V c)).symm

theorem final3 (c : Dev nD) : (dat3 V c).arrAt 2 cfg3.N = result3 V c :=
  (dat3 V c).arrAt_eq_of_cover 2 (result3 V c) (flushed3_eq V c) fun i =>
    ⟨t9, (flush3_2 t9).mpr rfl, by
      show i ∈ ((View.whole main_v128).slice (win3_2.rect t9)).set
      rw [View.set_slice_whole, Rect.mem_set_unit]
      intro a
      have h0 : (i 0 : Nat) < 100 := (i 0).isLt
      have h1 : (i 1 : Nat) < 456 := (i 1).isLt
      match a with
      | ⟨0, _⟩ =>
        show win3_2.index t9 0 * win3_2.size 0 ≤ (i 0 : Nat) ∧ (i 0 : Nat) < win3_2.index t9 0 * win3_2.size 0 + win3_2.xsize (grid3.coords t9) 0
        rw [show win3_2.index t9 0 * win3_2.size 0 = 0 from by decide +kernel, show win3_2.xsize (grid3.coords t9) 0 = 100 from by decide +kernel]; omega
      | ⟨1, _⟩ =>
        show win3_2.index t9 1 * win3_2.size 1 ≤ (i 1 : Nat) ∧ (i 1 : Nat) < win3_2.index t9 1 * win3_2.size 1 + win3_2.xsize (grid3.coords t9) 1
        rw [show win3_2.index t9 1 * win3_2.size 1 = 0 from by decide +kernel, show win3_2.xsize (grid3.coords t9) 1 = 456 from by decide +kernel]; omega⟩

end Final

section AtIdeal
variable (V : (c : Dev nD) → (b : Ref sig .tc) → Buf (Elt Ideal) ((c : Thread nD τ).loc b))

def term3 (m : Vec Ideal S10000x100 .f32) (cat : Vec Ideal S10000x456 .f32) (a : Fin 100) (j : Fin 456) (n : ℕ) : EReal :=
  if h : n < 10000 then m (ix2 ⟨n, h⟩ a) * cat (ix2 ⟨n, h⟩ j) else 0

theorem tile_prod (c : Dev nD) (t : Fin cfg3.N) (r : Fin 1000) (a : Fin 100) (j : Fin 456)
    (x : Vec Ideal S1000x100 .f32) (y : Vec Ideal S1000x456 .f32) (hx : x = iblk3 V c 0 t) (hy : y = iblk3 V c 1 t) :
    x (ix2 r a) * y (ix2 r j) = term3 (V c main_v113) (V c main_v127) a j (1000 * t.val + r.val) := by
  have h0 : x (ix2 r a) = (V c main_v113 : Vec Ideal S10000x100 .f32) (ix2 ⟨1000 * t.val + r.val, row_lt t r⟩ a) := by
    rw [hx]; exact tile0_apply V c t r a
  have h1 : y (ix2 r j) = (V c main_v127 : Vec Ideal S10000x456 .f32) (ix2 ⟨1000 * t.val + r.val, row_lt t r⟩ j) := by
    rw [hy]; exact tile1_apply V c t r j
  unfold term3
  rw [dif_pos (row_lt t r), h0, h1]

theorem acc3_apply (c : Dev nD) (a : Fin 100) (j : Fin 456) :
    ∀ (n : ℕ) (h : n < cfg3.N),
      acc3 V c n h (ix2 a j)
        = ∑ t ∈ Finset.range (n + 1), ∑ r : Fin 1000, term3 (V c main_v113) (V c main_v127) a j (1000 * t + r.val)
  | 0, h => by
    rw [acc3_zero V c h, k3_pay2_apply, k3_pay1_apply, zero_add, Finset.sum_range_one]
    exact Finset.sum_congr rfl fun r _ => tile_prod V c ⟨0, h⟩ r a j _ _ rfl rfl
  | n + 1, h => by
    rw [acc3_succ V c n h, k3_pay2_apply, acc3_apply c a j n (Nat.lt_of_succ_lt h), Finset.sum_range_succ _ (n + 1)]
    congr 1
    exact Finset.sum_congr rfl fun r _ => tile_prod V c ⟨n + 1, h⟩ r a j _ _ rfl rfl

theorem val3 (c : Dev nD) :
    ((dat3 (F := Ideal) V c).arrAt 2 cfg3.N : Vec Ideal S100x456 .f32) = atb (V c main_v113) (V c main_v127) := by
  rw [final3 V c]
  refine funext fun (i : S100x456.Idx) => ?_
  obtain ⟨a, j, rfl⟩ : ∃ a j, i = ix2 a j := ⟨i 0, i 1, eq_ix2 i⟩
  show acc3 V c 9 lt9 (ix2 a j) = _
  rw [acc3_apply V c a j 9 lt9, sum_range_tiles, atb_apply]
  refine Finset.sum_congr rfl fun n _ => ?_
  unfold term3
  rw [dif_pos n.isLt]

theorem val3_apply (c : Dev nD) (a : Fin 100) (j : Fin 456) :
    ((dat3 (F := Ideal) V c).arrAt 2 cfg3.N : Vec Ideal S100x456 .f32) (ix2 a j)
      = atb (V c main_v113) (V c main_v127) (ix2 a j) :=
  congrFun (val3 V c) _

end AtIdeal

end Cert.KI

end
-- ==== Proof.Bridge.TailOps.lean ====
import proofs.«415211_j35837207118569_3_alg».proof.Proof.Gen.KernelIdeal.Launch
import proofs.«415211_j35837207118569_3_alg».proof.Proof.RI.Ops
import Idealize.ShloMosaic.Lib.StableHlo.Run
import Idealize.ShloMosaic.PureOps.Ideal

set_option maxRecDepth 8192

noncomputable section

namespace Cert.Bridge

open Idealize.ShloMosaic Idealize.ShloMosaic.TcCoe Idealize.SL.Sem

theorem tail_after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

section KernelLists
open Cert.KernelIdeal Cert.KernelIdeal.Gen
variable {F : FTy → Type} [FloatOps F]

abbrev kTlHead : List (HloOp τ sig (Elt F)) :=
  ( StableHlo.unary main_v128 main_v129 ((extractStridedSlice S100x256 ![0, 0] · slices_S100x456_S100x256_0_0) : (⟨S100x456, .f32⟩ : BufTy).Contents (Elt F) → (⟨S100x256, .f32⟩ : BufTy).Contents (Elt F))
  :: StableHlo.unary main_v128 main_v130 ((extractStridedSlice S100x100 ![0, 256] · slices_S100x456_S100x100_0_256) : (⟨S100x456, .f32⟩ : BufTy).Contents (Elt F) → (⟨S100x100, .f32⟩ : BufTy).Contents (Elt F))
  :: StableHlo.unary main_v128 main_v131 ((extractStridedSlice S100x100 ![0, 356] · slices_S100x456_S100x100_0_356) : (⟨S100x456, .f32⟩ : BufTy).Contents (Elt F) → (⟨S100x100, .f32⟩ : BufTy).Contents (Elt F))
  :: [] )

abbrev kTl0 : List (HloOp τ sig (Elt F)) :=
  ( StableHlo.nullary main_cst_25 (constant S_ .f32 0x26901D7D#32)
  :: StableHlo.unary main_cst_25 main_v132 (broadcastInDim S100x100 ![] bcast_S_S100x100 : (⟨S_, .f32⟩ : BufTy).Contents (Elt F) → (⟨S100x100, .f32⟩ : BufTy).Contents (Elt F))
  :: StableHlo.binary main_v131 main_v132 main_v133 (addf : (⟨S100x100, .f32⟩ : BufTy).Contents (Elt F) → (⟨S100x100, .f32⟩ : BufTy).Contents (Elt F) → (⟨S100x100, .f32⟩ : BufTy).Contents (Elt F))
  :: StableHlo.unary main_v133 main_v134 (Host.sqrt : (⟨S100x100, .f32⟩ : BufTy).Contents (Elt F) → (⟨S100x100, .f32⟩ : BufTy).Contents (Elt F))
  :: [] )

abbrev kTlHead_W : List (Ref sig .tc) := [main_v129, main_v130, main_v131]
theorem kTlHead_writes : (kTlHead : List (HloOp τ sig (Elt F))).Forall fun op => op.writes ⊆ (kTlHead_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)

theorem kTlHead_of (V : Valuation τ sig (Elt F)) (r : Ref sig .tc) (h : r ∉ kTlHead_W) :
    StableHlo.after kTlHead V (Proc.devRef .tc r) = V (Proc.devRef .tc r) :=
  StableHlo.after_of_writes_sub kTlHead V kTlHead_writes h

end KernelLists

section ReferenceLists
open Cert.ReferenceIdeal Cert.ReferenceIdeal.Gen
variable {F : FTy → Type} [FloatOps F]

abbrev rTl0 : List (HloOp τ sig (Elt F)) :=
  ( StableHlo.nullary main_cst_25 (constant S_ .f32 0x26901D7D#32)
  :: StableHlo.unary main_cst_25 main_v140 (broadcastInDim S100x100 ![] bcast_S_S100x100 : (⟨S_, .f32⟩ : BufTy).Contents (Elt F) → (⟨S100x100, .f32⟩ : BufTy).Contents (Elt F))
  :: StableHlo.binary main_v139 main_v140 main_v141 (addf : (⟨S100x100, .f32⟩ : BufTy).Contents (Elt F) → (⟨S100x100, .f32⟩ : BufTy).Contents (Elt F) → (⟨S100x100, .f32⟩ : BufTy).Contents (Elt F))
  :: StableHlo.unary main_v141 main_v142 (Host.sqrt : (⟨S100x100, .f32⟩ : BufTy).Contents (Elt F) → (⟨S100x100, .f32⟩ : BufTy).Contents (Elt F))
  :: [] )

abbrev rTl1 : List (HloOp τ sig (Elt F)) :=
  ( StableHlo.nullary main_call2_v0 (iotaInDim S100x100 32 0)
  :: StableHlo.nullary main_call2_v1 (iotaInDim S100x100 32 1)
  :: StableHlo.nullary main_call2_c (constantI S_ 32 0#32)
  :: StableHlo.unary main_call2_c main_call2_v2 ((broadcastInDim S100x100 ![] bcast_S_S100x100) : (⟨S_, .i32⟩ : BufTy).Contents (Elt F) → (⟨S100x100, .i32⟩ : BufTy).Contents (Elt F))
  :: StableHlo.binary main_call2_v0 main_call2_v2 main_call2_v3 (addi : (⟨S100x100, .i32⟩ : BufTy).Contents (Elt F) → (⟨S100x100, .i32⟩ : BufTy).Contents (Elt F) → (⟨S100x100, .i32⟩ : BufTy).Contents (Elt F))
  :: StableHlo.binary main_call2_v3 main_call2_v1 main_call2_v4 ((cmpi .eq) : (⟨S100x100, .i32⟩ : BufTy).Contents (Elt F) → (⟨S100x100, .i32⟩ : BufTy).Contents (Elt F) → (⟨S100x100, .i1⟩ : BufTy).Contents (Elt F))
  :: StableHlo.nullary main_call2_cst (constant S_ .f32 0x00000000#32)
  :: StableHlo.unary main_call2_cst main_call2_v5 ((broadcastInDim S100x100 ![] bcast_S_S100x100) : (⟨S_, .f32⟩ : BufTy).Contents (Elt F) → (⟨S100x100, .f32⟩ : BufTy).Contents (Elt F))
  :: StableHlo.ternary main_call2_v4 main_v142 main_call2_v5 main_call2_v6 (select : (⟨S100x100, .i1⟩ : BufTy).Contents (Elt F) → (⟨S100x100, .f32⟩ : BufTy).Contents (Elt F) → (⟨S100x100, .f32⟩ : BufTy).Contents (Elt F) → (⟨S100x100, .f32⟩ : BufTy).Contents (Elt F))
  :: StableHlo.nullary main_call2_cst_0 (constant S_ .f32 0x00000000#32)
  :: StableHlo.binary main_call2_v6 main_call2_cst_0 main_v143 ((fun x v => Host.reduceAdd x v reducesTo_S100x100_S_d0_1 h_S_) : (⟨S100x100, .f32⟩ : BufTy).Contents (Elt F) → (⟨S_, .f32⟩ : BufTy).Contents (Elt F) → (⟨S_, .f32⟩ : BufTy).Contents (Elt F))
  :: [] )

abbrev rTl2 : List (HloOp τ sig (Elt F)) :=
  ( StableHlo.unary main_v143 main_v144 (Host.negf : (⟨S_, .f32⟩ : BufTy).Contents (Elt F) → (⟨S_, .f32⟩ : BufTy).Contents (Elt F))
  :: StableHlo.nullary main_cst_26 (constant S_ .f32 0x49742400#32)
  :: StableHlo.unary main_cst_26 main_v145 (Host.sqrt : (⟨S_, .f32⟩ : BufTy).Contents (Elt F) → (⟨S_, .f32⟩ : BufTy).Contents (Elt F))
  :: StableHlo.binary main_v144 main_v145 main_v146 (Host.divf : (⟨S_, .f32⟩ : BufTy).Contents (Elt F) → (⟨S_, .f32⟩ : BufTy).Contents (Elt F) → (⟨S_, .f32⟩ : BufTy).Contents (Elt F))
  :: StableHlo.nullary main_v147 (iotaInDim S100x100 32 0)
  :: StableHlo.nullary main_v148 (iotaInDim S100x100 32 1)
  :: StableHlo.nullary main_c_27 (constantI S_ 32 0#32)
  :: StableHlo.unary main_c_27 main_v149 (broadcastInDim S100x100 ![] bcast_S_S100x100 : (⟨S_, .i32⟩ : BufTy).Contents (Elt F) → (⟨S100x100, .i32⟩ : BufTy).Contents (Elt F))
  :: StableHlo.binary main_v147 main_v149 main_v150 (addi : (⟨S100x100, .i32⟩ : BufTy).Contents (Elt F) → (⟨S100x100, .i32⟩ : BufTy).Contents (Elt F) → (⟨S100x100, .i32⟩ : BufTy).Contents (Elt F))
  :: StableHlo.binary main_v150 main_v148 main_v151 (cmpi .eq : (⟨S100x100, .i32⟩ : BufTy).Contents (Elt F) → (⟨S100x100, .i32⟩ : BufTy).Contents (Elt F) → (⟨S100x100, .i1⟩ : BufTy).Contents (Elt F))
  :: StableHlo.unary main_v151 main_v152 (uitofp .f32 : (⟨S100x100, .i1⟩ : BufTy).Contents (Elt F) → (⟨S100x100, .f32⟩ : BufTy).Contents (Elt F))
  :: StableHlo.nullary main_cst_28 (constant S_ .f32 0x3F800000#32)
  :: StableHlo.unary main_cst_28 main_v153 (broadcastInDim S100x100 ![] bcast_S_S100x100 : (⟨S_, .f32⟩ : BufTy).Contents (Elt F) → (⟨S100x100, .f32⟩ : BufTy).Contents (Elt F))
  :: StableHlo.binary main_v153 main_v152 main_v154 (subf : (⟨S100x100, .f32⟩ : BufTy).Contents (Elt F) → (⟨S100x100, .f32⟩ : BufTy).Contents (Elt F) → (⟨S100x100, .f32⟩ : BufTy).Contents (Elt F))
  :: StableHlo.binary main_v137 main_v154 main_v155 (mulf : (⟨S100x100, .f32⟩ : BufTy).Contents (Elt F) → (⟨S100x100, .f32⟩ : BufTy).Contents (Elt F) → (⟨S100x100, .f32⟩ : BufTy).Contents (Elt F))
  :: StableHlo.unary main_v117 main_v156 (Host.negf : (⟨S10000x100, .f32⟩ : BufTy).Contents (Elt F) → (⟨S10000x100, .f32⟩ : BufTy).Contents (Elt F))
  :: StableHlo.nullary main_cst_29 (constant S_ .f32 0x358637BD#32)
  :: StableHlo.unary main_cst_29 main_v157 (broadcastInDim S10000x100 ![] bcast_S_S10000x100 : (⟨S_, .f32⟩ : BufTy).Contents (Elt F) → (⟨S10000x100, .f32⟩ : BufTy).Contents (Elt F))
  :: StableHlo.binary main_v117 main_v157 main_v158 (addf : (⟨S10000x100, .f32⟩ : BufTy).Contents (Elt F) → (⟨S10000x100, .f32⟩ : BufTy).Contents (Elt F) → (⟨S10000x100, .f32⟩ : BufTy).Contents (Elt F))
  :: StableHlo.unary main_v158 main_v159 (Host.log : (⟨S10000x100, .f32⟩ : BufTy).Contents (Elt F) → (⟨S10000x100, .f32⟩ : BufTy).Contents (Elt F))
  :: StableHlo.binary main_v156 main_v159 main_v160 (mulf : (⟨S10000x100, .f32⟩ : BufTy).Contents (Elt F) → (⟨S10000x100, .f32⟩ : BufTy).Contents (Elt F) → (⟨S10000x100, .f32⟩ : BufTy).Contents (Elt F))
  :: StableHlo.nullary main_cst_30 (constant S_ .f32 0x00000000#32)
  :: StableHlo.binary main_v160 main_cst_30 main_v161 ((fun x v => Host.reduceAdd x v reducesTo_S10000x100_S10000_d1 h_S_) : (⟨S10000x100, .f32⟩ : BufTy).Contents (Elt F) → (⟨S_, .f32⟩ : BufTy).Contents (Elt F) → (⟨S10000, .f32⟩ : BufTy).Contents (Elt F))
  :: StableHlo.nullary main_cst_31 (constant S_ .f32 0x00000000#32)
  :: StableHlo.binary main_v161 main_cst_31 main_v162 ((fun x v => Host.reduceAdd x v reducesTo_S10000_S_d0 h_S_) : (⟨S10000, .f32⟩ : BufTy).Contents (Elt F) → (⟨S_, .f32⟩ : BufTy).Contents (Elt F) → (⟨S_, .f32⟩ : BufTy).Contents (Elt F))
  :: StableHlo.nullary main_cst_32 (constant S_ .f32 0x461C4000#32)
  :: StableHlo.binary main_v162 main_cst_32 main_v163 (Host.divf : (⟨S_, .f32⟩ : BufTy).Contents (Elt F) → (⟨S_, .f32⟩ : BufTy).Contents (Elt F) → (⟨S_, .f32⟩ : BufTy).Contents (Elt F))
  :: StableHlo.nullary main_v164 (iotaInDim S100x100 32 0)
  :: StableHlo.nullary main_v165 (iotaInDim S100x100 32 1)
  :: StableHlo.nullary main_c_33 (constantI S_ 32 0#32)
  :: StableHlo.unary main_c_33 main_v166 (broadcastInDim S100x100 ![] bcast_S_S100x100 : (⟨S_, .i32⟩ : BufTy).Contents (Elt F) → (⟨S100x100, .i32⟩ : BufTy).Contents (Elt F))
  :: StableHlo.binary main_v164 main_v166 main_v167 (addi : (⟨S100x100, .i32⟩ : BufTy).Contents (Elt F) → (⟨S100x100, .i32⟩ : BufTy).Contents (Elt F) → (⟨S100x100, .i32⟩ : BufTy).Contents (Elt F))
  :: StableHlo.binary main_v167 main_v165 main_v168 (cmpi .eq : (⟨S100x100, .i32⟩ : BufTy).Contents (Elt F) → (⟨S100x100, .i32⟩ : BufTy).Contents (Elt F) → (⟨S100x100, .i1⟩ : BufTy).Contents (Elt F))
  :: StableHlo.unary main_v168 main_v169 (uitofp .f32 : (⟨S100x100, .i1⟩ : BufTy).Contents (Elt F) → (⟨S100x100, .f32⟩ : BufTy).Contents (Elt F))
  :: StableHlo.binary main_v155 main_v169 main_v170 (addf : (⟨S100x100, .f32⟩ : BufTy).Contents (Elt F) → (⟨S100x100, .f32⟩ : BufTy).Contents (Elt F) → (⟨S100x100, .f32⟩ : BufTy).Contents (Elt F))
  :: StableHlo.nullary main_cst_34 (constant S_ .f32 0x00000000#32)
  :: StableHlo.binary main_v170 main_cst_34 main_v171 ((fun x v => Host.reduceAdd x v reducesTo_S100x100_S100_d0 h_S_) : (⟨S100x100, .f32⟩ : BufTy).Contents (Elt F) → (⟨S_, .f32⟩ : BufTy).Contents (Elt F) → (⟨S100, .f32⟩ : BufTy).Contents (Elt F))
  :: StableHlo.unary main_v171 main_v172 (Host.rsqrt : (⟨S100, .f32⟩ : BufTy).Contents (Elt F) → (⟨S100, .f32⟩ : BufTy).Contents (Elt F))
  :: StableHlo.binary main_v134 main_arg11 main_v173 ((fun l r => Host.dotGeneral dot_S100x256_S256x512_S100x512_1_0_0_1_n_n none l r) : (⟨S100x256, .f32⟩ : BufTy).Contents (Elt F) → (⟨S256x512, .f32⟩ : BufTy).Contents (Elt F) → (⟨S100x512, .f32⟩ : BufTy).Contents (Elt F))
  :: StableHlo.unary main_v172 main_v174 (broadcastInDim S100x1 ![0] bcast_S100_S100x1_0 : (⟨S100, .f32⟩ : BufTy).Contents (Elt F) → (⟨S100x1, .f32⟩ : BufTy).Contents (Elt F))
  :: StableHlo.unary main_v170 main_v175 ((transpose S100x100 [1, 0] · transposes_S100x100_S100x100_1_0) : (⟨S100x100, .f32⟩ : BufTy).Contents (Elt F) → (⟨S100x100, .f32⟩ : BufTy).Contents (Elt F))
  :: StableHlo.unary main_v172 main_v176 (broadcastInDim S100x1 ![0] bcast_S100_S100x1_0 : (⟨S100, .f32⟩ : BufTy).Contents (Elt F) → (⟨S100x1, .f32⟩ : BufTy).Contents (Elt F))
  :: StableHlo.unary main_v176 main_v177 (broadcastInDim S100x512 ![0, 1] bcast_S100x1_S100x512_0_1 : (⟨S100x1, .f32⟩ : BufTy).Contents (Elt F) → (⟨S100x512, .f32⟩ : BufTy).Contents (Elt F))
  :: StableHlo.binary main_v177 main_v173 main_v178 (mulf : (⟨S100x512, .f32⟩ : BufTy).Contents (Elt F) → (⟨S100x512, .f32⟩ : BufTy).Contents (Elt F) → (⟨S100x512, .f32⟩ : BufTy).Contents (Elt F))
  :: StableHlo.binary main_v175 main_v178 main_v179 ((fun l r => Host.dotGeneral dot_S100x100_S100x512_S100x512_1_0_0_1_n_n none l r) : (⟨S100x100, .f32⟩ : BufTy).Contents (Elt F) → (⟨S100x512, .f32⟩ : BufTy).Contents (Elt F) → (⟨S100x512, .f32⟩ : BufTy).Contents (Elt F))
  :: StableHlo.unary main_v174 main_v180 (broadcastInDim S100x512 ![0, 1] bcast_S100x1_S100x512_0_1 : (⟨S100x1, .f32⟩ : BufTy).Contents (Elt F) → (⟨S100x512, .f32⟩ : BufTy).Contents (Elt F))
  :: StableHlo.binary main_v180 main_v179 main_v181 (mulf : (⟨S100x512, .f32⟩ : BufTy).Contents (Elt F) → (⟨S100x512, .f32⟩ : BufTy).Contents (Elt F) → (⟨S100x512, .f32⟩ : BufTy).Contents (Elt F))
  :: StableHlo.unary main_arg12 main_v182 (broadcastInDim S1x512 ![1] bcast_S512_S1x512_1 : (⟨S512, .f32⟩ : BufTy).Contents (Elt F) → (⟨S1x512, .f32⟩ : BufTy).Contents (Elt F))
  :: StableHlo.unary main_v182 main_v183 (broadcastInDim S100x512 ![0, 1] bcast_S1x512_S100x512_0_1 : (⟨S1x512, .f32⟩ : BufTy).Contents (Elt F) → (⟨S100x512, .f32⟩ : BufTy).Contents (Elt F))
  :: StableHlo.binary main_v181 main_v183 main_v184 (addf : (⟨S100x512, .f32⟩ : BufTy).Contents (Elt F) → (⟨S100x512, .f32⟩ : BufTy).Contents (Elt F) → (⟨S100x512, .f32⟩ : BufTy).Contents (Elt F))
  :: [] )

abbrev rTl3 : List (HloOp τ sig (Elt F)) :=
  ( StableHlo.nullary main_call3_cst (constant S_ .f32 0x00000000#32)
  :: StableHlo.unary main_call3_cst main_call3_v0 ((broadcastInDim S100x512 ![] bcast_S_S100x512) : (⟨S_, .f32⟩ : BufTy).Contents (Elt F) → (⟨S100x512, .f32⟩ : BufTy).Contents (Elt F))
  :: StableHlo.binary main_v184 main_call3_v0 main_v185 (maximumf : (⟨S100x512, .f32⟩ : BufTy).Contents (Elt F) → (⟨S100x512, .f32⟩ : BufTy).Contents (Elt F) → (⟨S100x512, .f32⟩ : BufTy).Contents (Elt F))
  :: [] )

abbrev rTl4 : List (HloOp τ sig (Elt F)) :=
  ( StableHlo.nullary main_v186 (iotaInDim S100x100 32 0)
  :: StableHlo.nullary main_v187 (iotaInDim S100x100 32 1)
  :: StableHlo.nullary main_c_35 (constantI S_ 32 0#32)
  :: StableHlo.unary main_c_35 main_v188 (broadcastInDim S100x100 ![] bcast_S_S100x100 : (⟨S_, .i32⟩ : BufTy).Contents (Elt F) → (⟨S100x100, .i32⟩ : BufTy).Contents (Elt F))
  :: StableHlo.binary main_v186 main_v188 main_v189 (addi : (⟨S100x100, .i32⟩ : BufTy).Contents (Elt F) → (⟨S100x100, .i32⟩ : BufTy).Contents (Elt F) → (⟨S100x100, .i32⟩ : BufTy).Contents (Elt F))
  :: StableHlo.binary main_v189 main_v187 main_v190 (cmpi .eq : (⟨S100x100, .i32⟩ : BufTy).Contents (Elt F) → (⟨S100x100, .i32⟩ : BufTy).Contents (Elt F) → (⟨S100x100, .i1⟩ : BufTy).Contents (Elt F))
  :: StableHlo.unary main_v190 main_v191 (uitofp .f32 : (⟨S100x100, .i1⟩ : BufTy).Contents (Elt F) → (⟨S100x100, .f32⟩ : BufTy).Contents (Elt F))
  :: StableHlo.binary main_v155 main_v191 main_v192 (addf : (⟨S100x100, .f32⟩ : BufTy).Contents (Elt F) → (⟨S100x100, .f32⟩ : BufTy).Contents (Elt F) → (⟨S100x100, .f32⟩ : BufTy).Contents (Elt F))
  :: StableHlo.nullary main_cst_36 (constant S_ .f32 0x00000000#32)
  :: StableHlo.binary main_v192 main_cst_36 main_v193 ((fun x v => Host.reduceAdd x v reducesTo_S100x100_S100_d0 h_S_) : (⟨S100x100, .f32⟩ : BufTy).Contents (Elt F) → (⟨S_, .f32⟩ : BufTy).Contents (Elt F) → (⟨S100, .f32⟩ : BufTy).Contents (Elt F))
  :: StableHlo.unary main_v193 main_v194 (Host.rsqrt : (⟨S100, .f32⟩ : BufTy).Contents (Elt F) → (⟨S100, .f32⟩ : BufTy).Contents (Elt F))
  :: StableHlo.binary main_v185 main_arg13 main_v195 ((fun l r => Host.dotGeneral dot_S100x512_S512x256_S100x256_1_0_0_1_n_n none l r) : (⟨S100x512, .f32⟩ : BufTy).Contents (Elt F) → (⟨S512x256, .f32⟩ : BufTy).Contents (Elt F) → (⟨S100x256, .f32⟩ : BufTy).Contents (Elt F))
  :: StableHlo.unary main_v194 main_v196 (broadcastInDim S100x1 ![0] bcast_S100_S100x1_0 : (⟨S100, .f32⟩ : BufTy).Contents (Elt F) → (⟨S100x1, .f32⟩ : BufTy).Contents (Elt F))
  :: StableHlo.unary main_v192 main_v197 ((transpose S100x100 [1, 0] · transposes_S100x100_S100x100_1_0) : (⟨S100x100, .f32⟩ : BufTy).Contents (Elt F) → (⟨S100x100, .f32⟩ : BufTy).Contents (Elt F))
  :: StableHlo.unary main_v194 main_v198 (broadcastInDim S100x1 ![0] bcast_S100_S100x1_0 : (⟨S100, .f32⟩ : BufTy).Contents (Elt F) → (⟨S100x1, .f32⟩ : BufTy).Contents (Elt F))
  :: StableHlo.unary main_v198 main_v199 (broadcastInDim S100x256 ![0, 1] bcast_S100x1_S100x256_0_1 : (⟨S100x1, .f32⟩ : BufTy).Contents (Elt F) → (⟨S100x256, .f32⟩ : BufTy).Contents (Elt F))
  :: StableHlo.binary main_v199 main_v195 main_v200 (mulf : (⟨S100x256, .f32⟩ : BufTy).Contents (Elt F) → (⟨S100x256, .f32⟩ : BufTy).Contents (Elt F) → (⟨S100x256, .f32⟩ : BufTy).Contents (Elt F))
  :: StableHlo.binary main_v197 main_v200 main_v201 ((fun l r => Host.dotGeneral dot_S100x100_S100x256_S100x256_1_0_0_1_n_n none l r) : (⟨S100x100, .f32⟩ : BufTy).Contents (Elt F) → (⟨S100x256, .f32⟩ : BufTy).Contents (Elt F) → (⟨S100x256, .f32⟩ : BufTy).Contents (Elt F))
  :: StableHlo.unary main_v196 main_v202 (broadcastInDim S100x256 ![0, 1] bcast_S100x1_S100x256_0_1 : (⟨S100x1, .f32⟩ : BufTy).Contents (Elt F) → (⟨S100x256, .f32⟩ : BufTy).Contents (Elt F))
  :: StableHlo.binary main_v202 main_v201 main_v203 (mulf : (⟨S100x256, .f32⟩ : BufTy).Contents (Elt F) → (⟨S100x256, .f32⟩ : BufTy).Contents (Elt F) → (⟨S100x256, .f32⟩ : BufTy).Contents (Elt F))
  :: StableHlo.unary main_arg14 main_v204 (broadcastInDim S1x256 ![1] bcast_S256_S1x256_1 : (⟨S256, .f32⟩ : BufTy).Contents (Elt F) → (⟨S1x256, .f32⟩ : BufTy).Contents (Elt F))
  :: StableHlo.unary main_v204 main_v205 (broadcastInDim S100x256 ![0, 1] bcast_S1x256_S100x256_0_1 : (⟨S1x256, .f32⟩ : BufTy).Contents (Elt F) → (⟨S100x256, .f32⟩ : BufTy).Contents (Elt F))
  :: StableHlo.binary main_v203 main_v205 main_v206 (addf : (⟨S100x256, .f32⟩ : BufTy).Contents (Elt F) → (⟨S100x256, .f32⟩ : BufTy).Contents (Elt F) → (⟨S100x256, .f32⟩ : BufTy).Contents (Elt F))
  :: StableHlo.binary main_v206 main_arg15 main_v207 ((fun l r => Host.dotGeneral dot_S100x256_S256x512_S100x512_1_0_0_1_n_n none l r) : (⟨S100x256, .f32⟩ : BufTy).Contents (Elt F) → (⟨S256x512, .f32⟩ : BufTy).Contents (Elt F) → (⟨S100x512, .f32⟩ : BufTy).Contents (Elt F))
  :: StableHlo.unary main_arg16 main_v208 (broadcastInDim S1x512 ![1] bcast_S512_S1x512_1 : (⟨S512, .f32⟩ : BufTy).Contents (Elt F) → (⟨S1x512, .f32⟩ : BufTy).Contents (Elt F))
  :: StableHlo.unary main_v208 main_v209 (broadcastInDim S100x512 ![0, 1] bcast_S1x512_S100x512_0_1 : (⟨S1x512, .f32⟩ : BufTy).Contents (Elt F) → (⟨S100x512, .f32⟩ : BufTy).Contents (Elt F))
  :: StableHlo.binary main_v207 main_v209 main_v210 (addf : (⟨S100x512, .f32⟩ : BufTy).Contents (Elt F) → (⟨S100x512, .f32⟩ : BufTy).Contents (Elt F) → (⟨S100x512, .f32⟩ : BufTy).Contents (Elt F))
  :: [] )

abbrev rTl5 : List (HloOp τ sig (Elt F)) :=
  ( StableHlo.nullary main_call4_cst (constant S_ .f32 0x00000000#32)
  :: StableHlo.unary main_call4_cst main_call4_v0 ((broadcastInDim S100x512 ![] bcast_S_S100x512) : (⟨S_, .f32⟩ : BufTy).Contents (Elt F) → (⟨S100x512, .f32⟩ : BufTy).Contents (Elt F))
  :: StableHlo.binary main_v210 main_call4_v0 main_v211 (maximumf : (⟨S100x512, .f32⟩ : BufTy).Contents (Elt F) → (⟨S100x512, .f32⟩ : BufTy).Contents (Elt F) → (⟨S100x512, .f32⟩ : BufTy).Contents (Elt F))
  :: [] )

abbrev rTl6 : List (HloOp τ sig (Elt F)) :=
  ( StableHlo.binary main_v211 main_arg17 main_v212 ((fun l r => Host.dotGeneral dot_S100x512_S512x512_S100x512_1_0_0_1_n_n none l r) : (⟨S100x512, .f32⟩ : BufTy).Contents (Elt F) → (⟨S512x512, .f32⟩ : BufTy).Contents (Elt F) → (⟨S100x512, .f32⟩ : BufTy).Contents (Elt F))
  :: StableHlo.unary main_arg18 main_v213 (broadcastInDim S1x512 ![1] bcast_S512_S1x512_1 : (⟨S512, .f32⟩ : BufTy).Contents (Elt F) → (⟨S1x512, .f32⟩ : BufTy).Contents (Elt F))
  :: StableHlo.unary main_v213 main_v214 (broadcastInDim S100x512 ![0, 1] bcast_S1x512_S100x512_0_1 : (⟨S1x512, .f32⟩ : BufTy).Contents (Elt F) → (⟨S100x512, .f32⟩ : BufTy).Contents (Elt F))
  :: StableHlo.binary main_v212 main_v214 main_v215 (addf : (⟨S100x512, .f32⟩ : BufTy).Contents (Elt F) → (⟨S100x512, .f32⟩ : BufTy).Contents (Elt F) → (⟨S100x512, .f32⟩ : BufTy).Contents (Elt F))
  :: [] )

abbrev rTl7 : List (HloOp τ sig (Elt F)) :=
  ( StableHlo.nullary main_call5_cst (constant S_ .f32 0x00000000#32)
  :: StableHlo.unary main_call5_cst main_call5_v0 ((broadcastInDim S100x512 ![] bcast_S_S100x512) : (⟨S_, .f32⟩ : BufTy).Contents (Elt F) → (⟨S100x512, .f32⟩ : BufTy).Contents (Elt F))
  :: StableHlo.binary main_v215 main_call5_v0 main_v216 (maximumf : (⟨S100x512, .f32⟩ : BufTy).Contents (Elt F) → (⟨S100x512, .f32⟩ : BufTy).Contents (Elt F) → (⟨S100x512, .f32⟩ : BufTy).Contents (Elt F))
  :: [] )

abbrev rTl8 : List (HloOp τ sig (Elt F)) :=
  ( StableHlo.binary main_v216 main_arg19 main_v217 ((fun l r => Host.dotGeneral dot_S100x512_S512x1_S100x1_1_0_0_1_n_n none l r) : (⟨S100x512, .f32⟩ : BufTy).Contents (Elt F) → (⟨S512x1, .f32⟩ : BufTy).Contents (Elt F) → (⟨S100x1, .f32⟩ : BufTy).Contents (Elt F))
  :: StableHlo.unary main_arg20 main_v218 (broadcastInDim S1x1 ![1] bcast_S1_S1x1_1 : (⟨S1, .f32⟩ : BufTy).Contents (Elt F) → (⟨S1x1, .f32⟩ : BufTy).Contents (Elt F))
  :: StableHlo.unary main_v218 main_v219 (broadcastInDim S100x1 ![0, 1] bcast_S1x1_S100x1_0_1 : (⟨S1x1, .f32⟩ : BufTy).Contents (Elt F) → (⟨S100x1, .f32⟩ : BufTy).Contents (Elt F))
  :: StableHlo.binary main_v217 main_v219 main_v220 (addf : (⟨S100x1, .f32⟩ : BufTy).Contents (Elt F) → (⟨S100x1, .f32⟩ : BufTy).Contents (Elt F) → (⟨S100x1, .f32⟩ : BufTy).Contents (Elt F))
  :: [] )

theorem ropsI_cut : (Cert.RI.ropsI : List (HloOp τ sig (Elt F))) = rTl0 ++ rTl1 ++ rTl2 ++ rTl3 ++ rTl4 ++ rTl5 ++ rTl6 ++ rTl7 ++ rTl8 := rfl

end ReferenceLists

def kTail (V : Valuation Cert.KernelIdeal.τ Cert.KernelIdeal.sig (Elt Ideal)) : Valuation Cert.KernelIdeal.τ Cert.KernelIdeal.sig (Elt Ideal) :=
  StableHlo.after Cert.KernelIdeal.Gen.hostOps4_8 (StableHlo.after Cert.KernelIdeal.Gen.hostOps4_7 (StableHlo.after Cert.KernelIdeal.Gen.hostOps4_6 (StableHlo.after Cert.KernelIdeal.Gen.hostOps4_5
    (StableHlo.after Cert.KernelIdeal.Gen.hostOps4_4 (StableHlo.after Cert.KernelIdeal.Gen.hostOps4_3 (StableHlo.after Cert.KernelIdeal.Gen.hostOps4_2 (StableHlo.after Cert.KernelIdeal.Gen.hostOps4_1
      (StableHlo.after kTl0 V))))))))

def rTail (V : Valuation Cert.ReferenceIdeal.τ Cert.ReferenceIdeal.sig (Elt Ideal)) : Valuation Cert.ReferenceIdeal.τ Cert.ReferenceIdeal.sig (Elt Ideal) :=
  StableHlo.after rTl8 (StableHlo.after rTl7 (StableHlo.after rTl6 (StableHlo.after rTl5
    (StableHlo.after rTl4 (StableHlo.after rTl3 (StableHlo.after rTl2 (StableHlo.after rTl1
      (StableHlo.after rTl0 V))))))))

theorem kTail_eq (V : Valuation Cert.KernelIdeal.τ Cert.KernelIdeal.sig (Elt Ideal)) :
    StableHlo.after Cert.KernelIdeal.Gen.hostOps4_8 (StableHlo.after Cert.KernelIdeal.Gen.hostOps4_7 (StableHlo.after Cert.KernelIdeal.Gen.hostOps4_6 (StableHlo.after Cert.KernelIdeal.Gen.hostOps4_5
      (StableHlo.after Cert.KernelIdeal.Gen.hostOps4_4 (StableHlo.after Cert.KernelIdeal.Gen.hostOps4_3 (StableHlo.after Cert.KernelIdeal.Gen.hostOps4_2 (StableHlo.after Cert.KernelIdeal.Gen.hostOps4_1
        (StableHlo.after Cert.KernelIdeal.Gen.hostOps4 V)))))))) = kTail (StableHlo.after kTlHead V) := rfl

theorem rTail_eq (V : Valuation Cert.ReferenceIdeal.τ Cert.ReferenceIdeal.sig (Elt Ideal)) : StableHlo.after Cert.RI.ropsI V = rTail V := by
  rw [ropsI_cut]; simp only [tail_after_append]; rfl

def TailSim0 (Vk : Valuation Cert.KernelIdeal.τ Cert.KernelIdeal.sig (Elt Ideal)) (Vr : Valuation Cert.ReferenceIdeal.τ Cert.ReferenceIdeal.sig (Elt Ideal)) : Prop :=
    Vk (Proc.devRef .tc Cert.KernelIdeal.main_v113) = Vr (Proc.devRef .tc Cert.ReferenceIdeal.main_v117)
    ∧ Vk (Proc.devRef .tc Cert.KernelIdeal.main_v129) = Vr (Proc.devRef .tc Cert.ReferenceIdeal.main_v134)
    ∧ Vk (Proc.devRef .tc Cert.KernelIdeal.main_v130) = Vr (Proc.devRef .tc Cert.ReferenceIdeal.main_v137)
    ∧ Vk (Proc.devRef .tc Cert.KernelIdeal.main_v131) = Vr (Proc.devRef .tc Cert.ReferenceIdeal.main_v139)
    ∧ Vk (Proc.devRef .tc Cert.KernelIdeal.main_arg11) = Vr (Proc.devRef .tc Cert.ReferenceIdeal.main_arg11)
    ∧ Vk (Proc.devRef .tc Cert.KernelIdeal.main_arg12) = Vr (Proc.devRef .tc Cert.ReferenceIdeal.main_arg12)
    ∧ Vk (Proc.devRef .tc Cert.KernelIdeal.main_arg13) = Vr (Proc.devRef .tc Cert.ReferenceIdeal.main_arg13)
    ∧ Vk (Proc.devRef .tc Cert.KernelIdeal.main_arg14) = Vr (Proc.devRef .tc Cert.ReferenceIdeal.main_arg14)
    ∧ Vk (Proc.devRef .tc Cert.KernelIdeal.main_arg15) = Vr (Proc.devRef .tc Cert.ReferenceIdeal.main_arg15)
    ∧ Vk (Proc.devRef .tc Cert.KernelIdeal.main_arg16) = Vr (Proc.devRef .tc Cert.ReferenceIdeal.main_arg16)
    ∧ Vk (Proc.devRef .tc Cert.KernelIdeal.main_arg17) = Vr (Proc.devRef .tc Cert.ReferenceIdeal.main_arg17)
    ∧ Vk (Proc.devRef .tc Cert.KernelIdeal.main_arg18) = Vr (Proc.devRef .tc Cert.ReferenceIdeal.main_arg18)
    ∧ Vk (Proc.devRef .tc Cert.KernelIdeal.main_arg19) = Vr (Proc.devRef .tc Cert.ReferenceIdeal.main_arg19)
    ∧ Vk (Proc.devRef .tc Cert.KernelIdeal.main_arg20) = Vr (Proc.devRef .tc Cert.ReferenceIdeal.main_arg20)

def TailSim1 (Vk : Valuation Cert.KernelIdeal.τ Cert.KernelIdeal.sig (Elt Ideal)) (Vr : Valuation Cert.ReferenceIdeal.τ Cert.ReferenceIdeal.sig (Elt Ideal)) : Prop :=
    Vk (Proc.devRef .tc Cert.KernelIdeal.main_v113) = Vr (Proc.devRef .tc Cert.ReferenceIdeal.main_v117)
    ∧ Vk (Proc.devRef .tc Cert.KernelIdeal.main_v129) = Vr (Proc.devRef .tc Cert.ReferenceIdeal.main_v134)
    ∧ Vk (Proc.devRef .tc Cert.KernelIdeal.main_v130) = Vr (Proc.devRef .tc Cert.ReferenceIdeal.main_v137)
    ∧ Vk (Proc.devRef .tc Cert.KernelIdeal.main_v134) = Vr (Proc.devRef .tc Cert.ReferenceIdeal.main_v142)
    ∧ Vk (Proc.devRef .tc Cert.KernelIdeal.main_arg11) = Vr (Proc.devRef .tc Cert.ReferenceIdeal.main_arg11)
    ∧ Vk (Proc.devRef .tc Cert.KernelIdeal.main_arg12) = Vr (Proc.devRef .tc Cert.ReferenceIdeal.main_arg12)
    ∧ Vk (Proc.devRef .tc Cert.KernelIdeal.main_arg13) = Vr (Proc.devRef .tc Cert.ReferenceIdeal.main_arg13)
    ∧ Vk (Proc.devRef .tc Cert.KernelIdeal.main_arg14) = Vr (Proc.devRef .tc Cert.ReferenceIdeal.main_arg14)
    ∧ Vk (Proc.devRef .tc Cert.KernelIdeal.main_arg15) = Vr (Proc.devRef .tc Cert.ReferenceIdeal.main_arg15)
    ∧ Vk (Proc.devRef .tc Cert.KernelIdeal.main_arg16) = Vr (Proc.devRef .tc Cert.ReferenceIdeal.main_arg16)
    ∧ Vk (Proc.devRef .tc Cert.KernelIdeal.main_arg17) = Vr (Proc.devRef .tc Cert.ReferenceIdeal.main_arg17)
    ∧ Vk (Proc.devRef .tc Cert.KernelIdeal.main_arg18) = Vr (Proc.devRef .tc Cert.ReferenceIdeal.main_arg18)
    ∧ Vk (Proc.devRef .tc Cert.KernelIdeal.main_arg19) = Vr (Proc.devRef .tc Cert.ReferenceIdeal.main_arg19)
    ∧ Vk (Proc.devRef .tc Cert.KernelIdeal.main_arg20) = Vr (Proc.devRef .tc Cert.ReferenceIdeal.main_arg20)

def TailSim2 (Vk : Valuation Cert.KernelIdeal.τ Cert.KernelIdeal.sig (Elt Ideal)) (Vr : Valuation Cert.ReferenceIdeal.τ Cert.ReferenceIdeal.sig (Elt Ideal)) : Prop :=
    Vk (Proc.devRef .tc Cert.KernelIdeal.main_v113) = Vr (Proc.devRef .tc Cert.ReferenceIdeal.main_v117)
    ∧ Vk (Proc.devRef .tc Cert.KernelIdeal.main_v129) = Vr (Proc.devRef .tc Cert.ReferenceIdeal.main_v134)
    ∧ Vk (Proc.devRef .tc Cert.KernelIdeal.main_v130) = Vr (Proc.devRef .tc Cert.ReferenceIdeal.main_v137)
    ∧ Vk (Proc.devRef .tc Cert.KernelIdeal.main_v135) = Vr (Proc.devRef .tc Cert.ReferenceIdeal.main_v143)
    ∧ Vk (Proc.devRef .tc Cert.KernelIdeal.main_arg11) = Vr (Proc.devRef .tc Cert.ReferenceIdeal.main_arg11)
    ∧ Vk (Proc.devRef .tc Cert.KernelIdeal.main_arg12) = Vr (Proc.devRef .tc Cert.ReferenceIdeal.main_arg12)
    ∧ Vk (Proc.devRef .tc Cert.KernelIdeal.main_arg13) = Vr (Proc.devRef .tc Cert.ReferenceIdeal.main_arg13)
    ∧ Vk (Proc.devRef .tc Cert.KernelIdeal.main_arg14) = Vr (Proc.devRef .tc Cert.ReferenceIdeal.main_arg14)
    ∧ Vk (Proc.devRef .tc Cert.KernelIdeal.main_arg15) = Vr (Proc.devRef .tc Cert.ReferenceIdeal.main_arg15)
    ∧ Vk (Proc.devRef .tc Cert.KernelIdeal.main_arg16) = Vr (Proc.devRef .tc Cert.ReferenceIdeal.main_arg16)
    ∧ Vk (Proc.devRef .tc Cert.KernelIdeal.main_arg17) = Vr (Proc.devRef .tc Cert.ReferenceIdeal.main_arg17)
    ∧ Vk (Proc.devRef .tc Cert.KernelIdeal.main_arg18) = Vr (Proc.devRef .tc Cert.ReferenceIdeal.main_arg18)
    ∧ Vk (Proc.devRef .tc Cert.KernelIdeal.main_arg19) = Vr (Proc.devRef .tc Cert.ReferenceIdeal.main_arg19)
    ∧ Vk (Proc.devRef .tc Cert.KernelIdeal.main_arg20) = Vr (Proc.devRef .tc Cert.ReferenceIdeal.main_arg20)

def TailSim3 (Vk : Valuation Cert.KernelIdeal.τ Cert.KernelIdeal.sig (Elt Ideal)) (Vr : Valuation Cert.ReferenceIdeal.τ Cert.ReferenceIdeal.sig (Elt Ideal)) : Prop :=
    Vk (Proc.devRef .tc Cert.KernelIdeal.main_v137) = Vr (Proc.devRef .tc Cert.ReferenceIdeal.main_v146)
    ∧ Vk (Proc.devRef .tc Cert.KernelIdeal.main_v154) = Vr (Proc.devRef .tc Cert.ReferenceIdeal.main_v163)
    ∧ Vk (Proc.devRef .tc Cert.KernelIdeal.main_v146) = Vr (Proc.devRef .tc Cert.ReferenceIdeal.main_v155)
    ∧ Vk (Proc.devRef .tc Cert.KernelIdeal.main_v175) = Vr (Proc.devRef .tc Cert.ReferenceIdeal.main_v184)
    ∧ Vk (Proc.devRef .tc Cert.KernelIdeal.main_arg13) = Vr (Proc.devRef .tc Cert.ReferenceIdeal.main_arg13)
    ∧ Vk (Proc.devRef .tc Cert.KernelIdeal.main_arg14) = Vr (Proc.devRef .tc Cert.ReferenceIdeal.main_arg14)
    ∧ Vk (Proc.devRef .tc Cert.KernelIdeal.main_arg15) = Vr (Proc.devRef .tc Cert.ReferenceIdeal.main_arg15)
    ∧ Vk (Proc.devRef .tc Cert.KernelIdeal.main_arg16) = Vr (Proc.devRef .tc Cert.ReferenceIdeal.main_arg16)
    ∧ Vk (Proc.devRef .tc Cert.KernelIdeal.main_arg17) = Vr (Proc.devRef .tc Cert.ReferenceIdeal.main_arg17)
    ∧ Vk (Proc.devRef .tc Cert.KernelIdeal.main_arg18) = Vr (Proc.devRef .tc Cert.ReferenceIdeal.main_arg18)
    ∧ Vk (Proc.devRef .tc Cert.KernelIdeal.main_arg19) = Vr (Proc.devRef .tc Cert.ReferenceIdeal.main_arg19)
    ∧ Vk (Proc.devRef .tc Cert.KernelIdeal.main_arg20) = Vr (Proc.devRef .tc Cert.ReferenceIdeal.main_arg20)

def TailSim4 (Vk : Valuation Cert.KernelIdeal.τ Cert.KernelIdeal.sig (Elt Ideal)) (Vr : Valuation Cert.ReferenceIdeal.τ Cert.ReferenceIdeal.sig (Elt Ideal)) : Prop :=
    Vk (Proc.devRef .tc Cert.KernelIdeal.main_v137) = Vr (Proc.devRef .tc Cert.ReferenceIdeal.main_v146)
    ∧ Vk (Proc.devRef .tc Cert.KernelIdeal.main_v154) = Vr (Proc.devRef .tc Cert.ReferenceIdeal.main_v163)
    ∧ Vk (Proc.devRef .tc Cert.KernelIdeal.main_v146) = Vr (Proc.devRef .tc Cert.ReferenceIdeal.main_v155)
    ∧ Vk (Proc.devRef .tc Cert.KernelIdeal.main_v176) = Vr (Proc.devRef .tc Cert.ReferenceIdeal.main_v185)
    ∧ Vk (Proc.devRef .tc Cert.KernelIdeal.main_arg13) = Vr (Proc.devRef .tc Cert.ReferenceIdeal.main_arg13)
    ∧ Vk (Proc.devRef .tc Cert.KernelIdeal.main_arg14) = Vr (Proc.devRef .tc Cert.ReferenceIdeal.main_arg14)
    ∧ Vk (Proc.devRef .tc Cert.KernelIdeal.main_arg15) = Vr (Proc.devRef .tc Cert.ReferenceIdeal.main_arg15)
    ∧ Vk (Proc.devRef .tc Cert.KernelIdeal.main_arg16) = Vr (Proc.devRef .tc Cert.ReferenceIdeal.main_arg16)
    ∧ Vk (Proc.devRef .tc Cert.KernelIdeal.main_arg17) = Vr (Proc.devRef .tc Cert.ReferenceIdeal.main_arg17)
    ∧ Vk (Proc.devRef .tc Cert.KernelIdeal.main_arg18) = Vr (Proc.devRef .tc Cert.ReferenceIdeal.main_arg18)
    ∧ Vk (Proc.devRef .tc Cert.KernelIdeal.main_arg19) = Vr (Proc.devRef .tc Cert.ReferenceIdeal.main_arg19)
    ∧ Vk (Proc.devRef .tc Cert.KernelIdeal.main_arg20) = Vr (Proc.devRef .tc Cert.ReferenceIdeal.main_arg20)

def TailSim5 (Vk : Valuation Cert.KernelIdeal.τ Cert.KernelIdeal.sig (Elt Ideal)) (Vr : Valuation Cert.ReferenceIdeal.τ Cert.ReferenceIdeal.sig (Elt Ideal)) : Prop :=
    Vk (Proc.devRef .tc Cert.KernelIdeal.main_v137) = Vr (Proc.devRef .tc Cert.ReferenceIdeal.main_v146)
    ∧ Vk (Proc.devRef .tc Cert.KernelIdeal.main_v154) = Vr (Proc.devRef .tc Cert.ReferenceIdeal.main_v163)
    ∧ Vk (Proc.devRef .tc Cert.KernelIdeal.main_v197) = Vr (Proc.devRef .tc Cert.ReferenceIdeal.main_v206)
    ∧ Vk (Proc.devRef .tc Cert.KernelIdeal.main_v201) = Vr (Proc.devRef .tc Cert.ReferenceIdeal.main_v210)
    ∧ Vk (Proc.devRef .tc Cert.KernelIdeal.main_arg17) = Vr (Proc.devRef .tc Cert.ReferenceIdeal.main_arg17)
    ∧ Vk (Proc.devRef .tc Cert.KernelIdeal.main_arg18) = Vr (Proc.devRef .tc Cert.ReferenceIdeal.main_arg18)
    ∧ Vk (Proc.devRef .tc Cert.KernelIdeal.main_arg19) = Vr (Proc.devRef .tc Cert.ReferenceIdeal.main_arg19)
    ∧ Vk (Proc.devRef .tc Cert.KernelIdeal.main_arg20) = Vr (Proc.devRef .tc Cert.ReferenceIdeal.main_arg20)

def TailSim6 (Vk : Valuation Cert.KernelIdeal.τ Cert.KernelIdeal.sig (Elt Ideal)) (Vr : Valuation Cert.ReferenceIdeal.τ Cert.ReferenceIdeal.sig (Elt Ideal)) : Prop :=
    Vk (Proc.devRef .tc Cert.KernelIdeal.main_v137) = Vr (Proc.devRef .tc Cert.ReferenceIdeal.main_v146)
    ∧ Vk (Proc.devRef .tc Cert.KernelIdeal.main_v154) = Vr (Proc.devRef .tc Cert.ReferenceIdeal.main_v163)
    ∧ Vk (Proc.devRef .tc Cert.KernelIdeal.main_v197) = Vr (Proc.devRef .tc Cert.ReferenceIdeal.main_v206)
    ∧ Vk (Proc.devRef .tc Cert.KernelIdeal.main_v202) = Vr (Proc.devRef .tc Cert.ReferenceIdeal.main_v211)
    ∧ Vk (Proc.devRef .tc Cert.KernelIdeal.main_arg17) = Vr (Proc.devRef .tc Cert.ReferenceIdeal.main_arg17)
    ∧ Vk (Proc.devRef .tc Cert.KernelIdeal.main_arg18) = Vr (Proc.devRef .tc Cert.ReferenceIdeal.main_arg18)
    ∧ Vk (Proc.devRef .tc Cert.KernelIdeal.main_arg19) = Vr (Proc.devRef .tc Cert.ReferenceIdeal.main_arg19)
    ∧ Vk (Proc.devRef .tc Cert.KernelIdeal.main_arg20) = Vr (Proc.devRef .tc Cert.ReferenceIdeal.main_arg20)

def TailSim7 (Vk : Valuation Cert.KernelIdeal.τ Cert.KernelIdeal.sig (Elt Ideal)) (Vr : Valuation Cert.ReferenceIdeal.τ Cert.ReferenceIdeal.sig (Elt Ideal)) : Prop :=
    Vk (Proc.devRef .tc Cert.KernelIdeal.main_v137) = Vr (Proc.devRef .tc Cert.ReferenceIdeal.main_v146)
    ∧ Vk (Proc.devRef .tc Cert.KernelIdeal.main_v154) = Vr (Proc.devRef .tc Cert.ReferenceIdeal.main_v163)
    ∧ Vk (Proc.devRef .tc Cert.KernelIdeal.main_v197) = Vr (Proc.devRef .tc Cert.ReferenceIdeal.main_v206)
    ∧ Vk (Proc.devRef .tc Cert.KernelIdeal.main_v206) = Vr (Proc.devRef .tc Cert.ReferenceIdeal.main_v215)
    ∧ Vk (Proc.devRef .tc Cert.KernelIdeal.main_arg19) = Vr (Proc.devRef .tc Cert.ReferenceIdeal.main_arg19)
    ∧ Vk (Proc.devRef .tc Cert.KernelIdeal.main_arg20) = Vr (Proc.devRef .tc Cert.ReferenceIdeal.main_arg20)

def TailSim8 (Vk : Valuation Cert.KernelIdeal.τ Cert.KernelIdeal.sig (Elt Ideal)) (Vr : Valuation Cert.ReferenceIdeal.τ Cert.ReferenceIdeal.sig (Elt Ideal)) : Prop :=
    Vk (Proc.devRef .tc Cert.KernelIdeal.main_v137) = Vr (Proc.devRef .tc Cert.ReferenceIdeal.main_v146)
    ∧ Vk (Proc.devRef .tc Cert.KernelIdeal.main_v154) = Vr (Proc.devRef .tc Cert.ReferenceIdeal.main_v163)
    ∧ Vk (Proc.devRef .tc Cert.KernelIdeal.main_v197) = Vr (Proc.devRef .tc Cert.ReferenceIdeal.main_v206)
    ∧ Vk (Proc.devRef .tc Cert.KernelIdeal.main_v207) = Vr (Proc.devRef .tc Cert.ReferenceIdeal.main_v216)
    ∧ Vk (Proc.devRef .tc Cert.KernelIdeal.main_arg19) = Vr (Proc.devRef .tc Cert.ReferenceIdeal.main_arg19)
    ∧ Vk (Proc.devRef .tc Cert.KernelIdeal.main_arg20) = Vr (Proc.devRef .tc Cert.ReferenceIdeal.main_arg20)

def TailSim9 (Vk : Valuation Cert.KernelIdeal.τ Cert.KernelIdeal.sig (Elt Ideal)) (Vr : Valuation Cert.ReferenceIdeal.τ Cert.ReferenceIdeal.sig (Elt Ideal)) : Prop :=
    Vk (Proc.devRef .tc Cert.KernelIdeal.main_v137) = Vr (Proc.devRef .tc Cert.ReferenceIdeal.main_v146)
    ∧ Vk (Proc.devRef .tc Cert.KernelIdeal.main_v154) = Vr (Proc.devRef .tc Cert.ReferenceIdeal.main_v163)
    ∧ Vk (Proc.devRef .tc Cert.KernelIdeal.main_v197) = Vr (Proc.devRef .tc Cert.ReferenceIdeal.main_v206)
    ∧ Vk (Proc.devRef .tc Cert.KernelIdeal.main_v211) = Vr (Proc.devRef .tc Cert.ReferenceIdeal.main_v220)

end Cert.Bridge

end
-- ==== Proof.Bridge.TailStepsA.lean ====
import proofs.«415211_j35837207118569_3_alg».proof.Proof.Bridge.TailOps

set_option maxRecDepth 8192
set_option Elab.async false

noncomputable section

namespace Cert.Bridge

open Idealize.ShloMosaic Idealize.ShloMosaic.TcCoe Idealize.SL.Sem Idealize.ShloMosaic.StableHlo

set_option maxHeartbeats 4000000 in

theorem tailSim_step0 (Vk : Valuation Cert.KernelIdeal.τ Cert.KernelIdeal.sig (Elt Ideal)) (Vr : Valuation Cert.ReferenceIdeal.τ Cert.ReferenceIdeal.sig (Elt Ideal)) (h : TailSim0 Vk Vr) :
    TailSim1 (StableHlo.after kTl0 Vk) (StableHlo.after rTl0 Vr) := by
  unfold TailSim0 at h
  unfold TailSim1
  obtain ⟨h_map, h_reg, h_adj, h_ss, h_a11, h_a12, h_a13, h_a14, h_a15, h_a16, h_a17, h_a18, h_a19, h_a20⟩ := h
  refine ⟨?_, ?_, ?_, ?_, ?_, ?_, ?_, ?_, ?_, ?_, ?_, ?_, ?_, ?_⟩
  · after_results_simp; exact h_map
  · after_results_simp; exact h_reg
  · after_results_simp; exact h_adj
  · after_results_simp
    simp only [h_map, h_reg, h_adj, h_ss, h_a11, h_a12, h_a13, h_a14, h_a15, h_a16, h_a17, h_a18, h_a19, h_a20]
    all_goals rfl
  · after_results_simp; exact h_a11
  · after_results_simp; exact h_a12
  · after_results_simp; exact h_a13
  · after_results_simp; exact h_a14
  · after_results_simp; exact h_a15
  · after_results_simp; exact h_a16
  · after_results_simp; exact h_a17
  · after_results_simp; exact h_a18
  · after_results_simp; exact h_a19
  · after_results_simp; exact h_a20

set_option maxHeartbeats 4000000 in

theorem tailSim_step1 (Vk : Valuation Cert.KernelIdeal.τ Cert.KernelIdeal.sig (Elt Ideal)) (Vr : Valuation Cert.ReferenceIdeal.τ Cert.ReferenceIdeal.sig (Elt Ideal)) (h : TailSim1 Vk Vr) :
    TailSim2 (StableHlo.after Cert.KernelIdeal.Gen.hostOps4_1 Vk) (StableHlo.after rTl1 Vr) := by
  unfold TailSim1 at h
  unfold TailSim2
  obtain ⟨h_map, h_reg, h_adj, h_s1, h_a11, h_a12, h_a13, h_a14, h_a15, h_a16, h_a17, h_a18, h_a19, h_a20⟩ := h
  refine ⟨?_, ?_, ?_, ?_, ?_, ?_, ?_, ?_, ?_, ?_, ?_, ?_, ?_, ?_⟩
  · after_results_simp; exact h_map
  · after_results_simp; exact h_reg
  · after_results_simp; exact h_adj
  · after_results_simp
    simp only [h_map, h_reg, h_adj, h_s1, h_a11, h_a12, h_a13, h_a14, h_a15, h_a16, h_a17, h_a18, h_a19, h_a20]
    all_goals rfl
  · after_results_simp; exact h_a11
  · after_results_simp; exact h_a12
  · after_results_simp; exact h_a13
  · after_results_simp; exact h_a14
  · after_results_simp; exact h_a15
  · after_results_simp; exact h_a16
  · after_results_simp; exact h_a17
  · after_results_simp; exact h_a18
  · after_results_simp; exact h_a19
  · after_results_simp; exact h_a20

end Cert.Bridge

end
-- ==== Proof.Bridge.TailConsts.lean ====
import Idealize.ShloMosaic.PureOps.Ideal

noncomputable section

namespace Cert.Bridge

open Idealize.ShloMosaic

theorem tail_ofBits_1e6 : Ideal.ofBits .f32 0x49742400#32 = ((1000000 : ℝ) : EReal) := by
  simp [Ideal.ofBits, Ideal.ieee, -EReal.coe_mul]; norm_num

theorem tail_ofBits_1e3 : Ideal.ofBits .f32 0x447A0000#32 = ((1000 : ℝ) : EReal) := by
  simp [Ideal.ofBits, Ideal.ieee, -EReal.coe_mul]; norm_num

theorem tail_sqrt_1e6 : Ideal.sqrt ((1000000 : ℝ) : EReal) = ((1000 : ℝ) : EReal) := by
  rw [Ideal.sqrt_coe, if_neg (by norm_num)]
  congr 1
  rw [show (1000000 : ℝ) = 1000 ^ 2 by norm_num]
  exact Real.sqrt_sq (by norm_num)

theorem tail_sqrt_const (s : Shape) :
    Host.sqrt (constant (F := Ideal) s .f32 0x49742400#32) = constant s .f32 0x447A0000#32 := by
  funext i
  simp only [Host.sqrt, constant, Ideal.hostUnary_sqrt_def, Ideal.ofBits_def, tail_ofBits_1e6, tail_ofBits_1e3,
    tail_sqrt_1e6]

end Cert.Bridge

end
-- ==== Proof.Bridge.TailStepsA2.lean ====
import proofs.«415211_j35837207118569_3_alg».proof.Proof.Bridge.TailOps
import proofs.«415211_j35837207118569_3_alg».proof.Proof.Bridge.TailConsts

set_option maxRecDepth 8192
set_option Elab.async false

noncomputable section

namespace Cert.Bridge

open Idealize.ShloMosaic Idealize.ShloMosaic.TcCoe Idealize.SL.Sem Idealize.ShloMosaic.StableHlo

set_option maxHeartbeats 4000000 in

theorem tailSim_step2 (Vk : Valuation Cert.KernelIdeal.τ Cert.KernelIdeal.sig (Elt Ideal)) (Vr : Valuation Cert.ReferenceIdeal.τ Cert.ReferenceIdeal.sig (Elt Ideal)) (h : TailSim2 Vk Vr) :
    TailSim3 (StableHlo.after Cert.KernelIdeal.Gen.hostOps4_2 Vk) (StableHlo.after rTl2 Vr) := by
  unfold TailSim2 at h
  unfold TailSim3
  obtain ⟨h_map, h_reg, h_adj, h_tr, h_a11, h_a12, h_a13, h_a14, h_a15, h_a16, h_a17, h_a18, h_a19, h_a20⟩ := h
  refine ⟨?_, ?_, ?_, ?_, ?_, ?_, ?_, ?_, ?_, ?_, ?_, ?_⟩
  · after_results_simp
    simp only [h_map, h_reg, h_adj, h_tr, h_a11, h_a12, h_a13, h_a14, h_a15, h_a16, h_a17, h_a18, h_a19, h_a20, tail_sqrt_const]
    all_goals rfl
  · after_results_simp
    simp only [h_map, h_reg, h_adj, h_tr, h_a11, h_a12, h_a13, h_a14, h_a15, h_a16, h_a17, h_a18, h_a19, h_a20]
    all_goals rfl
  · after_results_simp
    simp only [h_map, h_reg, h_adj, h_tr, h_a11, h_a12, h_a13, h_a14, h_a15, h_a16, h_a17, h_a18, h_a19, h_a20]
    all_goals rfl
  · after_results_simp
    simp only [h_map, h_reg, h_adj, h_tr, h_a11, h_a12, h_a13, h_a14, h_a15, h_a16, h_a17, h_a18, h_a19, h_a20]
    all_goals rfl
  · after_results_simp; exact h_a13
  · after_results_simp; exact h_a14
  · after_results_simp; exact h_a15
  · after_results_simp; exact h_a16
  · after_results_simp; exact h_a17
  · after_results_simp; exact h_a18
  · after_results_simp; exact h_a19
  · after_results_simp; exact h_a20

end Cert.Bridge

end
-- ==== Proof.Bridge.TailStepsB.lean ====
import proofs.«415211_j35837207118569_3_alg».proof.Proof.Bridge.TailOps

set_option maxRecDepth 8192
set_option Elab.async false

noncomputable section

namespace Cert.Bridge

open Idealize.ShloMosaic Idealize.ShloMosaic.TcCoe Idealize.SL.Sem Idealize.ShloMosaic.StableHlo

set_option maxHeartbeats 4000000 in

theorem tailSim_step3 (Vk : Valuation Cert.KernelIdeal.τ Cert.KernelIdeal.sig (Elt Ideal)) (Vr : Valuation Cert.ReferenceIdeal.τ Cert.ReferenceIdeal.sig (Elt Ideal)) (h : TailSim3 Vk Vr) :
    TailSim4 (StableHlo.after Cert.KernelIdeal.Gen.hostOps4_3 Vk) (StableHlo.after rTl3 Vr) := by
  unfold TailSim3 at h
  unfold TailSim4
  obtain ⟨h_l1, h_l2, h_adjm, h_h1, h_a13, h_a14, h_a15, h_a16, h_a17, h_a18, h_a19, h_a20⟩ := h
  refine ⟨?_, ?_, ?_, ?_, ?_, ?_, ?_, ?_, ?_, ?_, ?_, ?_⟩
  · after_results_simp; exact h_l1
  · after_results_simp; exact h_l2
  · after_results_simp; exact h_adjm
  · after_results_simp
    simp only [h_l1, h_l2, h_adjm, h_h1, h_a13, h_a14, h_a15, h_a16, h_a17, h_a18, h_a19, h_a20]
    all_goals rfl
  · after_results_simp; exact h_a13
  · after_results_simp; exact h_a14
  · after_results_simp; exact h_a15
  · after_results_simp; exact h_a16
  · after_results_simp; exact h_a17
  · after_results_simp; exact h_a18
  · after_results_simp; exact h_a19
  · after_results_simp; exact h_a20

set_option maxHeartbeats 4000000 in

theorem tailSim_step4 (Vk : Valuation Cert.KernelIdeal.τ Cert.KernelIdeal.sig (Elt Ideal)) (Vr : Valuation Cert.ReferenceIdeal.τ Cert.ReferenceIdeal.sig (Elt Ideal)) (h : TailSim4 Vk Vr) :
    TailSim5 (StableHlo.after Cert.KernelIdeal.Gen.hostOps4_4 Vk) (StableHlo.after rTl4 Vr) := by
  unfold TailSim4 at h
  unfold TailSim5
  obtain ⟨h_l1, h_l2, h_adjm, h_h1r, h_a13, h_a14, h_a15, h_a16, h_a17, h_a18, h_a19, h_a20⟩ := h
  refine ⟨?_, ?_, ?_, ?_, ?_, ?_, ?_, ?_⟩
  · after_results_simp; exact h_l1
  · after_results_simp; exact h_l2
  · after_results_simp
    simp only [h_l1, h_l2, h_adjm, h_h1r, h_a13, h_a14, h_a15, h_a16, h_a17, h_a18, h_a19, h_a20]
    all_goals rfl
  · after_results_simp
    simp only [h_l1, h_l2, h_adjm, h_h1r, h_a13, h_a14, h_a15, h_a16, h_a17, h_a18, h_a19, h_a20]
    all_goals rfl
  · after_results_simp; exact h_a17
  · after_results_simp; exact h_a18
  · after_results_simp; exact h_a19
  · after_results_simp; exact h_a20

set_option maxHeartbeats 4000000 in

theorem tailSim_step5 (Vk : Valuation Cert.KernelIdeal.τ Cert.KernelIdeal.sig (Elt Ideal)) (Vr : Valuation Cert.ReferenceIdeal.τ Cert.ReferenceIdeal.sig (Elt Ideal)) (h : TailSim5 Vk Vr) :
    TailSim6 (StableHlo.after Cert.KernelIdeal.Gen.hostOps4_5 Vk) (StableHlo.after rTl5 Vr) := by
  unfold TailSim5 at h
  unfold TailSim6
  obtain ⟨h_l1, h_l2, h_xr, h_p1, h_a17, h_a18, h_a19, h_a20⟩ := h
  refine ⟨?_, ?_, ?_, ?_, ?_, ?_, ?_, ?_⟩
  · after_results_simp; exact h_l1
  · after_results_simp; exact h_l2
  · after_results_simp; exact h_xr
  · after_results_simp
    simp only [h_l1, h_l2, h_xr, h_p1, h_a17, h_a18, h_a19, h_a20]
    all_goals rfl
  · after_results_simp; exact h_a17
  · after_results_simp; exact h_a18
  · after_results_simp; exact h_a19
  · after_results_simp; exact h_a20

end Cert.Bridge

end
-- ==== Proof.Bridge.TailStepsC.lean ====
import proofs.«415211_j35837207118569_3_alg».proof.Proof.Bridge.TailOps

set_option maxRecDepth 8192
set_option Elab.async false

noncomputable section

namespace Cert.Bridge

open Idealize.ShloMosaic Idealize.ShloMosaic.TcCoe Idealize.SL.Sem Idealize.ShloMosaic.StableHlo

set_option maxHeartbeats 4000000 in

theorem tailSim_step6 (Vk : Valuation Cert.KernelIdeal.τ Cert.KernelIdeal.sig (Elt Ideal)) (Vr : Valuation Cert.ReferenceIdeal.τ Cert.ReferenceIdeal.sig (Elt Ideal)) (h : TailSim6 Vk Vr) :
    TailSim7 (StableHlo.after Cert.KernelIdeal.Gen.hostOps4_6 Vk) (StableHlo.after rTl6 Vr) := by
  unfold TailSim6 at h
  unfold TailSim7
  obtain ⟨h_l1, h_l2, h_xr, h_p1r, h_a17, h_a18, h_a19, h_a20⟩ := h
  refine ⟨?_, ?_, ?_, ?_, ?_, ?_⟩
  · after_results_simp; exact h_l1
  · after_results_simp; exact h_l2
  · after_results_simp; exact h_xr
  · after_results_simp
    simp only [h_l1, h_l2, h_xr, h_p1r, h_a17, h_a18, h_a19, h_a20]
    all_goals rfl
  · after_results_simp; exact h_a19
  · after_results_simp; exact h_a20

set_option maxHeartbeats 4000000 in

theorem tailSim_step7 (Vk : Valuation Cert.KernelIdeal.τ Cert.KernelIdeal.sig (Elt Ideal)) (Vr : Valuation Cert.ReferenceIdeal.τ Cert.ReferenceIdeal.sig (Elt Ideal)) (h : TailSim7 Vk Vr) :
    TailSim8 (StableHlo.after Cert.KernelIdeal.Gen.hostOps4_7 Vk) (StableHlo.after rTl7 Vr) := by
  unfold TailSim7 at h
  unfold TailSim8
  obtain ⟨h_l1, h_l2, h_xr, h_p2, h_a19, h_a20⟩ := h
  refine ⟨?_, ?_, ?_, ?_, ?_, ?_⟩
  · after_results_simp; exact h_l1
  · after_results_simp; exact h_l2
  · after_results_simp; exact h_xr
  · after_results_simp
    simp only [h_l1, h_l2, h_xr, h_p2, h_a19, h_a20]
    all_goals rfl
  · after_results_simp; exact h_a19
  · after_results_simp; exact h_a20

set_option maxHeartbeats 4000000 in

theorem tailSim_step8 (Vk : Valuation Cert.KernelIdeal.τ Cert.KernelIdeal.sig (Elt Ideal)) (Vr : Valuation Cert.ReferenceIdeal.τ Cert.ReferenceIdeal.sig (Elt Ideal)) (h : TailSim8 Vk Vr) :
    TailSim9 (StableHlo.after Cert.KernelIdeal.Gen.hostOps4_8 Vk) (StableHlo.after rTl8 Vr) := by
  unfold TailSim8 at h
  unfold TailSim9
  obtain ⟨h_l1, h_l2, h_xr, h_p2r, h_a19, h_a20⟩ := h
  refine ⟨?_, ?_, ?_, ?_⟩
  · after_results_simp; exact h_l1
  · after_results_simp; exact h_l2
  · after_results_simp; exact h_xr
  · after_results_simp
    simp only [h_l1, h_l2, h_xr, h_p2r, h_a19, h_a20]
    all_goals rfl

end Cert.Bridge

end
-- ==== Proof.Bridge.SimTail.lean ====
import proofs.«415211_j35837207118569_3_alg».proof.Proof.Bridge.TailStepsA
import proofs.«415211_j35837207118569_3_alg».proof.Proof.Bridge.TailStepsA2
import proofs.«415211_j35837207118569_3_alg».proof.Proof.Bridge.TailStepsB
import proofs.«415211_j35837207118569_3_alg».proof.Proof.Bridge.TailStepsC

noncomputable section

namespace Cert.Bridge

open Idealize.ShloMosaic Idealize.ShloMosaic.TcCoe Idealize.SL.Sem

theorem simTail (Vk : Valuation Cert.KernelIdeal.τ Cert.KernelIdeal.sig (Elt Ideal)) (Vr : Valuation Cert.ReferenceIdeal.τ Cert.ReferenceIdeal.sig (Elt Ideal))
    (h_map : Vk (Proc.devRef .tc Cert.KernelIdeal.main_v113) = Vr (Proc.devRef .tc Cert.ReferenceIdeal.main_v117))
    (h_reg : Vk (Proc.devRef .tc Cert.KernelIdeal.main_v129) = Vr (Proc.devRef .tc Cert.ReferenceIdeal.main_v134))
    (h_adj : Vk (Proc.devRef .tc Cert.KernelIdeal.main_v130) = Vr (Proc.devRef .tc Cert.ReferenceIdeal.main_v137))
    (h_ss : Vk (Proc.devRef .tc Cert.KernelIdeal.main_v131) = Vr (Proc.devRef .tc Cert.ReferenceIdeal.main_v139))
    (h_a11 : Vk (Proc.devRef .tc Cert.KernelIdeal.main_arg11) = Vr (Proc.devRef .tc Cert.ReferenceIdeal.main_arg11))
    (h_a12 : Vk (Proc.devRef .tc Cert.KernelIdeal.main_arg12) = Vr (Proc.devRef .tc Cert.ReferenceIdeal.main_arg12))
    (h_a13 : Vk (Proc.devRef .tc Cert.KernelIdeal.main_arg13) = Vr (Proc.devRef .tc Cert.ReferenceIdeal.main_arg13))
    (h_a14 : Vk (Proc.devRef .tc Cert.KernelIdeal.main_arg14) = Vr (Proc.devRef .tc Cert.ReferenceIdeal.main_arg14))
    (h_a15 : Vk (Proc.devRef .tc Cert.KernelIdeal.main_arg15) = Vr (Proc.devRef .tc Cert.ReferenceIdeal.main_arg15))
    (h_a16 : Vk (Proc.devRef .tc Cert.KernelIdeal.main_arg16) = Vr (Proc.devRef .tc Cert.ReferenceIdeal.main_arg16))
    (h_a17 : Vk (Proc.devRef .tc Cert.KernelIdeal.main_arg17) = Vr (Proc.devRef .tc Cert.ReferenceIdeal.main_arg17))
    (h_a18 : Vk (Proc.devRef .tc Cert.KernelIdeal.main_arg18) = Vr (Proc.devRef .tc Cert.ReferenceIdeal.main_arg18))
    (h_a19 : Vk (Proc.devRef .tc Cert.KernelIdeal.main_arg19) = Vr (Proc.devRef .tc Cert.ReferenceIdeal.main_arg19))
    (h_a20 : Vk (Proc.devRef .tc Cert.KernelIdeal.main_arg20) = Vr (Proc.devRef .tc Cert.ReferenceIdeal.main_arg20)) :
    kTail Vk (Proc.devRef .tc Cert.KernelIdeal.main_v137) = rTail Vr (Proc.devRef .tc Cert.ReferenceIdeal.main_v146)
    ∧ kTail Vk (Proc.devRef .tc Cert.KernelIdeal.main_v154) = rTail Vr (Proc.devRef .tc Cert.ReferenceIdeal.main_v163)
    ∧ kTail Vk (Proc.devRef .tc Cert.KernelIdeal.main_v197) = rTail Vr (Proc.devRef .tc Cert.ReferenceIdeal.main_v206)
    ∧ kTail Vk (Proc.devRef .tc Cert.KernelIdeal.main_v211) = rTail Vr (Proc.devRef .tc Cert.ReferenceIdeal.main_v220) := by
  have h0 : TailSim0 Vk Vr := by
    unfold TailSim0
    exact ⟨h_map, h_reg, h_adj, h_ss, h_a11, h_a12, h_a13, h_a14, h_a15, h_a16, h_a17, h_a18, h_a19, h_a20⟩
  have h9 := tailSim_step8 _ _ (tailSim_step7 _ _ (tailSim_step6 _ _ (tailSim_step5 _ _ (tailSim_step4 _ _
    (tailSim_step3 _ _ (tailSim_step2 _ _ (tailSim_step1 _ _ (tailSim_step0 Vk Vr h0))))))))
  unfold TailSim9 at h9
  unfold kTail rTail
  exact h9

end Cert.Bridge

end
-- ==== Proof.Bridge.PoolMath.lean ====
import Idealize.ShloMosaic.PureOps.Ideal

noncomputable section

namespace Cert.Bridge.PoolMath

variable {N E A : Type} [Fintype N] [Fintype E] [DecidableEq N]

theorem sum_rows (S : Finset E) (row : E → N) (g : N → ℝ) (f : E → ℝ) :
    ∑ n, g n * (∑ e ∈ S.filter (fun e => row e = n), f e) = ∑ e ∈ S, g (row e) * f e := by
  have h : ∀ n, g n * (∑ e ∈ S.filter (fun e => row e = n), f e) = ∑ e ∈ S, if row e = n then g n * f e else 0 := by
    intro n
    rw [Finset.mul_sum, Finset.sum_filter]
  rw [Finset.sum_congr rfl fun n _ => h n, Finset.sum_comm]
  refine Finset.sum_congr rfl fun e _ => ?_
  rw [Finset.sum_ite_eq, if_pos (Finset.mem_univ _)]

theorem edgewise_real (m : N → A → ℝ) (ew : E → ℝ) (row col : E → N) (a k : A) :
    ∑ n, m n a * (∑ e ∈ Finset.univ.filter (fun e => row e = n), ew e * m (col e) k)
      = ∑ e, m (row e) a * ew e * m (col e) k := by
  rw [sum_rows Finset.univ row (fun n => m n a) (fun e => ew e * m (col e) k)]
  exact Finset.sum_congr rfl fun e _ => (mul_assoc _ _ _).symm

theorem dense_real (m : N → A → ℝ) (ew : E → ℝ) (row col : E → N) (a k : A) :
    ∑ j, (∑ n, m n a * (∑ e ∈ Finset.univ.filter (fun e => row e = n ∧ col e = j), ew e)) * m j k
      = ∑ e, m (row e) a * ew e * m (col e) k := by

  have h1 : ∀ j, ∑ n, m n a * (∑ e ∈ Finset.univ.filter (fun e => row e = n ∧ col e = j), ew e)
      = ∑ e ∈ Finset.univ.filter (fun e => col e = j), m (row e) a * ew e := by
    intro j
    rw [← sum_rows (Finset.univ.filter (fun e => col e = j)) row (fun n => m n a) ew]
    refine Finset.sum_congr rfl fun n _ => ?_
    congr 1
    refine Finset.sum_congr ?_ fun _ _ => rfl
    rw [Finset.filter_filter]
    exact Finset.filter_congr fun e _ => and_comm
  simp only [h1]
  have h2 := sum_rows Finset.univ col (fun j => m j k) (fun e => m (row e) a * ew e)
  rw [← Finset.sum_congr rfl fun e _ => mul_comm (m (col e) k) (m (row e) a * ew e), ← h2]
  exact Finset.sum_congr rfl fun j _ => mul_comm _ _

theorem pool_real (m : N → A → ℝ) (ew : E → ℝ) (row col : E → N) (a k : A) :
    ∑ n, m n a * (∑ e ∈ Finset.univ.filter (fun e => row e = n), ew e * m (col e) k)
      = ∑ j, (∑ n, m n a * (∑ e ∈ Finset.univ.filter (fun e => row e = n ∧ col e = j), ew e)) * m j k := by
  rw [edgewise_real, dense_real]

theorem coe_sum {ι : Type} (S : Finset ι) (f : ι → ℝ) : ((∑ i ∈ S, f i : ℝ) : EReal) = ∑ i ∈ S, (f i : EReal) := by
  classical
  refine Finset.induction_on S ?_ ?_
  · simp
  · intro a s ha ih
    rw [Finset.sum_insert ha, Finset.sum_insert ha, EReal.coe_add, ih]

theorem pool_ereal (m : N → A → EReal) (ew : E → EReal) (row col : E → N)
    (hm : ∀ n a, ∃ r : ℝ, m n a = (r : EReal)) (hew : ∀ e, ∃ r : ℝ, ew e = (r : EReal)) (a k : A) :
    ∑ n, m n a * (∑ e ∈ Finset.univ.filter (fun e => row e = n), ew e * m (col e) k)
      = ∑ j, (∑ n, m n a * (∑ e ∈ Finset.univ.filter (fun e => row e = n ∧ col e = j), ew e)) * m j k := by
  choose mr hmr using hm
  choose er her using hew

  have hL : ∑ n, m n a * (∑ e ∈ Finset.univ.filter (fun e => row e = n), ew e * m (col e) k)
      = ((∑ n, mr n a * (∑ e ∈ Finset.univ.filter (fun e => row e = n), er e * mr (col e) k) : ℝ) : EReal) := by
    rw [coe_sum]
    refine Finset.sum_congr rfl fun n _ => ?_
    rw [EReal.coe_mul, coe_sum, hmr]
    congr 1
    refine Finset.sum_congr rfl fun e _ => ?_
    rw [EReal.coe_mul, her, hmr]
  have hR : ∑ j, (∑ n, m n a * (∑ e ∈ Finset.univ.filter (fun e => row e = n ∧ col e = j), ew e)) * m j k
      = ((∑ j, (∑ n, mr n a * (∑ e ∈ Finset.univ.filter (fun e => row e = n ∧ col e = j), er e)) * mr j k : ℝ) : EReal) := by
    rw [coe_sum]
    refine Finset.sum_congr rfl fun j _ => ?_
    rw [EReal.coe_mul, coe_sum, hmr]
    congr 1
    refine Finset.sum_congr rfl fun n _ => ?_
    rw [EReal.coe_mul, coe_sum, hmr]
    congr 1
    refine Finset.sum_congr rfl fun e _ => ?_
    rw [her]
  rw [hL, hR, pool_real]

end Cert.Bridge.PoolMath

end
-- ==== Proof.Bridge.LibRows.lean ====
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

def rowOf {N n w : ℕ} (hN : 0 < N) (idx : IVec ⟨2, ![n, 1]⟩ w) (p : Fin n) : Fin N :=
  ⟨min (idx (ixP p)).toInt.toNat (N - 1), by omega⟩

theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil

  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>

    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>

    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by

  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]

  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]

  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

end Cert.LibRows

end
-- ==== Proof.Bridge.LibPoints.lean ====
import Idealize.ShloMosaic.PureOps.Ideal
import Idealize.ShloMosaic.PureOps.Ideal.Laws
import Idealize.ShloMosaic.Lib.ValueIdx

noncomputable section

namespace Cert.LibPoints

open Idealize.ShloMosaic Idealize.ShloMosaic.ValueIdx

def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem scatter_points_resultIdx {N M n w : ℕ} (d : ScatterDims ⟨2, ![N, M]⟩ ⟨2, ![n, 2]⟩ ⟨1, ![n]⟩)
    (hiw : d.insertedWindowDims = [0, 1]) (hsd : d.scatterDimsToOperandDims = [0, 1])
    (hivd : d.indexVectorDim = 1) (idx : IVec ⟨2, ![n, 2]⟩ w) (e : Fin n) (r : Fin N) (c : Fin M) :
    d.resultIdx? (ix1 e) idx = some (ix2 r c)
      ↔ (idx (ix2 e (0 : Fin 2))).toInt = (r.val : ℤ) ∧ (idx (ix2 e (1 : Fin 2))).toInt = (c.val : ℤ) := by
  have e0 : ∀ X : Fin 1, ((ix1 e : (⟨1, ![n]⟩ : Shape).Idx) X).val = e.val := by
    intro X
    obtain rfl : X = 0 := Subsingleton.elim _ _
    rfl
  have hmem_sKept : ∀ a : Fin 2, a ∈ d.sKept ↔ a ∉ d.insertedWindowDims := fun a => by
    simp [ScatterDims.sKept, Shape.kept, List.mem_filter, List.mem_finRange]

  have hs0 : d.start (ix1 e) idx 0 = (idx (ix2 e (0 : Fin 2))).toInt := by
    have hm : (0 : Fin 2) ∈ d.scatterDimsToOperandDims := by rw [hsd]; simp
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _
    | ⟨1, _⟩ =>
      unfold ScatterDims.siIdx
      rw [dif_pos (by rw [hivd])]
      show List.idxOf (0 : Fin 2) d.scatterDimsToOperandDims = 0
      rw [hsd]; simp
  have hs1 : d.start (ix1 e) idx 1 = (idx (ix2 e (1 : Fin 2))).toInt := by
    have hm : (1 : Fin 2) ∈ d.scatterDimsToOperandDims := by rw [hsd]; simp
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _
    | ⟨1, _⟩ =>
      unfold ScatterDims.siIdx
      rw [dif_pos (by rw [hivd])]
      show List.idxOf (1 : Fin 2) d.scatterDimsToOperandDims = 1
      rw [hsd]; rfl

  have hw : ∀ a : Fin 2, d.window (ix1 e) a = 0 := by
    intro a
    have hk : a ∉ d.sKept := by
      rw [hmem_sKept, hiw]
      match a with
      | ⟨0, _⟩ => simp
      | ⟨1, _⟩ => simp
    unfold ScatterDims.window
    rw [dif_neg hk]
  have hr := r.isLt
  have hc := c.isLt
  unfold ScatterDims.resultIdx?
  constructor
  · intro h
    split at h
    · next hin =>
      have hf := Option.some.inj h
      have h0 := congrArg (fun f => (f 0).val) hf
      have h1 := congrArg (fun f => (f 1).val) hf
      simp only [hs0, hs1, hw] at h0 h1
      have hin0 := (hin 0).1
      have hin1 := (hin 1).1
      rw [hs0, hw] at hin0
      rw [hs1, hw] at hin1
      change ((idx (ix2 e (0 : Fin 2))).toInt + ((0 : ℕ) : ℤ)).toNat = r.val at h0
      change ((idx (ix2 e (1 : Fin 2))).toInt + ((0 : ℕ) : ℤ)).toNat = c.val at h1
      exact ⟨by omega, by omega⟩
    · exact absurd h (by simp)
  · rintro ⟨hi, hj⟩
    have hin : ∀ a, 0 ≤ d.start (ix1 e) idx a + d.window (ix1 e) a ∧
        d.start (ix1 e) idx a + (d.window (ix1 e) a : ℤ) < ((⟨2, ![N, M]⟩ : Shape).size a : ℤ) := by
      intro a
      match a with
      | ⟨0, _⟩ =>
        show 0 ≤ d.start (ix1 e) idx 0 + (d.window (ix1 e) 0 : ℤ) ∧ d.start (ix1 e) idx 0 + (d.window (ix1 e) 0 : ℤ) < (N : ℤ)
        rw [hs0, hw, hi]; omega
      | ⟨1, _⟩ =>
        show 0 ≤ d.start (ix1 e) idx 1 + (d.window (ix1 e) 1 : ℤ) ∧ d.start (ix1 e) idx 1 + (d.window (ix1 e) 1 : ℤ) < (M : ℤ)
        rw [hs1, hw, hj]; omega
    rw [dif_pos hin]
    congr 1
    funext a
    apply Fin.ext
    match a with
    | ⟨0, _⟩ =>
      show (d.start (ix1 e) idx 0 + (d.window (ix1 e) 0 : ℤ)).toNat = r.val
      rw [hs0, hw, hi]; omega
    | ⟨1, _⟩ =>
      show (d.start (ix1 e) idx 1 + (d.window (ix1 e) 1 : ℤ)).toNat = c.val
      rw [hs1, hw, hj]; omega

theorem scatterAdd_points {φ : FTy} {N M n w : ℕ} (d : ScatterDims ⟨2, ![N, M]⟩ ⟨2, ![n, 2]⟩ ⟨1, ![n]⟩)
    (hiw : d.insertedWindowDims = [0, 1]) (hsd : d.scatterDimsToOperandDims = [0, 1])
    (hivd : d.indexVectorDim = 1) (x : FVec Ideal ⟨2, ![N, M]⟩ φ) (idx : IVec ⟨2, ![n, 2]⟩ w)
    (upd : FVec Ideal ⟨1, ![n]⟩ φ) (r : Fin N) (c : Fin M) :
    Host.scatterAdd d x idx upd (ix2 r c)
      = x (ix2 r c) + ∑ e ∈ Finset.univ.filter (fun e : Fin n =>
          (idx (ix2 e (0 : Fin 2))).toInt = (r.val : ℤ) ∧ (idx (ix2 e (1 : Fin 2))).toInt = (c.val : ℤ)), upd (ix1 e) := by
  show x (ix2 r c) + ∑ j ∈ Finset.univ.filter (fun j => d.resultIdx? j idx = some (ix2 r c)), upd j = _
  congr 1
  rw [Finset.sum_filter, sum_idx1, Finset.sum_filter]
  refine Finset.sum_congr rfl fun e _ => ?_
  simp only [scatter_points_resultIdx d hiw hsd hivd]

end Cert.LibPoints

end
-- ==== Proof.Bridge.Pool.lean ====
import proofs.«415211_j35837207118569_3_alg».proof.KernelIdeal
import proofs.«415211_j35837207118569_3_alg».proof.ReferenceIdeal
import proofs.«415211_j35837207118569_3_alg».proof.Proof.Bridge.PoolMath
import proofs.«415211_j35837207118569_3_alg».proof.Proof.Bridge.LibRows
import proofs.«415211_j35837207118569_3_alg».proof.Proof.KI.LibDense
import proofs.«415211_j35837207118569_3_alg».proof.Proof.Bridge.LibPoints
import Idealize.ShloMosaic.Lib.ValueLayout
import Idealize.ShloMosaic.Lib.StableHlo.Predicate

noncomputable section

namespace Cert.Bridge

open Idealize.ShloMosaic Idealize.ShloMosaic.ValueIdx Idealize.ShloMosaic.StableHlo.Predicate

variable [Cert.KernelIdeal.Facts₀] [Cert.ReferenceIdeal.Facts₀]

abbrev wrapK (x : IVec Cert.KernelIdeal.S320000 32) : IVec Cert.KernelIdeal.S320000 32 :=
  select (cmpi .slt x (broadcastInDim Cert.KernelIdeal.S320000 ![] Cert.KernelIdeal.Facts₀.bcast_S_S320000 (constantI Cert.KernelIdeal.S_ 32 0#32)))
    (addi x (broadcastInDim Cert.KernelIdeal.S320000 ![] Cert.KernelIdeal.Facts₀.bcast_S_S320000 (constantI Cert.KernelIdeal.S_ 32 10000#32))) x

abbrev wrapR (x : IVec Cert.ReferenceIdeal.S320000 32) : IVec Cert.ReferenceIdeal.S320000 32 :=
  select (cmpi .slt x (broadcastInDim Cert.ReferenceIdeal.S320000 ![] Cert.ReferenceIdeal.Facts₀.bcast_S_S320000 (constantI Cert.ReferenceIdeal.S_ 32 0#32)))
    (addi x (broadcastInDim Cert.ReferenceIdeal.S320000 ![] Cert.ReferenceIdeal.Facts₀.bcast_S_S320000 (constantI Cert.ReferenceIdeal.S_ 32 10000#32))) x

abbrev tmpK (m : FVec Ideal Cert.KernelIdeal.S10000x100 .f32) (row col : IVec Cert.KernelIdeal.S320000 32)
    (ew : FVec Ideal Cert.KernelIdeal.S320000 .f32) : FVec Ideal Cert.KernelIdeal.S10000x100 .f32 :=
  Host.scatterAdd Cert.KernelIdeal.scatter_S10000x100_S320000x1_S320000x100_1_0_0_1
    (broadcastInDim Cert.KernelIdeal.S10000x100 ![] Cert.KernelIdeal.Facts₀.bcast_S_S10000x100 (constant Cert.KernelIdeal.S_ .f32 0x00000000#32))
    (broadcastInDim Cert.KernelIdeal.S320000x1 ![0] Cert.KernelIdeal.Facts₀.bcast_S320000_S320000x1_0 row)
    (mulf (broadcastInDim Cert.KernelIdeal.S320000x100 ![0, 1] Cert.KernelIdeal.Facts₀.bcast_S320000x1_S320000x100_0_1
            (broadcastInDim Cert.KernelIdeal.S320000x1 ![0] Cert.KernelIdeal.Facts₀.bcast_S320000_S320000x1_0 ew))
          (Host.gather Cert.KernelIdeal.gather_S10000x100_S320000x1_S320000x100_1_0_n_n_0_1_1100 m
            (broadcastInDim Cert.KernelIdeal.S320000x1 ![0] Cert.KernelIdeal.Facts₀.bcast_S320000_S320000x1_0 (wrapK col))))

abbrev catK (m : FVec Ideal Cert.KernelIdeal.S10000x100 .f32) (h2 : FVec Ideal Cert.KernelIdeal.S10000x256 .f32)
    (row col : IVec Cert.KernelIdeal.S320000 32) (ew : FVec Ideal Cert.KernelIdeal.S320000 .f32) :
    FVec Ideal Cert.KernelIdeal.S10000x456 .f32 :=
  concatenate Cert.KernelIdeal.S10000x456 1
    [⟨Cert.KernelIdeal.S10000x256, h2⟩, ⟨Cert.KernelIdeal.S10000x100, tmpK m row col ew⟩, ⟨Cert.KernelIdeal.S10000x100, m⟩]
    Cert.KernelIdeal.Facts₀.concatenates_S10000x256_S10000x100_S10000x100_S10000x456_d1

abbrev adjR (row col : IVec Cert.ReferenceIdeal.S320000 32) (ew : FVec Ideal Cert.ReferenceIdeal.S320000 .f32) :
    FVec Ideal Cert.ReferenceIdeal.S10000x10000 .f32 :=
  Host.scatterAdd Cert.ReferenceIdeal.scatter_S10000x10000_S320000x2_S320000_n_01_01_1
    (broadcastInDim Cert.ReferenceIdeal.S10000x10000 ![] Cert.ReferenceIdeal.Facts₀.bcast_S_S10000x10000 (constant Cert.ReferenceIdeal.S_ .f32 0x00000000#32))
    (concatenate Cert.ReferenceIdeal.S320000x2 1
      [⟨Cert.ReferenceIdeal.S320000x1, broadcastInDim Cert.ReferenceIdeal.S320000x1 ![0] Cert.ReferenceIdeal.Facts₀.bcast_S320000_S320000x1_0 (wrapR row)⟩,
       ⟨Cert.ReferenceIdeal.S320000x1, broadcastInDim Cert.ReferenceIdeal.S320000x1 ![0] Cert.ReferenceIdeal.Facts₀.bcast_S320000_S320000x1_0 (wrapR col)⟩]
      Cert.ReferenceIdeal.Facts₀.concatenates_S320000x1_S320000x1_S320000x2_d1)
    ew

abbrev mT (m : FVec Ideal Cert.ReferenceIdeal.S10000x100 .f32) : FVec Ideal Cert.ReferenceIdeal.S100x10000 .f32 :=
  transpose Cert.ReferenceIdeal.S100x10000 [1, 0] m Cert.ReferenceIdeal.Facts₀.transposes_S10000x100_S100x10000_1_0

abbrev regionR (m : FVec Ideal Cert.ReferenceIdeal.S10000x100 .f32) (h2 : FVec Ideal Cert.ReferenceIdeal.S10000x256 .f32) :
    FVec Ideal Cert.ReferenceIdeal.S100x256 .f32 :=
  Host.dotGeneral Cert.ReferenceIdeal.dot_S100x10000_S10000x256_S100x256_1_0_0_1_n_n none (mT m) h2

abbrev outAdjR (m : FVec Ideal Cert.ReferenceIdeal.S10000x100 .f32) (row col : IVec Cert.ReferenceIdeal.S320000 32)
    (ew : FVec Ideal Cert.ReferenceIdeal.S320000 .f32) : FVec Ideal Cert.ReferenceIdeal.S100x100 .f32 :=
  Host.dotGeneral Cert.ReferenceIdeal.dot_S100x10000_S10000x100_S100x100_1_0_0_1_n_n none
    (Host.dotGeneral Cert.ReferenceIdeal.dot_S100x10000_S10000x10000_S100x10000_1_0_0_1_n_n none (mT m) (adjR row col ew)) m

abbrev ssR (m : FVec Ideal Cert.ReferenceIdeal.S10000x100 .f32) : FVec Ideal Cert.ReferenceIdeal.S100x100 .f32 :=
  Host.dotGeneral Cert.ReferenceIdeal.dot_S100x10000_S10000x100_S100x100_1_0_0_1_n_n none (mT m) m

theorem ofFin_eq_ix1 {n : Nat} (p : Fin n) : Shape.Idx.ofFin p = ix1 p := by
  funext a
  obtain rfl : a = 0 := Subsingleton.elim _ _
  exact Fin.ext rfl

theorem ij_eq_ix2 {n k : Nat} (p : Fin n) (q : Fin k) : ij p q = ix2 p q := by
  funext a
  match a with
  | ⟨0, _⟩ => rfl
  | ⟨1, _⟩ => rfl

def nodeOf (x : IVec Cert.KernelIdeal.S320000 32) (e : Fin 320000) : Fin 10000 :=
  ⟨min (x (ix1 e)).toInt.toNat (10000 - 1), by omega⟩

theorem nodeOf_eq_iff (x : IVec Cert.KernelIdeal.S320000 32) (hx : ∀ e, 0 ≤ (x e).toInt ∧ (x e).toInt < 10000)
    (e : Fin 320000) (n : Fin 10000) : (x (ix1 e)).toInt = (n.val : ℤ) ↔ nodeOf x e = n := by
  obtain ⟨h0, h1⟩ := hx (ix1 e)
  have hn := n.isLt
  unfold nodeOf
  rw [Fin.ext_iff]
  show _ ↔ min (x (ix1 e)).toInt.toNat (10000 - 1) = n.val
  omega

theorem wrapK_apply (x : IVec Cert.KernelIdeal.S320000 32) (e : Cert.KernelIdeal.S320000.Idx) (h : 0 ≤ (x e).toInt) :
    wrapK x e = x e := by
  unfold wrapK
  rw [select_apply]
  have hz : cmpi .slt x (broadcastInDim Cert.KernelIdeal.S320000 ![] Cert.KernelIdeal.Facts₀.bcast_S_S320000 (constantI Cert.KernelIdeal.S_ 32 0#32)) e = 0#1 := by
    show BitVec.ofBool ((x e).slt 0#32) = 0#1
    simp only [BitVec.slt, BitVec.toInt_zero]
    rw [decide_eq_false (by omega)]
    rfl
  rw [hz, select_zero]

theorem tmpK_apply (m : FVec Ideal Cert.KernelIdeal.S10000x100 .f32) (row col : IVec Cert.KernelIdeal.S320000 32)
    (ew : FVec Ideal Cert.KernelIdeal.S320000 .f32) (hcol : ∀ e, 0 ≤ (col e).toInt ∧ (col e).toInt < 10000)
    (i : Fin 10000) (k : Fin 100) :
    tmpK m row col ew (ix2 i k)
      = ∑ e ∈ Finset.univ.filter (fun e : Fin 320000 => (row (ix1 e)).toInt = (i.val : ℤ)), ew (ix1 e) * m (ix2 (nodeOf col e) k) := by
  unfold tmpK
  rw [Cert.LibRows.scatterAdd_rows _ rfl rfl rfl rfl]
  rw [bcast_scalar _ (by decide), constant_apply, Ideal.ofBits_zero_f32, zero_add]
  refine Finset.sum_congr (Finset.filter_congr fun e _ => ?_) fun e _ => ?_
  · rw [bcast_col1, ofFin_eq_ix1]
  · rw [mulf_apply, ← ij_eq_ix2, bcast_of_col, bcast_col1, ij_eq_ix2,
      Cert.LibRows.gather_rows _ rfl rfl rfl rfl rfl _ _ (by decide), ofFin_eq_ix1]
    congr 3
    unfold Cert.LibRows.rowOf nodeOf
    apply Fin.ext
    show min (broadcastInDim _ _ _ (wrapK col) (ixP e)).toInt.toNat (10000 - 1) = min (col (ix1 e)).toInt.toNat (10000 - 1)
    rw [bcast_col1, ofFin_eq_ix1, wrapK_apply _ _ (hcol _).1]

theorem catK_left (m : FVec Ideal Cert.KernelIdeal.S10000x100 .f32) (h2 : FVec Ideal Cert.KernelIdeal.S10000x256 .f32)
    (row col : IVec Cert.KernelIdeal.S320000 32) (ew : FVec Ideal Cert.KernelIdeal.S320000 .f32)
    (n : Fin 10000) (j : Fin 456) (q : Fin 256) (hq : q.val = j.val) :
    catK m h2 row col ew (ix2 n j) = h2 (ix2 n q) := by
  unfold catK
  refine concatenate_apply_piece (t := Cert.KernelIdeal.S10000x456) 1 [⟨Cert.KernelIdeal.S10000x256, h2⟩, ⟨Cert.KernelIdeal.S10000x100, tmpK m row col ew⟩, ⟨Cert.KernelIdeal.S10000x100, m⟩]
    Cert.KernelIdeal.Facts₀.concatenates_S10000x256_S10000x100_S10000x100_S10000x456_d1 (ix2 n j) 0 (by simp) Cert.KernelIdeal.S10000x256 h2 rfl rfl 0 rfl (ix2 n q) (fun b hb => ?_) ?_
  · match b with
    | ⟨0, _⟩ => rfl
    | ⟨1, _⟩ => exact absurd rfl hb
  · show 0 + q.val = j.val
    omega

theorem catK_mid (m : FVec Ideal Cert.KernelIdeal.S10000x100 .f32) (h2 : FVec Ideal Cert.KernelIdeal.S10000x256 .f32)
    (row col : IVec Cert.KernelIdeal.S320000 32) (ew : FVec Ideal Cert.KernelIdeal.S320000 .f32)
    (n : Fin 10000) (j : Fin 456) (q : Fin 100) (hq : 256 + q.val = j.val) :
    catK m h2 row col ew (ix2 n j) = tmpK m row col ew (ix2 n q) := by
  unfold catK
  refine concatenate_apply_piece (t := Cert.KernelIdeal.S10000x456) 1 [⟨Cert.KernelIdeal.S10000x256, h2⟩, ⟨Cert.KernelIdeal.S10000x100, tmpK m row col ew⟩, ⟨Cert.KernelIdeal.S10000x100, m⟩]
    Cert.KernelIdeal.Facts₀.concatenates_S10000x256_S10000x100_S10000x100_S10000x456_d1 (ix2 n j) 1 (by simp) Cert.KernelIdeal.S10000x100 (tmpK m row col ew) rfl rfl 256 rfl (ix2 n q) (fun b hb => ?_) ?_
  · match b with
    | ⟨0, _⟩ => rfl
    | ⟨1, _⟩ => exact absurd rfl hb
  · exact hq

theorem catK_right (m : FVec Ideal Cert.KernelIdeal.S10000x100 .f32) (h2 : FVec Ideal Cert.KernelIdeal.S10000x256 .f32)
    (row col : IVec Cert.KernelIdeal.S320000 32) (ew : FVec Ideal Cert.KernelIdeal.S320000 .f32)
    (n : Fin 10000) (j : Fin 456) (q : Fin 100) (hq : 356 + q.val = j.val) :
    catK m h2 row col ew (ix2 n j) = m (ix2 n q) := by
  unfold catK
  refine concatenate_apply_piece (t := Cert.KernelIdeal.S10000x456) 1 [⟨Cert.KernelIdeal.S10000x256, h2⟩, ⟨Cert.KernelIdeal.S10000x100, tmpK m row col ew⟩, ⟨Cert.KernelIdeal.S10000x100, m⟩]
    Cert.KernelIdeal.Facts₀.concatenates_S10000x256_S10000x100_S10000x100_S10000x456_d1 (ix2 n j) 2 (by simp) Cert.KernelIdeal.S10000x100 m rfl rfl 356 rfl (ix2 n q) (fun b hb => ?_) ?_
  · match b with
    | ⟨0, _⟩ => rfl
    | ⟨1, _⟩ => exact absurd rfl hb
  · exact hq

theorem wrapR_apply (x : IVec Cert.ReferenceIdeal.S320000 32) (e : Cert.ReferenceIdeal.S320000.Idx) (h : 0 ≤ (x e).toInt) :
    wrapR x e = x e := by
  unfold wrapR
  rw [select_apply]
  have hz : cmpi .slt x (broadcastInDim Cert.ReferenceIdeal.S320000 ![] Cert.ReferenceIdeal.Facts₀.bcast_S_S320000 (constantI Cert.ReferenceIdeal.S_ 32 0#32)) e = 0#1 := by
    show BitVec.ofBool ((x e).slt 0#32) = 0#1
    simp only [BitVec.slt, BitVec.toInt_zero]
    rw [decide_eq_false (by omega)]
    rfl
  rw [hz, select_zero]

theorem mT_apply (m : FVec Ideal Cert.ReferenceIdeal.S10000x100 .f32) (a : Fin 100) (n : Fin 10000) :
    mT m (ix2 a n) = m (ix2 n a) :=
  transpose_ix2_apply _ _ _ _

theorem adjR_apply (row col : IVec Cert.ReferenceIdeal.S320000 32) (ew : FVec Ideal Cert.ReferenceIdeal.S320000 .f32)
    (hrow : ∀ e, 0 ≤ (row e).toInt ∧ (row e).toInt < 10000) (hcol : ∀ e, 0 ≤ (col e).toInt ∧ (col e).toInt < 10000)
    (i j : Fin 10000) :
    adjR row col ew (ix2 i j)
      = ∑ e ∈ Finset.univ.filter (fun e : Fin 320000 => (row (ix1 e)).toInt = (i.val : ℤ) ∧ (col (ix1 e)).toInt = (j.val : ℤ)), ew (ix1 e) := by
  unfold adjR
  rw [Cert.LibPoints.scatterAdd_points _ rfl rfl rfl]
  rw [bcast_scalar _ (by decide), constant_apply, Ideal.ofBits_zero_f32, zero_add]
  refine Finset.sum_congr (Finset.filter_congr fun e _ => ?_) fun e _ => rfl

  rw [concatenate_pair_apply_left (t := Cert.ReferenceIdeal.S320000x2) (s₁ := Cert.ReferenceIdeal.S320000x1) (s₂ := Cert.ReferenceIdeal.S320000x1) 1 _ _ _ (ix2 e (0 : Fin 2)) rfl (ixP e)
        (fun b => match b with | ⟨0, _⟩ => rfl | ⟨1, _⟩ => rfl),
      concatenate_pair_apply_right (t := Cert.ReferenceIdeal.S320000x2) (s₁ := Cert.ReferenceIdeal.S320000x1) (s₂ := Cert.ReferenceIdeal.S320000x1) 1 _ _ _ (ix2 e (1 : Fin 2)) rfl rfl (ixP e)
        (fun b hb => match b with | ⟨0, _⟩ => rfl | ⟨1, _⟩ => absurd rfl hb) rfl,
      bcast_col1, bcast_col1, ofFin_eq_ix1, wrapR_apply _ _ (hrow _).1, wrapR_apply _ _ (hcol _).1]

theorem regionR_apply (m : FVec Ideal Cert.ReferenceIdeal.S10000x100 .f32) (h2 : FVec Ideal Cert.ReferenceIdeal.S10000x256 .f32)
    (a : Fin 100) (j : Fin 256) : regionR m h2 (ix2 a j) = ∑ n : Fin 10000, m (ix2 n a) * h2 (ix2 n j) := by
  refine (Cert.LibDense.dotGeneral_apply Cert.ReferenceIdeal.dot_S100x10000_S10000x256_S100x256_1_0_0_1_n_n none .single
    rfl rfl rfl rfl rfl rfl (mT m) h2 a j).trans ?_
  exact Finset.sum_congr rfl fun n _ => by rw [mT_apply]

theorem ssR_apply (m : FVec Ideal Cert.ReferenceIdeal.S10000x100 .f32) (a k : Fin 100) :
    ssR m (ix2 a k) = ∑ n : Fin 10000, m (ix2 n a) * m (ix2 n k) := by
  refine (Cert.LibDense.dotGeneral_apply Cert.ReferenceIdeal.dot_S100x10000_S10000x100_S100x100_1_0_0_1_n_n none .single
    rfl rfl rfl rfl rfl rfl (mT m) m a k).trans ?_
  exact Finset.sum_congr rfl fun n _ => by rw [mT_apply]

theorem mT_dot_apply (m : FVec Ideal Cert.ReferenceIdeal.S10000x100 .f32) (A : FVec Ideal Cert.ReferenceIdeal.S10000x10000 .f32)
    (a : Fin 100) (j : Fin 10000) :
    Host.dotGeneral Cert.ReferenceIdeal.dot_S100x10000_S10000x10000_S100x10000_1_0_0_1_n_n none (mT m) A (ix2 a j)
      = ∑ n : Fin 10000, m (ix2 n a) * A (ix2 n j) := by
  refine (Cert.LibDense.dotGeneral_apply Cert.ReferenceIdeal.dot_S100x10000_S10000x10000_S100x10000_1_0_0_1_n_n none .single
    rfl rfl rfl rfl rfl rfl (mT m) A a j).trans ?_
  exact Finset.sum_congr rfl fun n _ => by rw [mT_apply]

theorem mT_dot_dot_apply (m : FVec Ideal Cert.ReferenceIdeal.S10000x100 .f32) (A : FVec Ideal Cert.ReferenceIdeal.S10000x10000 .f32)
    (a k : Fin 100) :
    Host.dotGeneral Cert.ReferenceIdeal.dot_S100x10000_S10000x100_S100x100_1_0_0_1_n_n none
        (Host.dotGeneral Cert.ReferenceIdeal.dot_S100x10000_S10000x10000_S100x10000_1_0_0_1_n_n none (mT m) A) m (ix2 a k)
      = ∑ j : Fin 10000, (∑ n : Fin 10000, m (ix2 n a) * A (ix2 n j)) * m (ix2 j k) := by
  refine (Cert.LibDense.dotGeneral_apply Cert.ReferenceIdeal.dot_S100x10000_S10000x100_S100x100_1_0_0_1_n_n none .single
    rfl rfl rfl rfl rfl rfl
    (Host.dotGeneral Cert.ReferenceIdeal.dot_S100x10000_S10000x10000_S100x10000_1_0_0_1_n_n none (mT m) A) m a k).trans ?_
  exact Finset.sum_congr rfl fun j _ => by rw [mT_dot_apply]

theorem outAdjR_apply (m : FVec Ideal Cert.ReferenceIdeal.S10000x100 .f32) (row col : IVec Cert.ReferenceIdeal.S320000 32)
    (ew : FVec Ideal Cert.ReferenceIdeal.S320000 .f32) (a k : Fin 100) :
    outAdjR m row col ew (ix2 a k)
      = ∑ j : Fin 10000, (∑ n : Fin 10000, m (ix2 n a) * adjR row col ew (ix2 n j)) * m (ix2 j k) :=
  mT_dot_dot_apply m (adjR row col ew) a k

theorem pool_eq (m : FVec Ideal Cert.KernelIdeal.S10000x100 .f32) (h2 : FVec Ideal Cert.KernelIdeal.S10000x256 .f32)
    (row col : IVec Cert.KernelIdeal.S320000 32) (ew : FVec Ideal Cert.KernelIdeal.S320000 .f32)
    (hm : ∀ i, ∃ r : ℝ, m i = (r : EReal)) (hew : ∀ e, ∃ r : ℝ, ew e = (r : EReal))
    (hrow : ∀ e, 0 ≤ (row e).toInt ∧ (row e).toInt < 10000) (hcol : ∀ e, 0 ≤ (col e).toInt ∧ (col e).toInt < 10000)
    (P : FVec Ideal Cert.KernelIdeal.S100x456 .f32)
    (hP : ∀ (a : Fin 100) (j : Fin 456), P (ix2 a j) = ∑ n : Fin 10000, m (ix2 n a) * catK m h2 row col ew (ix2 n j)) :
    extractStridedSlice Cert.KernelIdeal.S100x256 ![0, 0] P Cert.KernelIdeal.Facts₀.slices_S100x456_S100x256_0_0 = regionR m h2
    ∧ extractStridedSlice Cert.KernelIdeal.S100x100 ![0, 256] P Cert.KernelIdeal.Facts₀.slices_S100x456_S100x100_0_256 = outAdjR m row col ew
    ∧ extractStridedSlice Cert.KernelIdeal.S100x100 ![0, 356] P Cert.KernelIdeal.Facts₀.slices_S100x456_S100x100_0_356 = ssR m := by
  refine ⟨?_, ?_, ?_⟩
  ·
    funext i
    obtain ⟨a, j, rfl⟩ : ∃ a j, i = ix2 a j := ⟨i 0, i 1, eq_ix2 i⟩
    rw [slice2_axis1_eq, hP, regionR_apply]
    exact Finset.sum_congr rfl fun n _ => by rw [catK_left m h2 row col ew n _ j (by simp)]
  ·
    funext i
    obtain ⟨a, k, rfl⟩ : ∃ a k, i = ix2 a k := ⟨i 0, i 1, eq_ix2 i⟩
    rw [slice2_axis1_eq, hP, outAdjR_apply]
    have hL : ∀ n : Fin 10000, catK m h2 row col ew (ix2 n ⟨256 + k.val, by omega⟩)
        = ∑ e ∈ Finset.univ.filter (fun e : Fin 320000 => nodeOf row e = n), ew (ix1 e) * m (ix2 (nodeOf col e) k) := by
      intro n
      rw [catK_mid m h2 row col ew n _ k rfl, tmpK_apply m row col ew hcol]
      exact Finset.sum_congr (Finset.filter_congr fun e _ => nodeOf_eq_iff row hrow e n) fun _ _ => rfl
    have hR : ∀ n j : Fin 10000, adjR row col ew (ix2 n j)
        = ∑ e ∈ Finset.univ.filter (fun e : Fin 320000 => nodeOf row e = n ∧ nodeOf col e = j), ew (ix1 e) := by
      intro n j
      rw [adjR_apply row col ew hrow hcol]
      exact Finset.sum_congr (Finset.filter_congr fun e _ => and_congr (nodeOf_eq_iff row hrow e n) (nodeOf_eq_iff col hcol e j))
        fun _ _ => rfl
    simp only [hL, hR]
    exact PoolMath.pool_ereal (fun n a => m (ix2 n a)) (fun e => ew (ix1 e)) (nodeOf row) (nodeOf col)
      (fun n a => hm _) (fun e => hew _) a k
  ·
    funext i
    obtain ⟨a, k, rfl⟩ : ∃ a k, i = ix2 a k := ⟨i 0, i 1, eq_ix2 i⟩
    rw [slice2_axis1_eq, hP, ssR_apply]
    exact Finset.sum_congr rfl fun n _ => by rw [catK_right m h2 row col ew n _ k rfl]

end Cert.Bridge

end
-- ==== Proof.Bridge.PoolVal.lean ====
import proofs.«415211_j35837207118569_3_alg».proof.Proof.Bridge.Pool
import proofs.«415211_j35837207118569_3_alg».proof.Proof.Bridge.TailOps

noncomputable section

namespace Cert.Bridge

open Idealize.ShloMosaic Idealize.ShloMosaic.TcCoe Idealize.SL.Sem Idealize.ShloMosaic.ValueIdx
open Idealize.ShloMosaic.StableHlo (after)

set_option maxHeartbeats 4000000
set_option maxRecDepth 8192

theorem kTlHead_v129 (W : Valuation Cert.KernelIdeal.τ Cert.KernelIdeal.sig (Elt Ideal)) (P : FVec Ideal Cert.KernelIdeal.S100x456 .f32) :
    after kTlHead (Function.update W Cert.KernelIdeal.main_v128 P) Cert.KernelIdeal.main_v129
      = extractStridedSlice Cert.KernelIdeal.S100x256 ![0, 0] P Cert.KernelIdeal.Facts₀.slices_S100x456_S100x256_0_0 := by
  after_results_simp
  rw [Function.update_self]

theorem kTlHead_v130 (W : Valuation Cert.KernelIdeal.τ Cert.KernelIdeal.sig (Elt Ideal)) (P : FVec Ideal Cert.KernelIdeal.S100x456 .f32) :
    after kTlHead (Function.update W Cert.KernelIdeal.main_v128 P) Cert.KernelIdeal.main_v130
      = extractStridedSlice Cert.KernelIdeal.S100x100 ![0, 256] P Cert.KernelIdeal.Facts₀.slices_S100x456_S100x100_0_256 := by
  after_results_simp
  rw [Function.update_self]

theorem kTlHead_v131 (W : Valuation Cert.KernelIdeal.τ Cert.KernelIdeal.sig (Elt Ideal)) (P : FVec Ideal Cert.KernelIdeal.S100x456 .f32) :
    after kTlHead (Function.update W Cert.KernelIdeal.main_v128 P) Cert.KernelIdeal.main_v131
      = extractStridedSlice Cert.KernelIdeal.S100x100 ![0, 356] P Cert.KernelIdeal.Facts₀.slices_S100x456_S100x100_0_356 := by
  after_results_simp
  rw [Function.update_self]

theorem after_snoc {τ : Topo} {sig : RefSig} {Val : EltTy → Type} (l : List (HloOp τ sig Val)) (op : HloOp τ sig Val)
    (V : Valuation τ sig Val) : after (l ++ [op]) V = op.result (after l V) := by
  induction l generalizing V with
  | nil => rfl
  | cons a l ih => simp only [List.cons_append, StableHlo.after_cons, ih]

theorem concat3_congr {α : Type} {t s₁ s₂ s₃ : Shape} (a : Fin t.rank) {x₁ y₁ : s₁.Idx → α} {x₂ y₂ : s₂.Idx → α}
    {x₃ y₃ : s₃.Idx → α} (h : Shape.Concatenates [s₁, s₂, s₃] t a) (e₁ : x₁ = y₁) (e₂ : x₂ = y₂) (e₃ : x₃ = y₃) :
    concatenate t a [⟨s₁, x₁⟩, ⟨s₂, x₂⟩, ⟨s₃, x₃⟩] h = concatenate t a [⟨s₁, y₁⟩, ⟨s₂, y₂⟩, ⟨s₃, y₃⟩] h := by
  subst e₁ e₂ e₃
  rfl

abbrev catOp : HloOp Cert.KernelIdeal.τ Cert.KernelIdeal.sig (Elt Ideal) :=
  StableHlo.nary ![Cert.KernelIdeal.main_v94, Cert.KernelIdeal.main_v126, Cert.KernelIdeal.main_v113] Cert.KernelIdeal.main_v127
    (fun u => concatenate Cert.KernelIdeal.S10000x456 1
      [⟨Cert.KernelIdeal.S10000x256, u 0⟩, ⟨Cert.KernelIdeal.S10000x100, u 1⟩, ⟨Cert.KernelIdeal.S10000x100, u 2⟩]
      Cert.KernelIdeal.Facts₀.concatenates_S10000x256_S10000x100_S10000x100_S10000x456_d1)

theorem hostOps3_snoc (Vk : Valuation Cert.KernelIdeal.τ Cert.KernelIdeal.sig (Elt Ideal)) :
    after Cert.KernelIdeal.Gen.hostOps3 Vk = catOp.result (after (List.dropLast Cert.KernelIdeal.Gen.hostOps3) Vk) := by
  rw [← after_snoc]
  rfl

theorem pool_val (Vk : Valuation Cert.KernelIdeal.τ Cert.KernelIdeal.sig (Elt Ideal))
    (Vr : Valuation Cert.ReferenceIdeal.τ Cert.ReferenceIdeal.sig (Elt Ideal)) (P : FVec Ideal Cert.KernelIdeal.S100x456 .f32)
    (mK : FVec Ideal Cert.KernelIdeal.S10000x100 .f32) (cK : FVec Ideal Cert.KernelIdeal.S10000x456 .f32)
    (hmK : after Cert.KernelIdeal.Gen.hostOps3 Vk Cert.KernelIdeal.main_v113 = mK)
    (hcK : after Cert.KernelIdeal.Gen.hostOps3 Vk Cert.KernelIdeal.main_v127 = cK)
    (hP : ∀ (a : Fin 100) (j : Fin 456), P (ix2 a j) = ∑ n : Fin 10000, mK (ix2 n a) * cK (ix2 n j))
    (hmap : mK = Vr Cert.ReferenceIdeal.main_v117)
    (hh2 : Vk Cert.KernelIdeal.main_v94 = Vr Cert.ReferenceIdeal.main_v92)
    (hrow : Vk Cert.KernelIdeal.main_v1 = Vr Cert.ReferenceIdeal.main_v1)
    (hcol : Vk Cert.KernelIdeal.main_v3 = Vr Cert.ReferenceIdeal.main_v3)
    (hew : Vk Cert.KernelIdeal.main_arg2 = Vr Cert.ReferenceIdeal.main_arg2)
    (hm : ∀ i, ∃ r : ℝ, mK i = (r : EReal))
    (hewr : ∀ e, ∃ r : ℝ, Vk Cert.KernelIdeal.main_arg2 e = (r : EReal))
    (hrowr : ∀ e, 0 ≤ BitVec.toInt (Vk Cert.KernelIdeal.main_v1 e) ∧ BitVec.toInt (Vk Cert.KernelIdeal.main_v1 e) < 10000)
    (hcolr : ∀ e, 0 ≤ BitVec.toInt (Vk Cert.KernelIdeal.main_v3 e) ∧ BitVec.toInt (Vk Cert.KernelIdeal.main_v3 e) < 10000) :
    after kTlHead (Function.update (after Cert.KernelIdeal.Gen.hostOps3 Vk) Cert.KernelIdeal.main_v128 P) Cert.KernelIdeal.main_v129
        = after Cert.RI.ropsH Vr Cert.ReferenceIdeal.main_v134
    ∧ after kTlHead (Function.update (after Cert.KernelIdeal.Gen.hostOps3 Vk) Cert.KernelIdeal.main_v128 P) Cert.KernelIdeal.main_v130
        = after Cert.RI.ropsH Vr Cert.ReferenceIdeal.main_v137
    ∧ after kTlHead (Function.update (after Cert.KernelIdeal.Gen.hostOps3 Vk) Cert.KernelIdeal.main_v128 P) Cert.KernelIdeal.main_v131
        = after Cert.RI.ropsH Vr Cert.ReferenceIdeal.main_v139 := by

  have e94 : after Cert.KernelIdeal.Gen.hostOps3 Vk Cert.KernelIdeal.main_v94 = Vk Cert.KernelIdeal.main_v94 := by
    after_results_simp
  have e126 : after Cert.KernelIdeal.Gen.hostOps3 Vk Cert.KernelIdeal.main_v126
      = tmpK (after Cert.KernelIdeal.Gen.hostOps3 Vk Cert.KernelIdeal.main_v113) (Vk Cert.KernelIdeal.main_v1)
          (Vk Cert.KernelIdeal.main_v3) (Vk Cert.KernelIdeal.main_arg2) := by
    after_results_simp <;> rfl

  have hW := hostOps3_snoc Vk
  have w94 : after (List.dropLast Cert.KernelIdeal.Gen.hostOps3) Vk Cert.KernelIdeal.main_v94 = Vk Cert.KernelIdeal.main_v94 := by
    rw [← e94, hW]
    refine (StableHlo.nary_result_ne _ _ _ _ _ _ ?_).symm
    decide
  have w113 : after (List.dropLast Cert.KernelIdeal.Gen.hostOps3) Vk Cert.KernelIdeal.main_v113 = mK := by
    rw [← hmK, hW]
    refine (StableHlo.nary_result_ne _ _ _ _ _ _ ?_).symm
    decide
  have w126 : after (List.dropLast Cert.KernelIdeal.Gen.hostOps3) Vk Cert.KernelIdeal.main_v126
      = tmpK mK (Vk Cert.KernelIdeal.main_v1) (Vk Cert.KernelIdeal.main_v3) (Vk Cert.KernelIdeal.main_arg2) := by
    rw [← hmK, ← e126, hW]
    refine (StableHlo.nary_result_ne _ _ _ _ _ _ ?_).symm
    decide
  have h127 : cK = catK mK (Vk Cert.KernelIdeal.main_v94) (Vk Cert.KernelIdeal.main_v1) (Vk Cert.KernelIdeal.main_v3)
      (Vk Cert.KernelIdeal.main_arg2) := by
    rw [← hcK, hW]
    refine (StableHlo.nary_result _ _ _ _ _ _).trans ?_
    exact concat3_congr 1 _ w94 w126 w113
  rw [h127] at hP
  obtain ⟨h1, h2, h3⟩ := pool_eq _ _ _ _ _ hm hewr hrowr hcolr P hP

  have r134 : after Cert.RI.ropsH Vr Cert.ReferenceIdeal.main_v134
      = regionR (Vr Cert.ReferenceIdeal.main_v117) (Vr Cert.ReferenceIdeal.main_v92) := by
    after_results_simp <;> rfl
  have r137 : after Cert.RI.ropsH Vr Cert.ReferenceIdeal.main_v137
      = outAdjR (Vr Cert.ReferenceIdeal.main_v117) (Vr Cert.ReferenceIdeal.main_v1) (Vr Cert.ReferenceIdeal.main_v3)
          (Vr Cert.ReferenceIdeal.main_arg2) := by
    after_results_simp <;> rfl
  have r139 : after Cert.RI.ropsH Vr Cert.ReferenceIdeal.main_v139 = ssR (Vr Cert.ReferenceIdeal.main_v117) := by
    after_results_simp <;> rfl
  rw [r134, r137, r139, kTlHead_v129, kTlHead_v130, kTlHead_v131, h1, h2, h3, hmap, hh2, hrow, hcol, hew]
  exact ⟨rfl, rfl, rfl⟩

end Cert.Bridge

end
-- ==== Proof.Bridge.PreFacts.lean ====
import proofs.«415211_j35837207118569_3_alg».proof.Pre_finite_inputs
import Idealize.ShloMosaic.Lib.ReduceAll
import Idealize.ShloMosaic.Lib.StableHlo.Predicate
import Idealize.ShloMosaic.Lib.ValueIdx

noncomputable section

namespace Cert.Bridge

open Idealize.ShloMosaic Idealize.ShloMosaic.ValueIdx Cert.Pre_finite_inputs

def IsReal {s : Shape} (x : FVec Ideal s .f32) : Prop := ∀ i, ∃ r : ℝ, x i = (r : EReal)

def InRange (w : BitVec 32) : Prop := 0 ≤ w.toInt ∧ w.toInt < 10000

instance : Subsingleton S_.Idx := ⟨fun a b => funext fun d => d.elim0⟩

theorem inf_bits : Ideal.ofBits .f32 0x7F800000#32 = (⊤ : EReal) := by
  simp [Ideal.ofBits, Ideal.ieee]

theorem real_of_abs_lt (x : EReal) (hx : Ideal.cmp .olt (max x (-x)) (Ideal.ofBits .f32 0x7F800000#32) = 1#1) :
    ∃ r : ℝ, x = (r : EReal) := by
  rw [inf_bits] at hx
  unfold Ideal.cmp at hx
  rw [StableHlo.Predicate.ofBool_eq_one_iff, decide_eq_true_eq] at hx
  induction x using EReal.rec with
  | bot => simp at hx
  | top => simp at hx
  | coe r => exact ⟨r, rfl⟩

theorem isReal_of_all {s : Shape} {axes : List (Fin s.rank)} (x : FVec Ideal s .f32)
    (b : S_.BroadcastsInDim s (![] : Fin 0 → Fin s.rank)) (r : s.ReducesTo axes S_) (hu : 0 < S_.numel) (j : S_.Idx)
    (e : Host.reduce IntOp.andi (cmpf .olt (Host.absf x) (broadcastInDim s ![] b (constant S_ .f32 0x7F800000#32)))
      (constantI S_ 1 1#1) r hu j = 1#1) : IsReal x := by
  intro i
  have hi := Host.reduce_andi_all _ _ r hu j e i
  exact real_of_abs_lt (x i) hi

theorem range_of_all {s : Shape} {axes : List (Fin s.rank)} (w : IVec s 32)
    (b : S_.BroadcastsInDim s (![] : Fin 0 → Fin s.rank)) (r : s.ReducesTo axes S_) (hu : 0 < S_.numel) (j : S_.Idx)
    (e : Host.reduce IntOp.andi (andi (cmpi .sge w (broadcastInDim s ![] b (constantI S_ 32 0#32)))
        (cmpi .slt w (broadcastInDim s ![] b (constantI S_ 32 10000#32))))
      (constantI S_ 1 1#1) r hu j = 1#1) : ∀ i, InRange (w i) := by
  intro i
  have hi := Host.reduce_andi_all _ _ r hu j e i
  obtain ⟨h0, h1⟩ := IntOp.andi_eq_one.1 hi
  change IntOp.cmpi .sge (w i) 0#32 = 1#1 at h0
  change IntOp.cmpi .slt (w i) 10000#32 = 1#1 at h1
  unfold IntOp.cmpi at h0 h1
  rw [StableHlo.Predicate.ofBool_eq_one_iff] at h0 h1
  simp only [BitVec.sle, BitVec.slt, decide_eq_true_eq] at h0 h1
  have z0 : (0#32 : BitVec 32).toInt = 0 := by decide
  have z1 : (10000#32 : BitVec 32).toInt = 10000 := by decide
  rw [z0] at h0
  rw [z1] at h1
  exact ⟨h0, h1⟩

theorem andi_apply_eq_one {s : Shape} (x y : IVec s 1) (i : s.Idx) : andi x y i = 1#1 ↔ x i = 1#1 ∧ y i = 1#1 :=
  IntOp.andi_eq_one

section Pre

variable [Cert.Pre_finite_inputs.Facts]

variable {a0 : FVec Ideal S10000x128 .f32} {a1 : IVec S2x320000 32} {a2 : FVec Ideal S320000 .f32} {a3 : FVec Ideal S128x256 .f32} {a4 : FVec Ideal S256 .f32} {a5 : FVec Ideal S256x256 .f32} {a6 : FVec Ideal S256 .f32}
  {a7 : FVec Ideal S256x512 .f32} {a8 : FVec Ideal S512 .f32} {a9 : FVec Ideal S512x100 .f32} {a10 : FVec Ideal S100 .f32} {a11 : FVec Ideal S256x512 .f32} {a12 : FVec Ideal S512 .f32} {a13 : FVec Ideal S512x256 .f32}
  {a14 : FVec Ideal S256 .f32} {a15 : FVec Ideal S256x512 .f32} {a16 : FVec Ideal S512 .f32} {a17 : FVec Ideal S512x512 .f32} {a18 : FVec Ideal S512 .f32} {a19 : FVec Ideal S512x1 .f32} {a20 : FVec Ideal S1 .f32}

abbrev PreHolds (a0 : FVec Ideal S10000x128 .f32) (a1 : IVec S2x320000 32) (a2 : FVec Ideal S320000 .f32) (a3 : FVec Ideal S128x256 .f32) (a4 : FVec Ideal S256 .f32) (a5 : FVec Ideal S256x256 .f32) (a6 : FVec Ideal S256 .f32) (a7 : FVec Ideal S256x512 .f32) (a8 : FVec Ideal S512 .f32) (a9 : FVec Ideal S512x100 .f32) (a10 : FVec Ideal S100 .f32) (a11 : FVec Ideal S256x512 .f32) (a12 : FVec Ideal S512 .f32) (a13 : FVec Ideal S512x256 .f32) (a14 : FVec Ideal S256 .f32) (a15 : FVec Ideal S256x512 .f32) (a16 : FVec Ideal S512 .f32) (a17 : FVec Ideal S512x512 .f32) (a18 : FVec Ideal S512 .f32) (a19 : FVec Ideal S512x1 .f32) (a20 : FVec Ideal S1 .f32) : Prop :=
  Cert.Pre_finite_inputs.fn (F := Ideal) a0 a1 a2 a3 a4 a5 a6 a7 a8 a9 a10 a11 a12 a13 a14 a15 a16 a17 a18 a19 a20 = fun _ => 1#1

theorem pre_all (h : PreHolds a0 a1 a2 a3 a4 a5 a6 a7 a8 a9 a10 a11 a12 a13 a14 a15 a16 a17 a18 a19 a20) :
    IsReal a0 ∧ IsReal a2 ∧ IsReal a3 ∧ IsReal a4 ∧ IsReal a5 ∧ IsReal a6 ∧ IsReal a7 ∧ IsReal a8 ∧ IsReal a9 ∧ IsReal a10 ∧ IsReal a11 ∧ IsReal a12 ∧ IsReal a13 ∧ IsReal a14 ∧ IsReal a15 ∧ IsReal a16 ∧ IsReal a17 ∧ IsReal a18 ∧ IsReal a19 ∧ IsReal a20 ∧ ∀ i : S2x320000.Idx, InRange (a1 i) := by
  have e := congrFun h ix0
  dsimp only [Cert.Pre_finite_inputs.fn, fn_part1, fn_part2, fn_part3, fn_part4, fn_part5, fn_part6] at e
  simp only [andi_apply_eq_one] at e
  obtain ⟨⟨⟨⟨⟨⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, e16⟩, e17⟩, e18⟩, e19⟩, e20⟩, e1⟩ := e
  exact ⟨isReal_of_all _ _ _ _ _ e0,
    isReal_of_all _ _ _ _ _ e2,
    isReal_of_all _ _ _ _ _ e3,
    isReal_of_all _ _ _ _ _ e4,
    isReal_of_all _ _ _ _ _ e5,
    isReal_of_all _ _ _ _ _ e6,
    isReal_of_all _ _ _ _ _ e7,
    isReal_of_all _ _ _ _ _ e8,
    isReal_of_all _ _ _ _ _ e9,
    isReal_of_all _ _ _ _ _ e10,
    isReal_of_all _ _ _ _ _ e11,
    isReal_of_all _ _ _ _ _ e12,
    isReal_of_all _ _ _ _ _ e13,
    isReal_of_all _ _ _ _ _ e14,
    isReal_of_all _ _ _ _ _ e15,
    isReal_of_all _ _ _ _ _ e16,
    isReal_of_all _ _ _ _ _ e17,
    isReal_of_all _ _ _ _ _ e18,
    isReal_of_all _ _ _ _ _ e19,
    isReal_of_all _ _ _ _ _ e20,
    range_of_all _ _ _ _ _ e1⟩

theorem a2_real (h : PreHolds a0 a1 a2 a3 a4 a5 a6 a7 a8 a9 a10 a11 a12 a13 a14 a15 a16 a17 a18 a19 a20) : IsReal a2 :=
  (pre_all h).2.1

theorem a1_range (h : PreHolds a0 a1 a2 a3 a4 a5 a6 a7 a8 a9 a10 a11 a12 a13 a14 a15 a16 a17 a18 a19 a20) : ∀ i : S2x320000.Idx, InRange (a1 i) :=
  (pre_all h).2.2.2.2.2.2.2.2.2.2.2.2.2.2.2.2.2.2.2.2

end Pre

abbrev sliceRow (a1 : IVec S2x320000 32) (off : Fin 2 → Nat) (hs : S2x320000.Slices off ⟨2, ![1, 320000]⟩)
    (hc : (⟨2, ![1, 320000]⟩ : Shape).ShapeCasts S320000) : IVec S320000 32 :=
  shapeCast S320000 (extractStridedSlice ⟨2, ![1, 320000]⟩ off a1 hs) hc

theorem sliceRow_range {a1 : IVec S2x320000 32} (h1 : ∀ i : S2x320000.Idx, InRange (a1 i)) (off : Fin 2 → Nat)
    (hs : S2x320000.Slices off ⟨2, ![1, 320000]⟩) (hc : (⟨2, ![1, 320000]⟩ : Shape).ShapeCasts S320000) (e : S320000.Idx) :
    InRange (sliceRow a1 off hs hc e) :=
  h1 _

end Cert.Bridge

end
-- ==== Proof.Bridge.MapReal.lean ====
import proofs.«415211_j35837207118569_3_alg».proof.Proof.Gen.KernelIdeal.Launch
import Idealize.ShloMosaic.PureOps.Ideal

set_option maxRecDepth 4096

noncomputable section

namespace Cert.Bridge

open Idealize.ShloMosaic Idealize.ShloMosaic.TcCoe Idealize.SL.Sem
open Cert.KernelIdeal Cert.KernelIdeal.Gen

theorem map_form (Vk : Valuation τ sig (Elt Ideal)) :
    ∃ c : IVec S10000x100 1,
      (StableHlo.after (hostOps3 (F := Ideal)) Vk main_v113 : FVec Ideal S10000x100 .f32) = uitofp (F := Ideal) .f32 c := by
  simp only [StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.nary_result_ne]; rotate_left; decide))
  rw [StableHlo.unary_result]
  exact ⟨_, rfl⟩

theorem map_real (Vk : Valuation τ sig (Elt Ideal)) :
    ∀ i : S10000x100.Idx, ∃ r : ℝ, StableHlo.after (hostOps3 (F := Ideal)) Vk main_v113 i = (r : EReal) := by
  intro i
  obtain ⟨c, hc⟩ := map_form Vk
  rw [hc]
  exact ⟨((c i).toNat : ℝ), rfl⟩

end Cert.Bridge

end
-- ==== Proof.Bridge.RowRange.lean ====
import proofs.«415211_j35837207118569_3_alg».proof.Proof.Bridge.PreFacts
import proofs.«415211_j35837207118569_3_alg».proof.Proof.Gen.KernelIdeal.Launch

set_option maxRecDepth 4096

noncomputable section

namespace Cert.Bridge

open Idealize.ShloMosaic Idealize.ShloMosaic.TcCoe Idealize.SL.Sem Idealize.ShloMosaic.StableHlo
open Cert.KernelIdeal Cert.KernelIdeal.Gen

theorem row_form (Vk : Valuation τ sig (Elt Ideal)) :
    (StableHlo.after (hostOps0 (F := Ideal)) Vk main_v1 : IVec S320000 32)
      = sliceRow (Vk main_arg1) ![0, 0] Facts₀.slices_S2x320000_S1x320000_0_0 Facts₀.shapeCasts_S1x320000_S320000 := by
  after_results
  rfl

theorem col_form (Vk : Valuation τ sig (Elt Ideal)) :
    (StableHlo.after (hostOps0 (F := Ideal)) Vk main_v3 : IVec S320000 32)
      = sliceRow (Vk main_arg1) ![1, 0] Facts₀.slices_S2x320000_S1x320000_1_0 Facts₀.shapeCasts_S1x320000_S320000 := by
  after_results
  rfl

theorem row_range (Vk : Valuation τ sig (Elt Ideal)) (h1 : ∀ i : S2x320000.Idx, InRange (Vk main_arg1 i)) :
    ∀ e : S320000.Idx, InRange (StableHlo.after (hostOps0 (F := Ideal)) Vk main_v1 e) := by
  intro e
  have hf := congrFun (row_form Vk) e
  rw [show (StableHlo.after (hostOps0 (F := Ideal)) Vk main_v1 e : BitVec 32) = _ from hf]
  exact sliceRow_range h1 _ _ _ e

theorem col_range (Vk : Valuation τ sig (Elt Ideal)) (h1 : ∀ i : S2x320000.Idx, InRange (Vk main_arg1 i)) :
    ∀ e : S320000.Idx, InRange (StableHlo.after (hostOps0 (F := Ideal)) Vk main_v3 e) := by
  intro e
  have hf := congrFun (col_form Vk) e
  rw [show (StableHlo.after (hostOps0 (F := Ideal)) Vk main_v3 e : BitVec 32) = _ from hf]
  exact sliceRow_range h1 _ _ _ e

end Cert.Bridge

end
-- ==== Proof.Bridge.Final.lean ====
import proofs.«415211_j35837207118569_3_alg».proof.Defs
import proofs.«415211_j35837207118569_3_alg».proof.Proof.KI.ValueRun
import proofs.«415211_j35837207118569_3_alg».proof.Proof.Bridge.FinalFront
import proofs.«415211_j35837207118569_3_alg».proof.Proof.Gen.Pre_finite_inputs
import proofs.«415211_j35837207118569_3_alg».proof.Proof.KI.Val3
import proofs.«415211_j35837207118569_3_alg».proof.Proof.Bridge.SimTail
import proofs.«415211_j35837207118569_3_alg».proof.Proof.Bridge.PoolVal
import proofs.«415211_j35837207118569_3_alg».proof.Proof.Bridge.PreFacts
import proofs.«415211_j35837207118569_3_alg».proof.Proof.Bridge.MapReal
import proofs.«415211_j35837207118569_3_alg».proof.Proof.Bridge.RowRange

noncomputable section

namespace Cert.Bridge

open Idealize.ShloMosaic Idealize.ShloMosaic.TcCoe Idealize.SL.Sem
open Idealize.ShloMosaic.StableHlo (after)
open Cert.KernelIdeal.Gen (V0 V1 V2 V3 V4 V5 V6 V7 V8 V9 V10 V11 V19)
open Cert.KI (outs VR)
open Cert.RI (W0 WA WB WC WD WE WF WG WH WI)

section

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

theorem ref_arg_H (r : Ref Cert.ReferenceIdeal.sig .tc) (hA : r ∉ Cert.RI.ropsA_W) (hB : r ∉ Cert.RI.ropsB_W) (hC : r ∉ Cert.RI.ropsC_W) (hD : r ∉ Cert.RI.ropsD_W)
    (hE : r ∉ Cert.RI.ropsE_W) (hF : r ∉ Cert.RI.ropsF_W) (hG : r ∉ Cert.RI.ropsG_W) (hH : r ∉ Cert.RI.ropsH_W) : WH m' c r = W0 m' c r :=
  (Cert.RI.WH_of m' c r hH).trans <| (Cert.RI.WG_of m' c r hG).trans <| (Cert.RI.WF_of m' c r hF).trans (ref_arg_E m' c r hA hB hC hD hE)

variable (hag : Agree m m' c)
include hag

variable (hpre : Cert.Pre_KernelIdeal m)
include hpre

theorem step_pool :
    after kTlHead (V10 m (outs m) c) Cert.KernelIdeal.main_v129 = WH m' c Cert.ReferenceIdeal.main_v134
    ∧ after kTlHead (V10 m (outs m) c) Cert.KernelIdeal.main_v130 = WH m' c Cert.ReferenceIdeal.main_v137
    ∧ after kTlHead (V10 m (outs m) c) Cert.KernelIdeal.main_v131 = WH m' c Cert.ReferenceIdeal.main_v139 := by
  have hrc := step_rowcol m m' c hag
  have h1 : ∀ i, InRange (V0 m c Cert.KernelIdeal.main_arg1 i) := a1_range (hpre c)
  refine pool_val (V8 m (outs m) c) (WG m' c) (outs m 10 Cert.KernelIdeal.main_v128 c) _ _ rfl rfl ?_ (step_map m m' c hag) ?_ ?_ ?_ ?_ (map_real _) ?_ ?_ ?_
  · intro a j
    refine (congrFun ((V10_out m (outs m) c).symm.trans (Cert.KI.outs_v128 m c)) _).trans ?_
    exact (Cert.KI.val3_apply (VR (V9 m (outs m))) c a j).trans (Cert.KI.atb_apply _ _ a j)
  ·
    refine (V8_h2 m (outs m) c).trans ((step_layer2 m m' c hag).trans ?_)
    exact ((Cert.RI.WG_of m' c Cert.ReferenceIdeal.main_v92 (by decide)).trans (Cert.RI.WF_of m' c Cert.ReferenceIdeal.main_v92 (by decide))).symm
  ·
    refine (V8_row m (outs m) c).trans (hrc.1.trans ?_)
    exact ((Cert.RI.WG_of m' c Cert.ReferenceIdeal.main_v1 (by decide)).trans <| (Cert.RI.WF_of m' c Cert.ReferenceIdeal.main_v1 (by decide)).trans <| (Cert.RI.WE_of m' c Cert.ReferenceIdeal.main_v1 (by decide)).trans (ref_row_D m' c)).symm
  · refine (V8_col m (outs m) c).trans (hrc.2.trans ?_)
    exact ((Cert.RI.WG_of m' c Cert.ReferenceIdeal.main_v3 (by decide)).trans <| (Cert.RI.WF_of m' c Cert.ReferenceIdeal.main_v3 (by decide)).trans <| (Cert.RI.WE_of m' c Cert.ReferenceIdeal.main_v3 (by decide)).trans (ref_col_D m' c)).symm
  ·
    refine (V8_arg2 m (outs m) c).trans (hag.arg.2.2.1.symm.trans ?_)
    exact ((Cert.RI.WG_of m' c Cert.ReferenceIdeal.main_arg2 (by decide)).trans <| (Cert.RI.WF_of m' c Cert.ReferenceIdeal.main_arg2 (by decide)).trans
      (ref_arg_E m' c Cert.ReferenceIdeal.main_arg2 (by decide) (by decide) (by decide) (by decide) (by decide))).symm
  ·
    rw [V8_arg2 m (outs m) c]; exact a2_real (hpre c)
  · rw [V8_row m (outs m) c]; exact row_range (V0 m c) h1
  · rw [V8_col m (outs m) c]; exact col_range (V0 m c) h1

theorem results_eq :
    V19 m (outs m) c Cert.KernelIdeal.main_v113 = WI m' c Cert.ReferenceIdeal.main_v117
    ∧ V19 m (outs m) c Cert.KernelIdeal.main_v137 = WI m' c Cert.ReferenceIdeal.main_v146
    ∧ V19 m (outs m) c Cert.KernelIdeal.main_v154 = WI m' c Cert.ReferenceIdeal.main_v163
    ∧ V19 m (outs m) c Cert.KernelIdeal.main_v197 = WI m' c Cert.ReferenceIdeal.main_v206
    ∧ V19 m (outs m) c Cert.KernelIdeal.main_v211 = WI m' c Cert.ReferenceIdeal.main_v220 := by
  have hmapH : after kTlHead (V10 m (outs m) c) Cert.KernelIdeal.main_v113 = WH m' c Cert.ReferenceIdeal.main_v117 :=
    (kTlHead_of (V10 m (outs m) c) Cert.KernelIdeal.main_v113 (by decide)).trans ((V10_map m (outs m) c).trans ((step_map m m' c hag).trans
      (Cert.RI.WH_of m' c Cert.ReferenceIdeal.main_v117 (by decide)).symm))
  obtain ⟨hreg, hadj, hss⟩ := step_pool m m' c hag hpre
  have a := hag.arg
  have h11 : after kTlHead (V10 m (outs m) c) Cert.KernelIdeal.main_arg11 = WH m' c Cert.ReferenceIdeal.main_arg11 :=
    (kTlHead_of (V10 m (outs m) c) Cert.KernelIdeal.main_arg11 (by decide)).trans ((V10_arg11 m (outs m) c).trans
      ((a.2.2.2.2.2.2.2.2.2.2.2.1).symm.trans (ref_arg_H m' c Cert.ReferenceIdeal.main_arg11 (by decide) (by decide) (by decide) (by decide) (by decide) (by decide) (by decide) (by decide)).symm))
  have h12 : after kTlHead (V10 m (outs m) c) Cert.KernelIdeal.main_arg12 = WH m' c Cert.ReferenceIdeal.main_arg12 :=
    (kTlHead_of (V10 m (outs m) c) Cert.KernelIdeal.main_arg12 (by decide)).trans ((V10_arg12 m (outs m) c).trans
      ((a.2.2.2.2.2.2.2.2.2.2.2.2.1).symm.trans (ref_arg_H m' c Cert.ReferenceIdeal.main_arg12 (by decide) (by decide) (by decide) (by decide) (by decide) (by decide) (by decide) (by decide)).symm))
  have h13 : after kTlHead (V10 m (outs m) c) Cert.KernelIdeal.main_arg13 = WH m' c Cert.ReferenceIdeal.main_arg13 :=
    (kTlHead_of (V10 m (outs m) c) Cert.KernelIdeal.main_arg13 (by decide)).trans ((V10_arg13 m (outs m) c).trans
      ((a.2.2.2.2.2.2.2.2.2.2.2.2.2.1).symm.trans (ref_arg_H m' c Cert.ReferenceIdeal.main_arg13 (by decide) (by decide) (by decide) (by decide) (by decide) (by decide) (by decide) (by decide)).symm))
  have h14 : after kTlHead (V10 m (outs m) c) Cert.KernelIdeal.main_arg14 = WH m' c Cert.ReferenceIdeal.main_arg14 :=
    (kTlHead_of (V10 m (outs m) c) Cert.KernelIdeal.main_arg14 (by decide)).trans ((V10_arg14 m (outs m) c).trans
      ((a.2.2.2.2.2.2.2.2.2.2.2.2.2.2.1).symm.trans (ref_arg_H m' c Cert.ReferenceIdeal.main_arg14 (by decide) (by decide) (by decide) (by decide) (by decide) (by decide) (by decide) (by decide)).symm))
  have h15 : after kTlHead (V10 m (outs m) c) Cert.KernelIdeal.main_arg15 = WH m' c Cert.ReferenceIdeal.main_arg15 :=
    (kTlHead_of (V10 m (outs m) c) Cert.KernelIdeal.main_arg15 (by decide)).trans ((V10_arg15 m (outs m) c).trans
      ((a.2.2.2.2.2.2.2.2.2.2.2.2.2.2.2.1).symm.trans (ref_arg_H m' c Cert.ReferenceIdeal.main_arg15 (by decide) (by decide) (by decide) (by decide) (by decide) (by decide) (by decide) (by decide)).symm))
  have h16 : after kTlHead (V10 m (outs m) c) Cert.KernelIdeal.main_arg16 = WH m' c Cert.ReferenceIdeal.main_arg16 :=
    (kTlHead_of (V10 m (outs m) c) Cert.KernelIdeal.main_arg16 (by decide)).trans ((V10_arg16 m (outs m) c).trans
      ((a.2.2.2.2.2.2.2.2.2.2.2.2.2.2.2.2.1).symm.trans (ref_arg_H m' c Cert.ReferenceIdeal.main_arg16 (by decide) (by decide) (by decide) (by decide) (by decide) (by decide) (by decide) (by decide)).symm))
  have h17 : after kTlHead (V10 m (outs m) c) Cert.KernelIdeal.main_arg17 = WH m' c Cert.ReferenceIdeal.main_arg17 :=
    (kTlHead_of (V10 m (outs m) c) Cert.KernelIdeal.main_arg17 (by decide)).trans ((V10_arg17 m (outs m) c).trans
      ((a.2.2.2.2.2.2.2.2.2.2.2.2.2.2.2.2.2.1).symm.trans (ref_arg_H m' c Cert.ReferenceIdeal.main_arg17 (by decide) (by decide) (by decide) (by decide) (by decide) (by decide) (by decide) (by decide)).symm))
  have h18 : after kTlHead (V10 m (outs m) c) Cert.KernelIdeal.main_arg18 = WH m' c Cert.ReferenceIdeal.main_arg18 :=
    (kTlHead_of (V10 m (outs m) c) Cert.KernelIdeal.main_arg18 (by decide)).trans ((V10_arg18 m (outs m) c).trans
      ((a.2.2.2.2.2.2.2.2.2.2.2.2.2.2.2.2.2.2.1).symm.trans (ref_arg_H m' c Cert.ReferenceIdeal.main_arg18 (by decide) (by decide) (by decide) (by decide) (by decide) (by decide) (by decide) (by decide)).symm))
  have h19 : after kTlHead (V10 m (outs m) c) Cert.KernelIdeal.main_arg19 = WH m' c Cert.ReferenceIdeal.main_arg19 :=
    (kTlHead_of (V10 m (outs m) c) Cert.KernelIdeal.main_arg19 (by decide)).trans ((V10_arg19 m (outs m) c).trans
      ((a.2.2.2.2.2.2.2.2.2.2.2.2.2.2.2.2.2.2.2.1).symm.trans (ref_arg_H m' c Cert.ReferenceIdeal.main_arg19 (by decide) (by decide) (by decide) (by decide) (by decide) (by decide) (by decide) (by decide)).symm))
  have h20 : after kTlHead (V10 m (outs m) c) Cert.KernelIdeal.main_arg20 = WH m' c Cert.ReferenceIdeal.main_arg20 :=
    (kTlHead_of (V10 m (outs m) c) Cert.KernelIdeal.main_arg20 (by decide)).trans ((V10_arg20 m (outs m) c).trans
      ((a.2.2.2.2.2.2.2.2.2.2.2.2.2.2.2.2.2.2.2.2).symm.trans (ref_arg_H m' c Cert.ReferenceIdeal.main_arg20 (by decide) (by decide) (by decide) (by decide) (by decide) (by decide) (by decide) (by decide)).symm))
  have ht := simTail (after kTlHead (V10 m (outs m) c)) (WH m' c) hmapH hreg hadj hss h11 h12 h13 h14 h15 h16 h17 h18 h19 h20
  have hk : V19 m (outs m) c = kTail (after kTlHead (V10 m (outs m) c)) := kTail_eq (V10 m (outs m) c)
  have hr : WI m' c = rTail (WH m' c) := rTail_eq (WH m' c)
  refine ⟨?_, ?_, ?_, ?_, ?_⟩
  · exact (V19_map m (outs m) c).trans ((step_map m m' c hag).trans
      ((Cert.RI.WI_of m' c Cert.ReferenceIdeal.main_v117 (by decide)).trans (Cert.RI.WH_of m' c Cert.ReferenceIdeal.main_v117 (by decide))).symm)
  · exact (congrFun hk _).trans (ht.1.trans (congrFun hr _).symm)
  · exact (congrFun hk _).trans (ht.2.1.trans (congrFun hr _).symm)
  · exact (congrFun hk _).trans (ht.2.2.1.trans (congrFun hr _).symm)
  · exact (congrFun hk _).trans (ht.2.2.2.trans (congrFun hr _).symm)

end

theorem algebraic : Cert.algebraic_KernelIdeal_ReferenceIdeal := by
  intro m ρ m' ρ' hpre hag
  refine ⟨fun c => V19 m (outs m) c Cert.KernelIdeal.main_v113, fun c => V19 m (outs m) c Cert.KernelIdeal.main_v137, fun c => V19 m (outs m) c Cert.KernelIdeal.main_v154,
    fun c => V19 m (outs m) c Cert.KernelIdeal.main_v197, fun c => V19 m (outs m) c Cert.KernelIdeal.main_v211, Cert.KI.value_run m ρ, ?_⟩
  refine (θ_run (Cert.ReferenceIdeal.defs (F := Ideal)) _ _).mono (fun r h c => ?_) (Cert.RI.run_all m' ρ')
  obtain ⟨e0, e1, e2, e3, e4⟩ := results_eq m m' c (hag c) hpre
  exact ⟨(h c _).trans e0.symm, (h c _).trans e1.symm, (h c _).trans e2.symm, (h c _).trans e3.symm, (h c _).trans e4.symm,
    (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _), (h c _).trans (Cert.RI.WI_keep m' c _)⟩

end Cert.Bridge

end
-- ==== Proof.lean ====
import proofs.«415211_j35837207118569_3_alg».proof.Defs
import proofs.«415211_j35837207118569_3_alg».proof.Proof.Gen.Kernel
import proofs.«415211_j35837207118569_3_alg».proof.Proof.Gen.KernelIdeal
import proofs.«415211_j35837207118569_3_alg».proof.Proof.Gen.ReferenceIdeal
import proofs.«415211_j35837207118569_3_alg».proof.Proof.Gen.Pre_finite_inputs
import proofs.«415211_j35837207118569_3_alg».proof.Proof.K.Assemble
import proofs.«415211_j35837207118569_3_alg».proof.Proof.KI.Assemble
import proofs.«415211_j35837207118569_3_alg».proof.Proof.RI.Persist
import proofs.«415211_j35837207118569_3_alg».proof.Proof.Bridge.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.K.frame, Cert.KI.frame, Cert.RI.frame,
    trivial,
    Cert.Bridge.algebraic⟩

end Cert.Proof

end
